-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v131)) (v1 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_v126) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S64x2 .f32) (main_arg14 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x2 .f32 := Host.absf main_arg13
  let main_cst_20 : FVec F S_ .f32 := constant S_ .f32 0x7F800000#32
  let main_v55 : FVec F S64x2 .f32 := broadcastInDim S64x2 ![] bcast_S_S64x2 main_cst_20
  let main_v56 : IVec S64x2 1 := cmpf .olt main_v54 main_v55
  let main_c_21 : IVec S_ 1 := constantI S_ 1 1#1
  let main_v57 : IVec S_ 1 := (fun x v => Host.reduce IntOp.andi x v reducesTo_S64x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S64x64 .f32) (main_arg10 : FVec F S64 .f32) (main_arg11 : FVec F S64 .f32) (main_arg12 : FVec F S64 .f32) (main_arg13 : FVec F S64x2 .f32) (main_arg14 : FVec F S2 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S3x64 .f32) (main_arg7 : FVec F S3x64x64 .f32) (main_arg8 : FVec F S3x64 .f32) (main_arg9 : FVec F S64x64 .f32) (main_arg10 : FVec F S64 .f32) (main_arg11 : FVec F S64 .f32) (main_arg12 : FVec F S64 .f32) (main_arg13 : FVec F S64x2 .f32) (main_arg14 : FVec F S2 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : IVec S2x1000000 32) (main_arg2 : IVec S100000 32) (main_arg3 : FVec F S3x64x64 .f32) (main_arg4 : FVec F S3x64 .f32) (main_arg5 : FVec F S3x64 .f32) (main_arg6 : FVec F S3x64 .f32) (main_arg7 : FVec F S3x64x64 .f32) (main_arg8 : FVec F S3x64 .f32) (main_arg9 : FVec F S64x64 .f32) (main_arg10 : FVec F S64 .f32) (main_arg11 : FVec F S64 .f32) (main_arg12 : FVec F S64 .f32) (main_arg13 : FVec F S64x2 .f32) (main_arg14 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64x64 : Shape := ⟨3, ![1, 64, 64]⟩
abbrev S1x64 : Shape := ⟨2, ![1, 64]⟩
abbrev S5000x64 : Shape := ⟨2, ![5000, 64]⟩
abbrev S256x64 : Shape := ⟨2, ![256, 64]⟩
abbrev S100000x1 : Shape := ⟨2, ![100000, 1]⟩
abbrev S1x2 : Shape := ⟨2, ![1, 2]⟩
abbrev S256x2 : Shape := ⟨2, ![256, 2]⟩

abbrev nBuf : Space → Nat
  | .hbm => 166
  | .vmem => 68
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S3x64x64, .f32⟩
  | 8 => ⟨S3x64, .f32⟩
  | 9 => ⟨S64x64, .f32⟩
  | 10 => ⟨S64, .f32⟩
  | 11 => ⟨S64, .f32⟩
  | 12 => ⟨S64, .f32⟩
  | 13 => ⟨S64x2, .f32⟩
  | 14 => ⟨S2, .f32⟩
  | 15 => ⟨S1x1000000, .i32⟩
  | 16 => ⟨S1000000, .i32⟩
  | 17 => ⟨S1x1000000, .i32⟩
  | 18 => ⟨S1000000, .i32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x64, .f32⟩
  | 28 => ⟨S_, .f32⟩
  | 29 => ⟨S100000x64, .f32⟩
  | 30 => ⟨S1000000x1, .i32⟩
  | 31 => ⟨S100000x64, .f32⟩
  | 32 => ⟨S100000x64, .f32⟩
  | 33 => ⟨S1x64x64, .f32⟩
  | 34 => ⟨S64x64, .f32⟩
  | 35 => ⟨S1x64, .f32⟩
  | 36 => ⟨S64, .f32⟩
  | 37 => ⟨S1x64, .f32⟩
  | 38 => ⟨S1x64, .f32⟩
  | 39 => ⟨S1x64, .f32⟩
  | 40 => ⟨S_, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S1x64, .f32⟩
  | 47 => ⟨S1x64, .f32⟩
  | 48 => ⟨S1x64x64, .f32⟩
  | 49 => ⟨S64x64, .f32⟩
  | 50 => ⟨S1x64, .f32⟩
  | 51 => ⟨S64, .f32⟩
  | 52 => ⟨S1x64, .f32⟩
  | 53 => ⟨S64, .f32⟩
  | 54 => ⟨S1x64, .f32⟩
  | 55 => ⟨S64, .f32⟩
  | 56 => ⟨S1x64x64, .f32⟩
  | 57 => ⟨S64x64, .f32⟩
  | 58 => ⟨S1x64, .f32⟩
  | 59 => ⟨S64, .f32⟩
  | 60 => ⟨S1x64, .f32⟩
  | 61 => ⟨S1x64, .f32⟩
  | 62 => ⟨S1x64, .f32⟩
  | 63 => ⟨S1x64, .f32⟩
  | 64 => ⟨S100000x64, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x64, .f32⟩
  | 74 => ⟨S_, .f32⟩
  | 75 => ⟨S100000x64, .f32⟩
  | 76 => ⟨S1000000x1, .i32⟩
  | 77 => ⟨S100000x64, .f32⟩
  | 78 => ⟨S100000x64, .f32⟩
  | 79 => ⟨S1x64x64, .f32⟩
  | 80 => ⟨S64x64, .f32⟩
  | 81 => ⟨S1x64, .f32⟩
  | 82 => ⟨S64, .f32⟩
  | 83 => ⟨S1x64, .f32⟩
  | 84 => ⟨S1x64, .f32⟩
  | 85 => ⟨S1x64, .f32⟩
  | 86 => ⟨S_, .f32⟩
  | 87 => ⟨S1x64, .f32⟩
  | 88 => ⟨S1x64, .f32⟩
  | 89 => ⟨S_, .f32⟩
  | 90 => ⟨S1x64, .f32⟩
  | 91 => ⟨S1x64, .f32⟩
  | 92 => ⟨S1x64, .f32⟩
  | 93 => ⟨S1x64, .f32⟩
  | 94 => ⟨S1x64x64, .f32⟩
  | 95 => ⟨S64x64, .f32⟩
  | 96 => ⟨S1x64, .f32⟩
  | 97 => ⟨S64, .f32⟩
  | 98 => ⟨S1x64, .f32⟩
  | 99 => ⟨S64, .f32⟩
  | 100 => ⟨S1x64, .f32⟩
  | 101 => ⟨S64, .f32⟩
  | 102 => ⟨S1x64x64, .f32⟩
  | 103 => ⟨S64x64, .f32⟩
  | 104 => ⟨S1x64, .f32⟩
  | 105 => ⟨S64, .f32⟩
  | 106 => ⟨S1x64, .f32⟩
  | 107 => ⟨S1x64, .f32⟩
  | 108 => ⟨S1x64, .f32⟩
  | 109 => ⟨S1x64, .f32⟩
  | 110 => ⟨S100000x64, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i32⟩
  | 117 => ⟨S1000000, .i32⟩
  | 118 => ⟨S1000000x1, .i32⟩
  | 119 => ⟨S1000000x64, .f32⟩
  | 120 => ⟨S_, .f32⟩
  | 121 => ⟨S100000x64, .f32⟩
  | 122 => ⟨S1000000x1, .i32⟩
  | 123 => ⟨S100000x64, .f32⟩
  | 124 => ⟨S100000x64, .f32⟩
  | 125 => ⟨S1x64x64, .f32⟩
  | 126 => ⟨S64x64, .f32⟩
  | 127 => ⟨S1x64, .f32⟩
  | _ => ⟨S100000x64, .f32⟩

abbrev hbmTy0_1 (i : Nat) : BufTy := match i % 128 with
  | 0 => ⟨S64, .f32⟩
  | 1 => ⟨S1x64, .f32⟩
  | 2 => ⟨S1x64, .f32⟩
  | 3 => ⟨S1x64, .f32⟩
  | 4 => ⟨S_, .f32⟩
  | 5 => ⟨S1x64, .f32⟩
  | 6 => ⟨S1x64, .f32⟩
  | 7 => ⟨S_, .f32⟩
  | 8 => ⟨S1x64, .f32⟩
  | 9 => ⟨S1x64, .f32⟩
  | 10 => ⟨S1x64, .f32⟩
  | 11 => ⟨S1x64, .f32⟩
  | 12 => ⟨S1x64x64, .f32⟩
  | 13 => ⟨S64x64, .f32⟩
  | 14 => ⟨S1x64, .f32⟩
  | 15 => ⟨S64, .f32⟩
  | 16 => ⟨S1x64, .f32⟩
  | 17 => ⟨S64, .f32⟩
  | 18 => ⟨S1x64, .f32⟩
  | 19 => ⟨S64, .f32⟩
  | 20 => ⟨S1x64x64, .f32⟩
  | 21 => ⟨S64x64, .f32⟩
  | 22 => ⟨S1x64, .f32⟩
  | 23 => ⟨S64, .f32⟩
  | 24 => ⟨S1x64, .f32⟩
  | 25 => ⟨S1x64, .f32⟩
  | 26 => ⟨S1x64, .f32⟩
  | 27 => ⟨S1x64, .f32⟩
  | 28 => ⟨S100000x64, .f32⟩
  | 29 => ⟨S_, .f32⟩
  | 30 => ⟨S256x64, .f32⟩
  | 31 => ⟨S100000x1, .i32⟩
  | 32 => ⟨S256x64, .f32⟩
  | 33 => ⟨S1x64, .f32⟩
  | 34 => ⟨S1x64, .f32⟩
  | 35 => ⟨S1x64, .f32⟩
  | 36 => ⟨S1x2, .f32⟩
  | 37 => ⟨S256x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S64x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S64x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S256x64, .f32⟩
  | .local _ .vmem, ⟨61, _⟩ => ⟨S64x64, .f32⟩
  | .local _ .vmem, ⟨62, _⟩ => ⟨S1x64, .f32⟩
  | .local _ .vmem, ⟨63, _⟩ => ⟨S1x64, .f32⟩
  | .local _ .vmem, ⟨64, _⟩ => ⟨S1x64, .f32⟩
  | .local _ .vmem, ⟨65, _⟩ => ⟨S64x2, .f32⟩
  | .local _ .vmem, ⟨66, _⟩ => ⟨S1x2, .f32⟩
  | .local _ .vmem, ⟨67, _⟩ => ⟨S256x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20_0 : Ref sig .tc := ⟨.hbm, 38, rfl⟩
abbrev main_v20_1 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_3 : Ref sig .tc := ⟨.hbm, 65, rfl⟩
abbrev main_v44 : Ref sig .tc := ⟨.hbm, 66, rfl⟩
abbrev main_v45 : Ref sig .tc := ⟨.hbm, 67, rfl⟩
abbrev main_c_4 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60_0 : Ref sig .tc := ⟨.hbm, 84, rfl⟩
abbrev main_v60_1 : Ref sig .tc := ⟨.hbm, 85, rfl⟩
abbrev main_cst_6 : Ref sig .tc := ⟨.hbm, 86, rfl⟩
abbrev main_v61 : Ref sig .tc := ⟨.hbm, 87, rfl⟩
abbrev main_v62 : Ref sig .tc := ⟨.hbm, 88, rfl⟩
abbrev main_cst_7 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_8 : Ref sig .tc := ⟨.hbm, 111, rfl⟩
abbrev main_v84 : Ref sig .tc := ⟨.hbm, 112, rfl⟩
abbrev main_v85 : Ref sig .tc := ⟨.hbm, 113, rfl⟩
abbrev main_c_9 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_10 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100_0 : Ref sig .tc := ⟨.hbm, 130, rfl⟩
abbrev main_v100_1 : Ref sig .tc := ⟨.hbm, 131, rfl⟩
abbrev main_cst_11 : Ref sig .tc := ⟨.hbm, 132, rfl⟩
abbrev main_v101 : Ref sig .tc := ⟨.hbm, 133, rfl⟩
abbrev main_v102 : Ref sig .tc := ⟨.hbm, 134, rfl⟩
abbrev main_cst_12 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_13 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_scratch0 : Ref sig .tc := ⟨.vmem, 26, rfl⟩
abbrev cc2_scratch1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg9_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_scratch0 : Ref sig .tc := ⟨.vmem, 46, rfl⟩
abbrev cc4_scratch1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg6_0 : Ref sig .tc := ⟨.vmem, 55, rfl⟩
abbrev cc5_stg7_0 : Ref sig .tc := ⟨.vmem, 56, rfl⟩
abbrev cc5_stg8_0 : Ref sig .tc := ⟨.vmem, 57, rfl⟩
abbrev cc5_stg9_0 : Ref sig .tc := ⟨.vmem, 58, rfl⟩
abbrev cc5_stg9_1 : Ref sig .tc := ⟨.vmem, 59, rfl⟩
abbrev cc6_stg0_0 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg6_0 : Ref sig .tc := ⟨.vmem, 66, rfl⟩
abbrev cc6_stg7_0 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem8_0 : DmaSem sig := 33
abbrev cc3_sem9_0 : DmaSem sig := 34
abbrev cc3_sem9_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem6_0 : DmaSem sig := 49
abbrev cc5_sem7_0 : DmaSem sig := 50
abbrev cc5_sem8_0 : DmaSem sig := 51
abbrev cc5_sem9_0 : DmaSem sig := 52
abbrev cc5_sem9_1 : DmaSem sig := 53
abbrev cc6_sem0_0 : DmaSem sig := 54
abbrev cc6_sem1_0 : DmaSem sig := 55
abbrev cc6_sem2_0 : DmaSem sig := 56
abbrev cc6_sem3_0 : DmaSem sig := 57
abbrev cc6_sem4_0 : DmaSem sig := 58
abbrev cc6_sem5_0 : DmaSem sig := 59
abbrev cc6_sem6_0 : DmaSem sig := 60
abbrev cc6_sem7_0 : DmaSem sig := 61

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v29 : BitVec 1 := Scalar.cmpi .eq arg0 c19_i32
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v29 : BitVec 1 := Scalar.cmpi .eq arg0 c19_i32
  let v30 : BitVec 32 := Scalar.extui v29
  let c0_i32_16 : BitVec 32 := 0#32
  let v31 : BitVec 1 := Scalar.cmpi .ne v30 c0_i32_16
  v31

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v29 : BitVec 1 := Scalar.cmpi .eq arg0 c19_i32
  let v30 : BitVec 32 := Scalar.extui v29
  let c0_i32_16 : BitVec 32 := 0#32
  let v31 : BitVec 1 := Scalar.cmpi .ne v30 c0_i32_16
  v31

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x64 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x2 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x2 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S256x2 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  reduces_S5000x64_S64 : S5000x64.Reduces [0] S64
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S256x64 : S_.BroadcastsInDim S256x64 (![] : Fin 0 → Fin S256x64.rank)
  bcast_S100000_S100000x1_0 : S100000.BroadcastsInDim S100000x1 (![0] : Fin 1 → Fin S100000x1.rank)
  shapeCasts_S2_S1x2 : S2.ShapeCasts S1x2
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S1x64_S256x64 : S1x64.Broadcasts S256x64
  reduces_S256x64_S64 : S256x64.Reduces [0] S64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  scatter_S256x64_S100000x1_S100000x64_1_0_0_1_wf : ScatterDims.WF S256x64 S100000x1 S100000x64 [1] [0] [0] 1
  dot_S256x64_S64x64_S256x64_1_0_0_1_n_n_wf : DotDims.WF S256x64 S64x64 S256x64 [1] [0] [0] [1] [] []
  dot_S256x64_S64x2_S256x2_1_0_0_1_n_n_wf : DotDims.WF S256x64 S64x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x64.size a ≤ S100000x64.size a
  hwx3_9 : ∀ i : grid3.Coords, EltTy.bits .f32 = 32 ∨ (Rect.block (s := S100000x64) S5000x64.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64x64.size a ≤ S64x64.size a
  hwx5_7 : ∀ i : grid5.Coords, EltTy.bits .f32 = 32 ∨ (Rect.block (s := S64x64) S64x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x64.size a ≤ S1x64.size a
  hwx5_8 : ∀ i : grid5.Coords, EltTy.bits .f32 = 32 ∨ (Rect.block (s := S1x64) S1x64.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x64.size a ≤ S100000x64.size a
  hwx5_9 : ∀ i : grid5.Coords, EltTy.bits .f32 = 32 ∨ (Rect.block (s := S100000x64) S5000x64.size (cc5_transform_9 i) (hinb5_9 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S256x64.size a ≤ S256x64.size a
  hwx6_0 : ∀ i : grid6.Coords, EltTy.bits .f32 = 32 ∨ (Rect.block (s := S256x64) S256x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x2.size a ≤ S64x2.size a
  hwx6_5 : ∀ i : grid6.Coords, EltTy.bits .f32 = 32 ∨ (Rect.block (s := S64x2) S64x2.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x2.size a ≤ S1x2.size a
  hwx6_6 : ∀ i : grid6.Coords, EltTy.bits .f32 = 32 ∨ (Rect.block (s := S1x2) S1x2.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S256x2.size a ≤ S256x2.size a
  hwx6_7 : ∀ i : grid6.Coords, EltTy.bits .f32 = 32 ∨ (Rect.block (s := S256x2) S256x2.size (cc6_transform_7 i) (hinb6_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

abbrev win0_0 : Pipeline.Window sig grid0 :=
  Pipeline.Window.ofSpec (Memref.whole main_v14) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S1x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S1x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v43) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v54) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60_0) S1x64.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60_1) S1x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v54) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v81) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v76) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v82) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v83) S5000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v94) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v96) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v99) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v100_0) S1x64.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v100_1) S1x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond2 i == 1#1) | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v94) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v108) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v119) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v102) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v106) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v120) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v121) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v116) S64x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v122) S1x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v123) S5000x64.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v126) S256x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v127) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v128) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v129) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg13) S64x2.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v130) S1x2.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v131) S256x2.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64x64 : Shape := ⟨3, ![1, 64, 64]⟩
abbrev S1x64 : Shape := ⟨2, ![1, 64]⟩
abbrev S256x64 : Shape := ⟨2, ![256, 64]⟩
abbrev S100000x1 : Shape := ⟨2, ![100000, 1]⟩
abbrev S256x2 : Shape := ⟨2, ![256, 2]⟩
abbrev S1x2 : Shape := ⟨2, ![1, 2]⟩

abbrev nBuf : Space → Nat
  | .hbm => 330
  | .vmem => 0
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S3x64x64, .f32⟩
  | 8 => ⟨S3x64, .f32⟩
  | 9 => ⟨S64x64, .f32⟩
  | 10 => ⟨S64, .f32⟩
  | 11 => ⟨S64, .f32⟩
  | 12 => ⟨S64, .f32⟩
  | 13 => ⟨S64x2, .f32⟩
  | 14 => ⟨S2, .f32⟩
  | 15 => ⟨S1x1000000, .i32⟩
  | 16 => ⟨S1000000, .i32⟩
  | 17 => ⟨S1x1000000, .i32⟩
  | 18 => ⟨S1000000, .i32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x64, .f32⟩
  | 28 => ⟨S_, .f32⟩
  | 29 => ⟨S100000x64, .f32⟩
  | 30 => ⟨S1000000x1, .i32⟩
  | 31 => ⟨S100000x64, .f32⟩
  | 32 => ⟨S100000x64, .f32⟩
  | 33 => ⟨S1x64x64, .f32⟩
  | 34 => ⟨S64x64, .f32⟩
  | 35 => ⟨S100000x64, .f32⟩
  | 36 => ⟨S1x64, .f32⟩
  | 37 => ⟨S64, .f32⟩
  | 38 => ⟨S1x64, .f32⟩
  | 39 => ⟨S100000x64, .f32⟩
  | 40 => ⟨S100000x64, .f32⟩
  | 41 => ⟨S1x64, .f32⟩
  | 42 => ⟨S64, .f32⟩
  | 43 => ⟨S1x64, .f32⟩
  | 44 => ⟨S64, .f32⟩
  | 45 => ⟨S_, .f32⟩
  | 46 => ⟨S64, .f32⟩
  | 47 => ⟨S_, .f32⟩
  | 48 => ⟨S64, .f32⟩
  | 49 => ⟨S64, .f32⟩
  | 50 => ⟨S_, .i32⟩
  | 51 => ⟨S_, .f32⟩
  | 52 => ⟨S64, .f32⟩
  | 53 => ⟨S1x64, .f32⟩
  | 54 => ⟨S_, .f32⟩
  | 55 => ⟨S1x64, .f32⟩
  | 56 => ⟨S1x64, .f32⟩
  | 57 => ⟨S100000x64, .f32⟩
  | 58 => ⟨S100000x64, .f32⟩
  | 59 => ⟨S100000x64, .f32⟩
  | 60 => ⟨S_, .f32⟩
  | 61 => ⟨S_, .f32⟩
  | 62 => ⟨S_, .f32⟩
  | 63 => ⟨S_, .f32⟩
  | 64 => ⟨S64, .f32⟩
  | 65 => ⟨S64, .f32⟩
  | 66 => ⟨S64, .f32⟩
  | 67 => ⟨S_, .f32⟩
  | 68 => ⟨S_, .i1⟩
  | 69 => ⟨S_, .f32⟩
  | 70 => ⟨S_, .f32⟩
  | 71 => ⟨S64, .f32⟩
  | 72 => ⟨S64, .f32⟩
  | 73 => ⟨S1x64, .f32⟩
  | 74 => ⟨S100000x64, .f32⟩
  | 75 => ⟨S100000x64, .f32⟩
  | 76 => ⟨S_, .f32⟩
  | 77 => ⟨S64, .f32⟩
  | 78 => ⟨S64, .f32⟩
  | 79 => ⟨S64, .f32⟩
  | 80 => ⟨S1x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S1x64x64, .f32⟩
  | 93 => ⟨S64x64, .f32⟩
  | 94 => ⟨S100000x64, .f32⟩
  | 95 => ⟨S1x64, .f32⟩
  | 96 => ⟨S64, .f32⟩
  | 97 => ⟨S1x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S_, .i32⟩
  | 104 => ⟨S1000000, .i32⟩
  | 105 => ⟨S1000000, .i1⟩
  | 106 => ⟨S_, .i32⟩
  | 107 => ⟨S1000000, .i32⟩
  | 108 => ⟨S1000000, .i32⟩
  | 109 => ⟨S1000000, .i32⟩
  | 110 => ⟨S1000000x1, .i32⟩
  | 111 => ⟨S1000000x64, .f32⟩
  | 112 => ⟨S_, .f32⟩
  | 113 => ⟨S100000x64, .f32⟩
  | 114 => ⟨S1000000x1, .i32⟩
  | 115 => ⟨S100000x64, .f32⟩
  | 116 => ⟨S100000x64, .f32⟩
  | 117 => ⟨S1x64x64, .f32⟩
  | 118 => ⟨S64x64, .f32⟩
  | 119 => ⟨S100000x64, .f32⟩
  | 120 => ⟨S1x64, .f32⟩
  | 121 => ⟨S64, .f32⟩
  | 122 => ⟨S1x64, .f32⟩
  | 123 => ⟨S100000x64, .f32⟩
  | 124 => ⟨S100000x64, .f32⟩
  | 125 => ⟨S1x64, .f32⟩
  | 126 => ⟨S64, .f32⟩
  | 127 => ⟨S1x64, .f32⟩
  | _ => ⟨S100000x64, .f32⟩

abbrev hbmTy0_1 (i : Nat) : BufTy := match i % 128 with
  | 0 => ⟨S64, .f32⟩
  | 1 => ⟨S_, .f32⟩
  | 2 => ⟨S64, .f32⟩
  | 3 => ⟨S_, .f32⟩
  | 4 => ⟨S64, .f32⟩
  | 5 => ⟨S64, .f32⟩
  | 6 => ⟨S_, .i32⟩
  | 7 => ⟨S_, .f32⟩
  | 8 => ⟨S64, .f32⟩
  | 9 => ⟨S1x64, .f32⟩
  | 10 => ⟨S_, .f32⟩
  | 11 => ⟨S1x64, .f32⟩
  | 12 => ⟨S1x64, .f32⟩
  | 13 => ⟨S100000x64, .f32⟩
  | 14 => ⟨S100000x64, .f32⟩
  | 15 => ⟨S100000x64, .f32⟩
  | 16 => ⟨S_, .f32⟩
  | 17 => ⟨S_, .f32⟩
  | 18 => ⟨S_, .f32⟩
  | 19 => ⟨S_, .f32⟩
  | 20 => ⟨S64, .f32⟩
  | 21 => ⟨S64, .f32⟩
  | 22 => ⟨S64, .f32⟩
  | 23 => ⟨S_, .f32⟩
  | 24 => ⟨S_, .i1⟩
  | 25 => ⟨S_, .f32⟩
  | 26 => ⟨S_, .f32⟩
  | 27 => ⟨S64, .f32⟩
  | 28 => ⟨S64, .f32⟩
  | 29 => ⟨S1x64, .f32⟩
  | 30 => ⟨S100000x64, .f32⟩
  | 31 => ⟨S100000x64, .f32⟩
  | 32 => ⟨S_, .f32⟩
  | 33 => ⟨S64, .f32⟩
  | 34 => ⟨S64, .f32⟩
  | 35 => ⟨S64, .f32⟩
  | 36 => ⟨S1x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S1x64x64, .f32⟩
  | 49 => ⟨S64x64, .f32⟩
  | 50 => ⟨S100000x64, .f32⟩
  | 51 => ⟨S1x64, .f32⟩
  | 52 => ⟨S64, .f32⟩
  | 53 => ⟨S1x64, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i32⟩
  | 65 => ⟨S1000000, .i32⟩
  | 66 => ⟨S1000000x1, .i32⟩
  | 67 => ⟨S1000000x64, .f32⟩
  | 68 => ⟨S_, .f32⟩
  | 69 => ⟨S100000x64, .f32⟩
  | 70 => ⟨S1000000x1, .i32⟩
  | 71 => ⟨S100000x64, .f32⟩
  | 72 => ⟨S100000x64, .f32⟩
  | 73 => ⟨S1x64x64, .f32⟩
  | 74 => ⟨S64x64, .f32⟩
  | 75 => ⟨S100000x64, .f32⟩
  | 76 => ⟨S1x64, .f32⟩
  | 77 => ⟨S64, .f32⟩
  | 78 => ⟨S1x64, .f32⟩
  | 79 => ⟨S100000x64, .f32⟩
  | 80 => ⟨S100000x64, .f32⟩
  | 81 => ⟨S1x64, .f32⟩
  | 82 => ⟨S64, .f32⟩
  | 83 => ⟨S1x64, .f32⟩
  | 84 => ⟨S64, .f32⟩
  | 85 => ⟨S_, .f32⟩
  | 86 => ⟨S64, .f32⟩
  | 87 => ⟨S_, .f32⟩
  | 88 => ⟨S64, .f32⟩
  | 89 => ⟨S64, .f32⟩
  | 90 => ⟨S_, .i32⟩
  | 91 => ⟨S_, .f32⟩
  | 92 => ⟨S64, .f32⟩
  | 93 => ⟨S1x64, .f32⟩
  | 94 => ⟨S_, .f32⟩
  | 95 => ⟨S1x64, .f32⟩
  | 96 => ⟨S1x64, .f32⟩
  | 97 => ⟨S100000x64, .f32⟩
  | 98 => ⟨S100000x64, .f32⟩
  | 99 => ⟨S100000x64, .f32⟩
  | 100 => ⟨S_, .f32⟩
  | 101 => ⟨S_, .f32⟩
  | 102 => ⟨S_, .f32⟩
  | 103 => ⟨S_, .f32⟩
  | 104 => ⟨S64, .f32⟩
  | 105 => ⟨S64, .f32⟩
  | 106 => ⟨S64, .f32⟩
  | 107 => ⟨S_, .f32⟩
  | 108 => ⟨S_, .i1⟩
  | 109 => ⟨S_, .f32⟩
  | 110 => ⟨S_, .f32⟩
  | 111 => ⟨S64, .f32⟩
  | 112 => ⟨S64, .f32⟩
  | 113 => ⟨S1x64, .f32⟩
  | 114 => ⟨S100000x64, .f32⟩
  | 115 => ⟨S100000x64, .f32⟩
  | 116 => ⟨S_, .f32⟩
  | 117 => ⟨S64, .f32⟩
  | 118 => ⟨S64, .f32⟩
  | 119 => ⟨S64, .f32⟩
  | 120 => ⟨S1x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S1x64, .f32⟩
  | 127 => ⟨S100000x64, .f32⟩
  | _ => ⟨S100000x64, .f32⟩

abbrev hbmTy0_2 (i : Nat) : BufTy := match i % 128 with
  | 0 => ⟨S100000x64, .f32⟩
  | 1 => ⟨S_, .f32⟩
  | 2 => ⟨S100000x64, .f32⟩
  | 3 => ⟨S100000x64, .f32⟩
  | 4 => ⟨S1x64x64, .f32⟩
  | 5 => ⟨S64x64, .f32⟩
  | 6 => ⟨S100000x64, .f32⟩
  | 7 => ⟨S1x64, .f32⟩
  | 8 => ⟨S64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S_, .f32⟩
  | 16 => ⟨S256x64, .f32⟩
  | 17 => ⟨S100000x1, .i32⟩
  | 18 => ⟨S256x64, .f32⟩
  | 19 => ⟨S256x64, .f32⟩
  | 20 => ⟨S1x64, .f32⟩
  | 21 => ⟨S256x64, .f32⟩
  | 22 => ⟨S256x64, .f32⟩
  | 23 => ⟨S_, .f32⟩
  | 24 => ⟨S64, .f32⟩
  | 25 => ⟨S_, .f32⟩
  | 26 => ⟨S64, .f32⟩
  | 27 => ⟨S64, .f32⟩
  | 28 => ⟨S_, .i32⟩
  | 29 => ⟨S_, .f32⟩
  | 30 => ⟨S64, .f32⟩
  | 31 => ⟨S1x64, .f32⟩
  | 32 => ⟨S_, .f32⟩
  | 33 => ⟨S1x64, .f32⟩
  | 34 => ⟨S1x64, .f32⟩
  | 35 => ⟨S256x64, .f32⟩
  | 36 => ⟨S256x64, .f32⟩
  | 37 => ⟨S256x64, .f32⟩
  | 38 => ⟨S_, .f32⟩
  | 39 => ⟨S_, .f32⟩
  | 40 => ⟨S_, .f32⟩
  | 41 => ⟨S_, .f32⟩
  | 42 => ⟨S64, .f32⟩
  | 43 => ⟨S64, .f32⟩
  | 44 => ⟨S64, .f32⟩
  | 45 => ⟨S_, .f32⟩
  | 46 => ⟨S_, .i1⟩
  | 47 => ⟨S_, .f32⟩
  | 48 => ⟨S_, .f32⟩
  | 49 => ⟨S64, .f32⟩
  | 50 => ⟨S64, .f32⟩
  | 51 => ⟨S1x64, .f32⟩
  | 52 => ⟨S256x64, .f32⟩
  | 53 => ⟨S256x64, .f32⟩
  | 54 => ⟨S_, .f32⟩
  | 55 => ⟨S64, .f32⟩
  | 56 => ⟨S64, .f32⟩
  | 57 => ⟨S64, .f32⟩
  | 58 => ⟨S1x64, .f32⟩
  | 59 => ⟨S256x64, .f32⟩
  | 60 => ⟨S256x64, .f32⟩
  | 61 => ⟨S1x64, .f32⟩
  | 62 => ⟨S256x64, .f32⟩
  | 63 => ⟨S256x64, .f32⟩
  | 64 => ⟨S1x64, .f32⟩
  | 65 => ⟨S256x64, .f32⟩
  | 66 => ⟨S256x64, .f32⟩
  | 67 => ⟨S_, .f32⟩
  | 68 => ⟨S256x64, .f32⟩
  | 69 => ⟨S256x64, .f32⟩
  | 70 => ⟨S256x2, .f32⟩
  | 71 => ⟨S1x2, .f32⟩
  | 72 => ⟨S256x2, .f32⟩
  | 73 => ⟨S256x2, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_1 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_c_3 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_4 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_call1_cst : Ref sig .tc := ⟨.hbm, 89, rfl⟩
abbrev main_call1_v0 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_call2_cst : Ref sig .tc := ⟨.hbm, 100, rfl⟩
abbrev main_call2_v0 : Ref sig .tc := ⟨.hbm, 101, rfl⟩
abbrev main_v55 : Ref sig .tc := ⟨.hbm, 102, rfl⟩
abbrev main_c_5 : Ref sig .tc := ⟨.hbm, 103, rfl⟩
abbrev main_v56 : Ref sig .tc := ⟨.hbm, 104, rfl⟩
abbrev main_v57 : Ref sig .tc := ⟨.hbm, 105, rfl⟩
abbrev main_c_6 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_7 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_8 : Ref sig .tc := ⟨.hbm, 129, rfl⟩
abbrev main_v79 : Ref sig .tc := ⟨.hbm, 130, rfl⟩
abbrev main_cst_9 : Ref sig .tc := ⟨.hbm, 131, rfl⟩
abbrev main_v80 : Ref sig .tc := ⟨.hbm, 132, rfl⟩
abbrev main_v81 : Ref sig .tc := ⟨.hbm, 133, rfl⟩
abbrev main_c_10 : Ref sig .tc := ⟨.hbm, 134, rfl⟩
abbrev main_call3_cst : Ref sig .tc := ⟨.hbm, 135, rfl⟩
abbrev main_call3_v0 : Ref sig .tc := ⟨.hbm, 136, rfl⟩
abbrev main_call3_v1 : Ref sig .tc := ⟨.hbm, 137, rfl⟩
abbrev main_call3_cst_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_v6 : Ref sig .tc := ⟨.hbm, 143, rfl⟩
abbrev main_call3_v7 : Ref sig .tc := ⟨.hbm, 144, rfl⟩
abbrev main_call3_cst_1 : Ref sig .tc := ⟨.hbm, 145, rfl⟩
abbrev main_call3_v8 : Ref sig .tc := ⟨.hbm, 146, rfl⟩
abbrev main_call3_cst_2 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_cst_3 : Ref sig .tc := ⟨.hbm, 151, rfl⟩
abbrev main_call3_v12 : Ref sig .tc := ⟨.hbm, 152, rfl⟩
abbrev main_call3_cst_4 : Ref sig .tc := ⟨.hbm, 153, rfl⟩
abbrev main_call3_call0_v0 : Ref sig .tc := ⟨.hbm, 154, rfl⟩
abbrev main_call3_call0_v1 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_cst_11 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_call4_cst : Ref sig .tc := ⟨.hbm, 173, rfl⟩
abbrev main_call4_v0 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_call5_cst : Ref sig .tc := ⟨.hbm, 184, rfl⟩
abbrev main_call5_v0 : Ref sig .tc := ⟨.hbm, 185, rfl⟩
abbrev main_v107 : Ref sig .tc := ⟨.hbm, 186, rfl⟩
abbrev main_c_12 : Ref sig .tc := ⟨.hbm, 187, rfl⟩
abbrev main_v108 : Ref sig .tc := ⟨.hbm, 188, rfl⟩
abbrev main_v109 : Ref sig .tc := ⟨.hbm, 189, rfl⟩
abbrev main_c_13 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_cst_14 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_cst_15 : Ref sig .tc := ⟨.hbm, 213, rfl⟩
abbrev main_v131 : Ref sig .tc := ⟨.hbm, 214, rfl⟩
abbrev main_cst_16 : Ref sig .tc := ⟨.hbm, 215, rfl⟩
abbrev main_v132 : Ref sig .tc := ⟨.hbm, 216, rfl⟩
abbrev main_v133 : Ref sig .tc := ⟨.hbm, 217, rfl⟩
abbrev main_c_17 : Ref sig .tc := ⟨.hbm, 218, rfl⟩
abbrev main_call6_cst : Ref sig .tc := ⟨.hbm, 219, rfl⟩
abbrev main_call6_v0 : Ref sig .tc := ⟨.hbm, 220, rfl⟩
abbrev main_call6_v1 : Ref sig .tc := ⟨.hbm, 221, rfl⟩
abbrev main_call6_cst_0 : Ref sig .tc := ⟨.hbm, 222, rfl⟩
abbrev main_call6_v2 : Ref sig .tc := ⟨.hbm, 223, rfl⟩
abbrev main_call6_v3 : Ref sig .tc := ⟨.hbm, 224, rfl⟩
abbrev main_call6_v4 : Ref sig .tc := ⟨.hbm, 225, rfl⟩
abbrev main_call6_v5 : Ref sig .tc := ⟨.hbm, 226, rfl⟩
abbrev main_call6_v6 : Ref sig .tc := ⟨.hbm, 227, rfl⟩
abbrev main_call6_v7 : Ref sig .tc := ⟨.hbm, 228, rfl⟩
abbrev main_call6_cst_1 : Ref sig .tc := ⟨.hbm, 229, rfl⟩
abbrev main_call6_v8 : Ref sig .tc := ⟨.hbm, 230, rfl⟩
abbrev main_call6_cst_2 : Ref sig .tc := ⟨.hbm, 231, rfl⟩
abbrev main_call6_v9 : Ref sig .tc := ⟨.hbm, 232, rfl⟩
abbrev main_call6_v10 : Ref sig .tc := ⟨.hbm, 233, rfl⟩
abbrev main_call6_v11 : Ref sig .tc := ⟨.hbm, 234, rfl⟩
abbrev main_call6_cst_3 : Ref sig .tc := ⟨.hbm, 235, rfl⟩
abbrev main_call6_v12 : Ref sig .tc := ⟨.hbm, 236, rfl⟩
abbrev main_call6_cst_4 : Ref sig .tc := ⟨.hbm, 237, rfl⟩
abbrev main_call6_call0_v0 : Ref sig .tc := ⟨.hbm, 238, rfl⟩
abbrev main_call6_call0_v1 : Ref sig .tc := ⟨.hbm, 239, rfl⟩
abbrev main_v134 : Ref sig .tc := ⟨.hbm, 240, rfl⟩
abbrev main_v135 : Ref sig .tc := ⟨.hbm, 241, rfl⟩
abbrev main_v136 : Ref sig .tc := ⟨.hbm, 242, rfl⟩
abbrev main_v137 : Ref sig .tc := ⟨.hbm, 243, rfl⟩
abbrev main_cst_18 : Ref sig .tc := ⟨.hbm, 244, rfl⟩
abbrev main_v138 : Ref sig .tc := ⟨.hbm, 245, rfl⟩
abbrev main_v139 : Ref sig .tc := ⟨.hbm, 246, rfl⟩
abbrev main_v140 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_call7_cst : Ref sig .tc := ⟨.hbm, 257, rfl⟩
abbrev main_call7_v0 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_call8_cst : Ref sig .tc := ⟨.hbm, 268, rfl⟩
abbrev main_call8_v0 : Ref sig .tc := ⟨.hbm, 269, rfl⟩
abbrev main_v159 : Ref sig .tc := ⟨.hbm, 270, rfl⟩
abbrev main_cst_19 : Ref sig .tc := ⟨.hbm, 271, rfl⟩
abbrev main_v160 : Ref sig .tc := ⟨.hbm, 272, rfl⟩
abbrev main_v161 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_cst_20 : Ref sig .tc := ⟨.hbm, 279, rfl⟩
abbrev main_v167 : Ref sig .tc := ⟨.hbm, 280, rfl⟩
abbrev main_cst_21 : Ref sig .tc := ⟨.hbm, 281, rfl⟩
abbrev main_v168 : Ref sig .tc := ⟨.hbm, 282, rfl⟩
abbrev main_v169 : Ref sig .tc := ⟨.hbm, 283, rfl⟩
abbrev main_c_22 : Ref sig .tc := ⟨.hbm, 284, rfl⟩
abbrev main_call9_cst : Ref sig .tc := ⟨.hbm, 285, rfl⟩
abbrev main_call9_v0 : Ref sig .tc := ⟨.hbm, 286, rfl⟩
abbrev main_call9_v1 : Ref sig .tc := ⟨.hbm, 287, rfl⟩
abbrev main_call9_cst_0 : Ref sig .tc := ⟨.hbm, 288, rfl⟩
abbrev main_call9_v2 : Ref sig .tc := ⟨.hbm, 289, rfl⟩
abbrev main_call9_v3 : Ref sig .tc := ⟨.hbm, 290, rfl⟩
abbrev main_call9_v4 : Ref sig .tc := ⟨.hbm, 291, rfl⟩
abbrev main_call9_v5 : Ref sig .tc := ⟨.hbm, 292, rfl⟩
abbrev main_call9_v6 : Ref sig .tc := ⟨.hbm, 293, rfl⟩
abbrev main_call9_v7 : Ref sig .tc := ⟨.hbm, 294, rfl⟩
abbrev main_call9_cst_1 : Ref sig .tc := ⟨.hbm, 295, rfl⟩
abbrev main_call9_v8 : Ref sig .tc := ⟨.hbm, 296, rfl⟩
abbrev main_call9_cst_2 : Ref sig .tc := ⟨.hbm, 297, rfl⟩
abbrev main_call9_v9 : Ref sig .tc := ⟨.hbm, 298, rfl⟩
abbrev main_call9_v10 : Ref sig .tc := ⟨.hbm, 299, rfl⟩
abbrev main_call9_v11 : Ref sig .tc := ⟨.hbm, 300, rfl⟩
abbrev main_call9_cst_3 : Ref sig .tc := ⟨.hbm, 301, rfl⟩
abbrev main_call9_v12 : Ref sig .tc := ⟨.hbm, 302, rfl⟩
abbrev main_call9_cst_4 : Ref sig .tc := ⟨.hbm, 303, rfl⟩
abbrev main_call9_call0_v0 : Ref sig .tc := ⟨.hbm, 304, rfl⟩
abbrev main_call9_call0_v1 : Ref sig .tc := ⟨.hbm, 305, rfl⟩
abbrev main_v170 : Ref sig .tc := ⟨.hbm, 306, rfl⟩
abbrev main_v171 : Ref sig .tc := ⟨.hbm, 307, rfl⟩
abbrev main_v172 : Ref sig .tc := ⟨.hbm, 308, rfl⟩
abbrev main_v173 : Ref sig .tc := ⟨.hbm, 309, rfl⟩
abbrev main_cst_23 : Ref sig .tc := ⟨.hbm, 310, rfl⟩
abbrev main_v174 : Ref sig .tc := ⟨.hbm, 311, rfl⟩
abbrev main_v175 : Ref sig .tc := ⟨.hbm, 312, rfl⟩
abbrev main_v176 : Ref sig .tc := ⟨.hbm, 313, rfl⟩
abbrev main_v177 : Ref sig .tc := ⟨.hbm, 314, rfl⟩
abbrev main_v178 : Ref sig .tc := ⟨.hbm, 315, rfl⟩
abbrev main_v179 : Ref sig .tc := ⟨.hbm, 316, rfl⟩
abbrev main_v180 : Ref sig .tc := ⟨.hbm, 317, rfl⟩
abbrev main_v181 : Ref sig .tc := ⟨.hbm, 318, rfl⟩
abbrev main_v182 : Ref sig .tc := ⟨.hbm, 319, rfl⟩
abbrev main_v183 : Ref sig .tc := ⟨.hbm, 320, rfl⟩
abbrev main_v184 : Ref sig .tc := ⟨.hbm, 321, rfl⟩
abbrev main_v185 : Ref sig .tc := ⟨.hbm, 322, rfl⟩
abbrev main_call10_cst : Ref sig .tc := ⟨.hbm, 323, rfl⟩
abbrev main_call10_v0 : Ref sig .tc := ⟨.hbm, 324, rfl⟩
abbrev main_v186 : Ref sig .tc := ⟨.hbm, 325, rfl⟩
abbrev main_v187 : Ref sig .tc := ⟨.hbm, 326, rfl⟩
abbrev main_v188 : Ref sig .tc := ⟨.hbm, 327, rfl⟩
abbrev main_v189 : Ref sig .tc := ⟨.hbm, 328, rfl⟩
abbrev main_v190 : Ref sig .tc := ⟨.hbm, 329, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S256x64 : S_.BroadcastsInDim S256x64 (![] : Fin 0 → Fin S256x64.rank)
  bcast_S100000_S100000x1_0 : S100000.BroadcastsInDim S100000x1 (![0] : Fin 1 → Fin S100000x1.rank)
  bcast_S1x64_S256x64_0_1 : S1x64.BroadcastsInDim S256x64 (![0, 1] : Fin 2 → Fin S256x64.rank)
  reducesTo_S256x64_S64_d0 : S256x64.ReducesTo [0] S64
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  dot_S256x64_S64x64_S256x64_1_0_0_1_n_n_wf : DotDims.WF S256x64 S64x64 S256x64 [1] [0] [0] [1] [] []
  dot_S256x64_S64x2_S256x2_1_0_0_1_n_n_wf : DotDims.WF S256x64 S64x2 S256x2 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

class Facts : Prop extends Facts₀ where

variable [Facts]
-- ==== Proof.K.Stats0.lean ====
import proofs.«181289_j42949672960516_1_alg».proof.Proof.Gen.Kernel.Launch
import proofs.«181289_j42949672960516_1_alg».proof.Proof.Gen.Kernel.Skeleton
import proofs.«181289_j42949672960516_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zeros0 : (![0, 0] : Fin 2 → Nat) = fun _ => 0 := funext fun a => by fin_cases a <;> rfl

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1
theorem hcond0_1 : ∀ t : Fin cfg0.N, cond0_1 (grid0.coords t) ↔ t.val = 19 :=
  (by decide +kernel : ∀ t : Fin grid0.N, cond0_1 (grid0.coords t) ↔ t.val = 19)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, t.val ≠ 19 → cfg0.idle 3 (grid0.coords t) = true := by decide +kernel
theorem idleAt0_4 : ∀ t : Fin cfg0.N, t.val ≠ 19 → cfg0.idle 4 (grid0.coords t) = true := by decide +kernel
theorem noFlush0_3 : ∀ t : Fin cfg0.N, t.val ≠ 19 → (cfg0.win 3).flush t = false := by decide +kernel
theorem noFlush0_4 : ∀ t : Fin cfg0.N, t.val ≠ 19 → (cfg0.win 4).flush t = false := by decide +kernel
theorem liveAt0_3 : ∀ t : Fin cfg0.N, t.val = 19 → cfg0.idle 3 (grid0.coords t) = false := by decide +kernel
theorem liveAt0_4 : ∀ t : Fin cfg0.N, t.val = 19 → cfg0.idle 4 (grid0.coords t) = false := by decide +kernel

abbrev scM0_0 : Memref sig .tc .vmem S1x64 .f32 := Memref.whole cc0_scratch0
abbrev scM0_1 : Memref sig .tc .vmem S1x64 .f32 := Memref.whole cc0_scratch1

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

local macro "stats_value" : tactic => `(tactic| (
  sl_unfold_run_names
  rw [View.read_writes_eq_canon _ _ _ (fun y => ⟨_, List.mem_cons.mpr (Or.inl rfl), View.mem_set_unit_zero zeros0 inb_S1x64_S1x64_0_0 y⟩)]
  rw [View.canon_cons_unit_zero (S := S1x64) zeros0]
  try rw [View.readCov_unit_zero (S := S1x64) _ zeros0]
  simp only [View.readAt_eq_ld, View.ld_unit_zero (S := S5000x64) zeros0, View.ld_unit_zero (S := S64x64) zeros0, View.ld_unit_zero (S := S1x64) zeros0]))

set_option maxHeartbeats 1000000 in
theorem run0_A (c : Dev nD) (i : grid0.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : cond0_0 i) (hc1 : ¬cond0_1 i) (x0 : Vec F S5000x64 .f32) (x1 : Vec F S64x64 .f32) (x2 : Vec F S1x64 .f32) (xi3 xi4 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4
            ∗ owns (c : Thread nD τ) arg6 fullShare (k0_pay4 x0 x1 x2 (k0_pay1 (F := F)))
            ∗ owns (c : Thread nD τ) arg7 fullShare (k0_pay5 x0 x1 x2 (k0_pay2 (F := F)))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    stats_value
  iexists _; isplitr
  swap; · iexact H7
  ipureintro
  stats_value

set_option maxHeartbeats 1000000 in
theorem run0_B (c : Dev nD) (i : grid0.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : ¬cond0_0 i) (hc1 : ¬cond0_1 i) (x0 : Vec F S5000x64 .f32) (x1 : Vec F S64x64 .f32) (x2 : Vec F S1x64 .f32) (xi3 xi4 : Vec F S1x64 .f32) (xs0 xs1 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4
            ∗ owns (c : Thread nD τ) arg6 fullShare (k0_pay4 x0 x1 x2 xs0)
            ∗ owns (c : Thread nD τ) arg7 fullShare (k0_pay5 x0 x1 x2 xs1)) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    stats_value
  iexists _; isplitr
  swap; · iexact H7
  ipureintro
  stats_value

set_option maxHeartbeats 1000000 in
theorem run0_C (c : Dev nD) (i : grid0.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : ¬cond0_0 i) (hc1 : cond0_1 i) (x0 : Vec F S5000x64 .f32) (x1 : Vec F S64x64 .f32) (x2 : Vec F S1x64 .f32) (xs0 xs1 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2 xs0) ∗ owns (c : Thread nD τ) arg5 fullShare (k0_pay5 x0 x1 x2 xs1)
            ∗ owns (c : Thread nD τ) arg6 fullShare (k0_pay4 x0 x1 x2 xs0)
            ∗ owns (c : Thread nD τ) arg7 fullShare (k0_pay5 x0 x1 x2 xs1)) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf1 hf2 hf3 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    stats_value
  isplitl [H5]
  · iexists _; isplitr
    swap; · iexact H5
    ipureintro
    stats_value
  isplitl [H6]
  · iexists _; isplitr
    swap; · iexact H6
    ipureintro
    stats_value
  iexists _; isplitr
  swap; · iexact H7
  ipureintro
  stats_value

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def acc0 (c : Dev nD) : (n : ℕ) → n < cfg0.N → Vec F S1x64 .f32 × Vec F S1x64 .f32
  | 0, hn => (k0_pay4 (iblk0 V c 0 ⟨0, hn⟩) (iblk0 V c 1 ⟨0, hn⟩) (iblk0 V c 2 ⟨0, hn⟩) (k0_pay1 (F := F)),
      k0_pay5 (iblk0 V c 0 ⟨0, hn⟩) (iblk0 V c 1 ⟨0, hn⟩) (iblk0 V c 2 ⟨0, hn⟩) (k0_pay2 (F := F)))
  | n + 1, hn => (k0_pay4 (iblk0 V c 0 ⟨n + 1, hn⟩) (iblk0 V c 1 ⟨n + 1, hn⟩) (iblk0 V c 2 ⟨n + 1, hn⟩) (acc0 c n (Nat.lt_of_succ_lt hn)).1,
      k0_pay5 (iblk0 V c 0 ⟨n + 1, hn⟩) (iblk0 V c 1 ⟨n + 1, hn⟩) (iblk0 V c 2 ⟨n + 1, hn⟩) (acc0 c n (Nat.lt_of_succ_lt hn)).2)

theorem acc0_zero (c : Dev nD) (hn : 0 < cfg0.N) :
    acc0 V c 0 hn = (k0_pay4 (iblk0 V c 0 ⟨0, hn⟩) (iblk0 V c 1 ⟨0, hn⟩) (iblk0 V c 2 ⟨0, hn⟩) (k0_pay1 (F := F)),
      k0_pay5 (iblk0 V c 0 ⟨0, hn⟩) (iblk0 V c 1 ⟨0, hn⟩) (iblk0 V c 2 ⟨0, hn⟩) (k0_pay2 (F := F))) := rfl

theorem acc0_succ (c : Dev nD) (n : ℕ) (hn : n + 1 < cfg0.N) :
    acc0 V c (n + 1) hn = (k0_pay4 (iblk0 V c 0 ⟨n + 1, hn⟩) (iblk0 V c 1 ⟨n + 1, hn⟩) (iblk0 V c 2 ⟨n + 1, hn⟩) (acc0 V c n (Nat.lt_of_succ_lt hn)).1,
      k0_pay5 (iblk0 V c 0 ⟨n + 1, hn⟩) (iblk0 V c 1 ⟨n + 1, hn⟩) (iblk0 V c 2 ⟨n + 1, hn⟩) (acc0 V c n (Nat.lt_of_succ_lt hn)).2) := rfl

theorem acc0_pos (c : Dev nD) (t : Fin cfg0.N) (ht : t.val ≠ 0) :
    acc0 V c t.val t.isLt = (k0_pay4 (iblk0 V c 0 t) (iblk0 V c 1 t) (iblk0 V c 2 t) (acc0 V c (t.val - 1) (Nat.lt_of_le_of_lt (Nat.sub_le _ _) t.isLt)).1,
      k0_pay5 (iblk0 V c 0 t) (iblk0 V c 1 t) (iblk0 V c 2 t) (acc0 V c (t.val - 1) (Nat.lt_of_le_of_lt (Nat.sub_le _ _) t.isLt)).2) := by
  obtain ⟨n, hn⟩ := t
  cases n with
  | zero => exact absurd rfl ht
  | succ n => rfl

theorem acc0_first (c : Dev nD) (t : Fin cfg0.N) (ht : t.val = 0) :
    acc0 V c t.val t.isLt = (k0_pay4 (iblk0 V c 0 t) (iblk0 V c 1 t) (iblk0 V c 2 t) (k0_pay1 (F := F)),
      k0_pay5 (iblk0 V c 0 t) (iblk0 V c 1 t) (iblk0 V c 2 t) (k0_pay2 (F := F))) := by
  obtain ⟨n, hn⟩ := t
  cases n with
  | zero => rfl
  | succ n => exact absurd ht (Nat.succ_ne_zero n)

def PhiS0 (c : Dev nD) : (n : ℕ) → n ≤ cfg0.N → sProp 𝕄
  | 0, _ => Pipeline.ΦA spec0 c
  | n + 1, hn => iprop(iprop(iprop(owns (c : Thread nD τ) scM0_0 fullShare (acc0 V c n hn).1 ∗ owns (c : Thread nD τ) scM0_1 fullShare (acc0 V c n hn).2)
          ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (acc0 V c n hn).1 ∗ owns (c : Thread nD τ) scM0_1 fullShare (acc0 V c n hn).2)
          ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (acc0 V c (n - 1) (by omega)).1 ∗ owns (c : Thread nD τ) scM0_1 fullShare (acc0 V c (n - 1) (by omega)).2)
          ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (acc0 V c t.val t.isLt).1
    | ⟨4, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (acc0 V c t.val t.isLt).1 := by dsimp only [dat0]
theorem after0_4 (c : Dev nD) (t : Fin cfg0.N) : (dat0 V c).after 4 t = (acc0 V c t.val t.isLt).2 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  by_cases h0 : t.val = 0
  · -- the first point
    have h1 : t.val ≠ 19 := by omega
    rw [Dat.leavesExact_idle (dat0 V c) 3 t (idleAt0_3 t h1) (noFlush0_3 t h1)]
    rw [Dat.leavesExact_idle (dat0 V c) 4 t (idleAt0_4 t h1) (noFlush0_4 t h1)]
    rw [acc0_first V c t h0]
    rw [PhiS0_castSucc V c t, PhiS0_zero V c _ _ h0, PhiA0_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (run0_A c (grid0.coords t) _ _ _ _ _ _ _ _ _ _ _ _ _ _ ((hcond0_0 t).mpr h0) (fun h => h1 ((hcond0_1 t).mp h)) (iblk0 V c 0 t) (iblk0 V c 1 t) (iblk0 V c 2 t) _ _ Set.univ _)
    iframe H0 H1 H2 H3 H4 HS0 HS1
    iintro ⟨H0, H1, H2, H3, H4, HS0, HS1⟩
    iframe HS0 HS1 Hr Hg Ho H0 H1 H2
    isplitl [H3]; · iexists _; iexact H3
    iexists _; iexact H4
  · by_cases h1 : t.val = 19
    · -- the last point
      rw [show (dat0 V c).leavesExact 3 t = owns (c : Thread nD τ) (st0_3 t) fullShare ((dat0 V c).after 3 t) from by
        unfold Dat.leavesExact; rw [liveAt0_3 t h1], after0_3]
      rw [show (dat0 V c).leavesExact 4 t = owns (c : Thread nD τ) (st0_4 t) fullShare ((dat0 V c).after 4 t) from by
        unfold Dat.leavesExact; rw [liveAt0_4 t h1], after0_4]
      rw [acc0_pos V c t h0]
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_C c (grid0.coords t) _ _ _ _ _ _ _ _ _ _ _ _ _ _ (fun h => h0 ((hcond0_0 t).mp h)) ((hcond0_1 t).mpr h1) (iblk0 V c 0 t) (iblk0 V c 1 t) (iblk0 V c 2 t) _ _ Set.univ _)
      iframe H0 H1 H2 HS0 HS1
      isplitl [H3]; · iexists _; iexact H3
      isplitl [H4]; · iexists _; iexact H4
      iintro ⟨H0, H1, H2, H3, H4, HS0, HS1⟩
      iframe HS0 HS1 Hr Hg Ho H0 H1 H2 H3 H4
    · -- a point in between
      rw [Dat.leavesExact_idle (dat0 V c) 3 t (idleAt0_3 t h1) (noFlush0_3 t h1)]
      rw [Dat.leavesExact_idle (dat0 V c) 4 t (idleAt0_4 t h1) (noFlush0_4 t h1)]
      rw [acc0_pos V c t h0]
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _ _ _ Set.univ _)
      iframe H0 H1 H2 H3 H4 HS0 HS1
      iintro ⟨H0, H1, H2, H3, H4, HS0, HS1⟩
      iframe HS0 HS1 Hr Hg Ho H0 H1 H2
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitr [Hg]
  · isplitr [Hr]
    · isplitl [HS0]
      · iexists _; iexact HS0
      · iexists _; iexact HS1
    · iexact Hr
  · iexact Hg

theorem hout0 (c : Dev nD) : (dat0 V c).Φ (Fin.last cfg0.N) ⊢ Pipeline.ΦA spec0 c :=
  Phi_out0 V c _ (by rw [Fin.val_last]; have : cfg0.N = 20 := N_0; omega)

end Region

end Cert.Kernel.Hand

end
-- ==== Proof.K.Apply1.lean ====
import proofs.«181289_j42949672960516_1_alg».proof.Proof.Gen.Kernel.Launch
import proofs.«181289_j42949672960516_1_alg».proof.Proof.Gen.Kernel.Skeleton
import proofs.«181289_j42949672960516_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_9 : Rect S5000x64 := Rect.unit (s := S5000x64) ![0, 0] S5000x64.size inb_S5000x64_S5000x64_0_0
abbrev r1_m : Rect S64x64 := Rect.unit (s := S64x64) ![0, 0] S64x64.size inb_S64x64_S64x64_0_0
abbrev r1_v : Rect S1x64 := Rect.unit (s := S1x64) ![0, 0] S1x64.size inb_S1x64_S1x64_0_0

def out1_9 (x0 : Vec F S5000x64 .f32) (x1 : Vec F S64x64 .f32) (x2 : Vec F S1x64 .f32) (x3 : Vec F S1x64 .f32) (x4 : Vec F S1x64 .f32) (x5 : Vec F S1x64 .f32) (x6 : Vec F S1x64 .f32) (x7 : Vec F S64x64 .f32) (x8 : Vec F S1x64 .f32) : Vec F S5000x64 .f32 :=
  View.canon [⟨r1_9, k1_pay1 (k1_pay2 (View.ld x0 r1_9) (View.ld x1 r1_m) (View.ld x2 r1_v) (View.ld x4 r1_v) (View.ld x3 r1_v) (View.ld x5 r1_v) (View.ld x6 r1_v) (View.ld x7 r1_m)) (View.ld x8 r1_v)⟩]

theorem cover1_9 (p0 : Vec F S5000x64 .f32) (y : S5000x64.Idx) :
    ∃ pc ∈ ([⟨r1_9, p0⟩] : List (View.Piece (Elt F) S5000x64 .f32)), y ∈ pc.1.set :=
  View.cover_of_tiled [⟨r1_9, p0⟩] S5000x64.size (by rfl) y

set_option maxHeartbeats 1000000 in
theorem sound_kernel1 (c : Dev nD) (E : Set ℕ) (i : grid1.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S5000x64 .f32) (harg10 : arg10.IsWhole)
    (x0 : Vec F S5000x64 .f32) (x1 : Vec F S64x64 .f32) (x2 : Vec F S1x64 .f32) (x3 : Vec F S1x64 .f32) (x4 : Vec F S1x64 .f32) (x5 : Vec F S1x64 .f32) (x6 : Vec F S1x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__apply_kernel i arg1 harg1 arg2 harg2 arg3 harg3 arg4 harg4 arg5 harg5 arg6 harg6 arg7 harg7 arg8 harg8 arg9 harg9 arg10 harg10) K := by
  simp only [cc1__apply_kernel_eq_skeleton]; unfold cc1__apply_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem hin1 (c : Dev nD) : Pipeline.ΦA spec1 c ⊢ (dat1 V c).Φ 0 := .rfl
theorem hout1 (c : Dev nD) : (dat1 V c).Φ (Fin.last cfg1.N) ⊢ Pipeline.ΦA spec1 c := .rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  iframe H0 H1 H2 H3 H4 H5 H6 H7 H8
  isplitl [H9]; · iexists _; iexact H9
  iintro ⟨H0, H1, H2, H3, H4, H5, H6, H7, H8, H9⟩
  iframe HΦ Ho H0 H1 H2 H3 H4 H5 H6 H7 H8 H9

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Stats2.lean ====
import proofs.«181289_j42949672960516_1_alg».proof.Proof.K.Stats0
import proofs.«181289_j42949672960516_1_alg».proof.Proof.Gen.Kernel.Skeleton
import proofs.«181289_j42949672960516_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1
theorem hcond2_1 : ∀ t : Fin cfg2.N, cond2_1 (grid2.coords t) ↔ t.val = 19 :=
  (by decide +kernel : ∀ t : Fin grid2.N, cond2_1 (grid2.coords t) ↔ t.val = 19)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, t.val ≠ 19 → cfg2.idle 3 (grid2.coords t) = true := by decide +kernel
theorem idleAt2_4 : ∀ t : Fin cfg2.N, t.val ≠ 19 → cfg2.idle 4 (grid2.coords t) = true := by decide +kernel
theorem noFlush2_3 : ∀ t : Fin cfg2.N, t.val ≠ 19 → (cfg2.win 3).flush t = false := by decide +kernel
theorem noFlush2_4 : ∀ t : Fin cfg2.N, t.val ≠ 19 → (cfg2.win 4).flush t = false := by decide +kernel
theorem liveAt2_3 : ∀ t : Fin cfg2.N, t.val = 19 → cfg2.idle 3 (grid2.coords t) = false := by decide +kernel
theorem liveAt2_4 : ∀ t : Fin cfg2.N, t.val = 19 → cfg2.idle 4 (grid2.coords t) = false := by decide +kernel

abbrev scM2_0 : Memref sig .tc .vmem S1x64 .f32 := Memref.whole cc2_scratch0
abbrev scM2_1 : Memref sig .tc .vmem S1x64 .f32 := Memref.whole cc2_scratch1

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

theorem cc2_eq : (cc2__stats_kernel (F := F)) = cc0__stats_kernel := rfl
theorem k2_pay1_eq : (k2_pay1 (F := F)) = k0_pay1 := rfl
theorem k2_pay2_eq : (k2_pay2 (F := F)) = k0_pay2 := rfl
theorem k2_pay4_eq : (k2_pay4 (F := F)) = k0_pay4 := rfl
theorem k2_pay5_eq : (k2_pay5 (F := F)) = k0_pay5 := rfl

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S1x64 .f32 × Vec F S1x64 .f32
  | 0, hn => (k2_pay4 (iblk2 V c 0 ⟨0, hn⟩) (iblk2 V c 1 ⟨0, hn⟩) (iblk2 V c 2 ⟨0, hn⟩) (k2_pay1 (F := F)),
      k2_pay5 (iblk2 V c 0 ⟨0, hn⟩) (iblk2 V c 1 ⟨0, hn⟩) (iblk2 V c 2 ⟨0, hn⟩) (k2_pay2 (F := F)))
  | n + 1, hn => (k2_pay4 (iblk2 V c 0 ⟨n + 1, hn⟩) (iblk2 V c 1 ⟨n + 1, hn⟩) (iblk2 V c 2 ⟨n + 1, hn⟩) (acc2 c n (Nat.lt_of_succ_lt hn)).1,
      k2_pay5 (iblk2 V c 0 ⟨n + 1, hn⟩) (iblk2 V c 1 ⟨n + 1, hn⟩) (iblk2 V c 2 ⟨n + 1, hn⟩) (acc2 c n (Nat.lt_of_succ_lt hn)).2)

theorem acc2_zero (c : Dev nD) (hn : 0 < cfg2.N) :
    acc2 V c 0 hn = (k2_pay4 (iblk2 V c 0 ⟨0, hn⟩) (iblk2 V c 1 ⟨0, hn⟩) (iblk2 V c 2 ⟨0, hn⟩) (k2_pay1 (F := F)),
      k2_pay5 (iblk2 V c 0 ⟨0, hn⟩) (iblk2 V c 1 ⟨0, hn⟩) (iblk2 V c 2 ⟨0, hn⟩) (k2_pay2 (F := F))) := rfl

theorem acc2_succ (c : Dev nD) (n : ℕ) (hn : n + 1 < cfg2.N) :
    acc2 V c (n + 1) hn = (k2_pay4 (iblk2 V c 0 ⟨n + 1, hn⟩) (iblk2 V c 1 ⟨n + 1, hn⟩) (iblk2 V c 2 ⟨n + 1, hn⟩) (acc2 V c n (Nat.lt_of_succ_lt hn)).1,
      k2_pay5 (iblk2 V c 0 ⟨n + 1, hn⟩) (iblk2 V c 1 ⟨n + 1, hn⟩) (iblk2 V c 2 ⟨n + 1, hn⟩) (acc2 V c n (Nat.lt_of_succ_lt hn)).2) := rfl

theorem acc2_pos (c : Dev nD) (t : Fin cfg2.N) (ht : t.val ≠ 0) :
    acc2 V c t.val t.isLt = (k2_pay4 (iblk2 V c 0 t) (iblk2 V c 1 t) (iblk2 V c 2 t) (acc2 V c (t.val - 1) (Nat.lt_of_le_of_lt (Nat.sub_le _ _) t.isLt)).1,
      k2_pay5 (iblk2 V c 0 t) (iblk2 V c 1 t) (iblk2 V c 2 t) (acc2 V c (t.val - 1) (Nat.lt_of_le_of_lt (Nat.sub_le _ _) t.isLt)).2) := by
  obtain ⟨n, hn⟩ := t
  cases n with
  | zero => exact absurd rfl ht
  | succ n => rfl

theorem acc2_first (c : Dev nD) (t : Fin cfg2.N) (ht : t.val = 0) :
    acc2 V c t.val t.isLt = (k2_pay4 (iblk2 V c 0 t) (iblk2 V c 1 t) (iblk2 V c 2 t) (k2_pay1 (F := F)),
      k2_pay5 (iblk2 V c 0 t) (iblk2 V c 1 t) (iblk2 V c 2 t) (k2_pay2 (F := F))) := by
  obtain ⟨n, hn⟩ := t
  cases n with
  | zero => rfl
  | succ n => exact absurd ht (Nat.succ_ne_zero n)

def PhiS2 (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2)
          ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (acc2 V c n hn).1 ∗ owns (c : Thread nD τ) scM2_1 fullShare (acc2 V c n hn).2)
          ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (acc2 V c (n - 1) (by omega)).1 ∗ owns (c : Thread nD τ) scM2_1 fullShare (acc2 V c (n - 1) (by omega)).2)
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (acc2 V c t.val t.isLt).1
    | ⟨4, _⟩ => (acc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (acc2 V c t.val t.isLt).1 := by dsimp only [dat2]
theorem after2_4 (c : Dev nD) (t : Fin cfg2.N) : (dat2 V c).after 4 t = (acc2 V c t.val t.isLt).2 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [cc2_eq]
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  by_cases h0 : t.val = 0
  · -- the first point
    have h1 : t.val ≠ 19 := by omega
    rw [Dat.leavesExact_idle (dat2 V c) 3 t (idleAt2_3 t h1) (noFlush2_3 t h1)]
    rw [Dat.leavesExact_idle (dat2 V c) 4 t (idleAt2_4 t h1) (noFlush2_4 t h1)]
    rw [acc2_first V c t h0]
    rw [PhiS2_castSucc V c t, PhiS2_zero V c _ _ h0, PhiA2_eq]
    simp only [k2_pay1_eq, k2_pay2_eq, k2_pay4_eq, k2_pay5_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (run0_A c (grid2.coords t) _ _ _ _ _ _ _ _ _ _ _ _ _ _ ((hcond2_0 t).mpr h0) (fun h => h1 ((hcond2_1 t).mp h)) (iblk2 V c 0 t) (iblk2 V c 1 t) (iblk2 V c 2 t) _ _ Set.univ _)
    iframe H0 H1 H2 H3 H4 HS0 HS1
    iintro ⟨H0, H1, H2, H3, H4, HS0, HS1⟩
    iframe HS0 HS1 Hr Hg Ho H0 H1 H2
    isplitl [H3]; · iexists _; iexact H3
    iexists _; iexact H4
  · by_cases h1 : t.val = 19
    · -- the last point
      rw [show (dat2 V c).leavesExact 3 t = owns (c : Thread nD τ) (st2_3 t) fullShare ((dat2 V c).after 3 t) from by
        unfold Dat.leavesExact; rw [liveAt2_3 t h1], after2_3]
      rw [show (dat2 V c).leavesExact 4 t = owns (c : Thread nD τ) (st2_4 t) fullShare ((dat2 V c).after 4 t) from by
        unfold Dat.leavesExact; rw [liveAt2_4 t h1], after2_4]
      rw [acc2_pos V c t h0]
      rw [PhiS2_castSucc V c t, PhiS2_pos V c _ _ h0]
      simp only [k2_pay1_eq, k2_pay2_eq, k2_pay4_eq, k2_pay5_eq]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_C c (grid2.coords t) _ _ _ _ _ _ _ _ _ _ _ _ _ _ (fun h => h0 ((hcond2_0 t).mp h)) ((hcond2_1 t).mpr h1) (iblk2 V c 0 t) (iblk2 V c 1 t) (iblk2 V c 2 t) _ _ Set.univ _)
      iframe H0 H1 H2 HS0 HS1
      isplitl [H3]; · iexists _; iexact H3
      isplitl [H4]; · iexists _; iexact H4
      iintro ⟨H0, H1, H2, H3, H4, HS0, HS1⟩
      iframe HS0 HS1 Hr Hg Ho H0 H1 H2 H3 H4
    · -- a point in between
      rw [Dat.leavesExact_idle (dat2 V c) 3 t (idleAt2_3 t h1) (noFlush2_3 t h1)]
      rw [Dat.leavesExact_idle (dat2 V c) 4 t (idleAt2_4 t h1) (noFlush2_4 t h1)]
      rw [acc2_pos V c t h0]
      rw [PhiS2_castSucc V c t, PhiS2_pos V c _ _ h0]
      simp only [k2_pay1_eq, k2_pay2_eq, k2_pay4_eq, k2_pay5_eq]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) _ _ _ _ Set.univ _)
      iframe H0 H1 H2 H3 H4 HS0 HS1
      iintro ⟨H0, H1, H2, H3, H4, HS0, HS1⟩
      iframe HS0 HS1 Hr Hg Ho H0 H1 H2
      isplitl [H3]; · iexists _; iexact H3
      iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitr [Hg]
  · isplitr [Hr]
    · isplitl [HS0]
      · iexists _; iexact HS0
      · iexists _; iexact HS1
    · iexact Hr
  · iexact Hg

theorem hout2 (c : Dev nD) : (dat2 V c).Φ (Fin.last cfg2.N) ⊢ Pipeline.ΦA spec2 c :=
  Phi_out2 V c _ (by rw [Fin.val_last]; have : cfg2.N = 20 := N_2; omega)

end Region

end Cert.Kernel.Hand

end
-- ==== Proof.K.Apply3.lean ====
import proofs.«181289_j42949672960516_1_alg».proof.Proof.K.Apply1
import proofs.«181289_j42949672960516_1_alg».proof.Proof.Gen.Kernel.Skeleton
import proofs.«181289_j42949672960516_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_9 : Rect S5000x64 := Rect.unit (s := S5000x64) ![0, 0] S5000x64.size inb_S5000x64_S5000x64_0_0
abbrev r3_m : Rect S64x64 := Rect.unit (s := S64x64) ![0, 0] S64x64.size inb_S64x64_S64x64_0_0
abbrev r3_v : Rect S1x64 := Rect.unit (s := S1x64) ![0, 0] S1x64.size inb_S1x64_S1x64_0_0

def out3_9 (x0 : Vec F S5000x64 .f32) (x1 : Vec F S64x64 .f32) (x2 : Vec F S1x64 .f32) (x3 : Vec F S1x64 .f32) (x4 : Vec F S1x64 .f32) (x5 : Vec F S1x64 .f32) (x6 : Vec F S1x64 .f32) (x7 : Vec F S64x64 .f32) (x8 : Vec F S1x64 .f32) : Vec F S5000x64 .f32 :=
  View.canon [⟨r3_9, k3_pay1 (k3_pay2 (View.ld x0 r3_9) (View.ld x1 r3_m) (View.ld x2 r3_v) (View.ld x4 r3_v) (View.ld x3 r3_v) (View.ld x5 r3_v) (View.ld x6 r3_v) (View.ld x7 r3_m)) (View.ld x8 r3_v)⟩]

theorem cc3_eq : (cc3__apply_kernel (F := F)) = cc1__apply_kernel := rfl
theorem out3_9_eq : (out3_9 (F := F)) = out1_9 := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl) (fun t => by rw [after3_7]; unfold Dat.blockOf iblk3; rw [A_eq3]; try rfl) t d).trans
    (by unfold Dat.fetched Dat.blockOf iblk3; rw [A_eq3]; try rfl)
theorem before3_8 (c : Dev nD) (t : Fin cfg3.N) (d) : (dat3 V c).before 8 t d = iblk3 V c 8 t :=
  ((dat3 V c).before_in_eq_fetched 8 rfl (fun _ => rfl) (fun _ _ _ => rfl) (fun t => by rw [after3_8]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq]
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, out3_9_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  iframe H0 H1 H2 H3 H4 H5 H6 H7 H8
  isplitl [H9]; · iexists _; iexact H9
  iintro ⟨H0, H1, H2, H3, H4, H5, H6, H7, H8, H9⟩
  iframe HΦ Ho H0 H1 H2 H3 H4 H5 H6 H7 H8 H9

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Stats4.lean ====
import proofs.«181289_j42949672960516_1_alg».proof.Proof.K.Stats0
import proofs.«181289_j42949672960516_1_alg».proof.Proof.Gen.Kernel.Skeleton
import proofs.«181289_j42949672960516_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1
theorem hcond4_1 : ∀ t : Fin cfg4.N, cond4_1 (grid4.coords t) ↔ t.val = 19 :=
  (by decide +kernel : ∀ t : Fin grid4.N, cond4_1 (grid4.coords t) ↔ t.val = 19)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, t.val ≠ 19 → cfg4.idle 3 (grid4.coords t) = true := by decide +kernel
theorem idleAt4_4 : ∀ t : Fin cfg4.N, t.val ≠ 19 → cfg4.idle 4 (grid4.coords t) = true := by decide +kernel
theorem noFlush4_3 : ∀ t : Fin cfg4.N, t.val ≠ 19 → (cfg4.win 3).flush t = false := by decide +kernel
theorem noFlush4_4 : ∀ t : Fin cfg4.N, t.val ≠ 19 → (cfg4.win 4).flush t = false := by decide +kernel
theorem liveAt4_3 : ∀ t : Fin cfg4.N, t.val = 19 → cfg4.idle 3 (grid4.coords t) = false := by decide +kernel
theorem liveAt4_4 : ∀ t : Fin cfg4.N, t.val = 19 → cfg4.idle 4 (grid4.coords t) = false := by decide +kernel

abbrev scM4_0 : Memref sig .tc .vmem S1x64 .f32 := Memref.whole cc4_scratch0
abbrev scM4_1 : Memref sig .tc .vmem S1x64 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

theorem cc4_eq : (cc4__stats_kernel (F := F)) = cc0__stats_kernel := rfl
theorem k4_pay1_eq : (k4_pay1 (F := F)) = k0_pay1 := rfl
theorem k4_pay2_eq : (k4_pay2 (F := F)) = k0_pay2 := rfl
theorem k4_pay4_eq : (k4_pay4 (F := F)) = k0_pay4 := rfl
theorem k4_pay5_eq : (k4_pay5 (F := F)) = k0_pay5 := rfl

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S1x64 .f32 × Vec F S1x64 .f32
  | 0, hn => (k4_pay4 (iblk4 V c 0 ⟨0, hn⟩) (iblk4 V c 1 ⟨0, hn⟩) (iblk4 V c 2 ⟨0, hn⟩) (k4_pay1 (F := F)),
      k4_pay5 (iblk4 V c 0 ⟨0, hn⟩) (iblk4 V c 1 ⟨0, hn⟩) (iblk4 V c 2 ⟨0, hn⟩) (k4_pay2 (F := F)))
  | n + 1, hn => (k4_pay4 (iblk4 V c 0 ⟨n + 1, hn⟩) (iblk4 V c 1 ⟨n + 1, hn⟩) (iblk4 V c 2 ⟨n + 1, hn⟩) (acc4 c n (Nat.lt_of_succ_lt hn)).1,
      k4_pay5 (iblk4 V c 0 ⟨n + 1, hn⟩) (iblk4 V c 1 ⟨n + 1, hn⟩) (iblk4 V c 2 ⟨n + 1, hn⟩) (acc4 c n (Nat.lt_of_succ_lt hn)).2)

theorem acc4_zero (c : Dev nD) (hn : 0 < cfg4.N) :
    acc4 V c 0 hn = (k4_pay4 (iblk4 V c 0 ⟨0, hn⟩) (iblk4 V c 1 ⟨0, hn⟩) (iblk4 V c 2 ⟨0, hn⟩) (k4_pay1 (F := F)),
      k4_pay5 (iblk4 V c 0 ⟨0, hn⟩) (iblk4 V c 1 ⟨0, hn⟩) (iblk4 V c 2 ⟨0, hn⟩) (k4_pay2 (F := F))) := rfl

theorem acc4_succ (c : Dev nD) (n : ℕ) (hn : n + 1 < cfg4.N) :
    acc4 V c (n + 1) hn = (k4_pay4 (iblk4 V c 0 ⟨n + 1, hn⟩) (iblk4 V c 1 ⟨n + 1, hn⟩) (iblk4 V c 2 ⟨n + 1, hn⟩) (acc4 V c n (Nat.lt_of_succ_lt hn)).1,
      k4_pay5 (iblk4 V c 0 ⟨n + 1, hn⟩) (iblk4 V c 1 ⟨n + 1, hn⟩) (iblk4 V c 2 ⟨n + 1, hn⟩) (acc4 V c n (Nat.lt_of_succ_lt hn)).2) := rfl

theorem acc4_pos (c : Dev nD) (t : Fin cfg4.N) (ht : t.val ≠ 0) :
    acc4 V c t.val t.isLt = (k4_pay4 (iblk4 V c 0 t) (iblk4 V c 1 t) (iblk4 V c 2 t) (acc4 V c (t.val - 1) (Nat.lt_of_le_of_lt (Nat.sub_le _ _) t.isLt)).1,
      k4_pay5 (iblk4 V c 0 t) (iblk4 V c 1 t) (iblk4 V c 2 t) (acc4 V c (t.val - 1) (Nat.lt_of_le_of_lt (Nat.sub_le _ _) t.isLt)).2) := by
  obtain ⟨n, hn⟩ := t
  cases n with
  | zero => exact absurd rfl ht
  | succ n => rfl

theorem acc4_first (c : Dev nD) (t : Fin cfg4.N) (ht : t.val = 0) :
    acc4 V c t.val t.isLt = (k4_pay4 (iblk4 V c 0 t) (iblk4 V c 1 t) (iblk4 V c 2 t) (k4_pay1 (F := F)),
      k4_pay5 (iblk4 V c 0 t) (iblk4 V c 1 t) (iblk4 V c 2 t) (k4_pay2 (F := F))) := by
  obtain ⟨n, hn⟩ := t
  cases n with
  | zero => rfl
  | succ n => exact absurd ht (Nat.succ_ne_zero n)

def PhiS4 (c : Dev nD) : (n : ℕ) → n ≤ cfg4.N → sProp 𝕄
  | 0, _ => Pipeline.ΦA spec4 c
  | n + 1, hn => iprop(iprop(iprop(owns (c : Thread nD τ) scM4_0 fullShare (acc4 V c n hn).1 ∗ owns (c : Thread nD τ) scM4_1 fullShare (acc4 V c n hn).2)
          ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (acc4 V c n hn).1 ∗ owns (c : Thread nD τ) scM4_1 fullShare (acc4 V c n hn).2)
          ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (acc4 V c (n - 1) (by omega)).1 ∗ owns (c : Thread nD τ) scM4_1 fullShare (acc4 V c (n - 1) (by omega)).2)
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (acc4 V c t.val t.isLt).1
    | ⟨4, _⟩ => (acc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (acc4 V c t.val t.isLt).1 := by dsimp only [dat4]
theorem after4_4 (c : Dev nD) (t : Fin cfg4.N) : (dat4 V c).after 4 t = (acc4 V c t.val t.isLt).2 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_eq]
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  by_cases h0 : t.val = 0
  · -- the first point
    have h1 : t.val ≠ 19 := by omega
    rw [Dat.leavesExact_idle (dat4 V c) 3 t (idleAt4_3 t h1) (noFlush4_3 t h1)]
    rw [Dat.leavesExact_idle (dat4 V c) 4 t (idleAt4_4 t h1) (noFlush4_4 t h1)]
    rw [acc4_first V c t h0]
    rw [PhiS4_castSucc V c t, PhiS4_zero V c _ _ h0, PhiA4_eq]
    simp only [k4_pay1_eq, k4_pay2_eq, k4_pay4_eq, k4_pay5_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (run0_A c (grid4.coords t) _ _ _ _ _ _ _ _ _ _ _ _ _ _ ((hcond4_0 t).mpr h0) (fun h => h1 ((hcond4_1 t).mp h)) (iblk4 V c 0 t) (iblk4 V c 1 t) (iblk4 V c 2 t) _ _ Set.univ _)
    iframe H0 H1 H2 H3 H4 HS0 HS1
    iintro ⟨H0, H1, H2, H3, H4, HS0, HS1⟩
    iframe HS0 HS1 Hr Hg Ho H0 H1 H2
    isplitl [H3]; · iexists _; iexact H3
    iexists _; iexact H4
  · by_cases h1 : t.val = 19
    · -- the last point
      rw [show (dat4 V c).leavesExact 3 t = owns (c : Thread nD τ) (st4_3 t) fullShare ((dat4 V c).after 3 t) from by
        unfold Dat.leavesExact; rw [liveAt4_3 t h1], after4_3]
      rw [show (dat4 V c).leavesExact 4 t = owns (c : Thread nD τ) (st4_4 t) fullShare ((dat4 V c).after 4 t) from by
        unfold Dat.leavesExact; rw [liveAt4_4 t h1], after4_4]
      rw [acc4_pos V c t h0]
      rw [PhiS4_castSucc V c t, PhiS4_pos V c _ _ h0]
      simp only [k4_pay1_eq, k4_pay2_eq, k4_pay4_eq, k4_pay5_eq]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_C c (grid4.coords t) _ _ _ _ _ _ _ _ _ _ _ _ _ _ (fun h => h0 ((hcond4_0 t).mp h)) ((hcond4_1 t).mpr h1) (iblk4 V c 0 t) (iblk4 V c 1 t) (iblk4 V c 2 t) _ _ Set.univ _)
      iframe H0 H1 H2 HS0 HS1
      isplitl [H3]; · iexists _; iexact H3
      isplitl [H4]; · iexists _; iexact H4
      iintro ⟨H0, H1, H2, H3, H4, HS0, HS1⟩
      iframe HS0 HS1 Hr Hg Ho H0 H1 H2 H3 H4
    · -- a point in between
      rw [Dat.leavesExact_idle (dat4 V c) 3 t (idleAt4_3 t h1) (noFlush4_3 t h1)]
      rw [Dat.leavesExact_idle (dat4 V c) 4 t (idleAt4_4 t h1) (noFlush4_4 t h1)]
      rw [acc4_pos V c t h0]
      rw [PhiS4_castSucc V c t, PhiS4_pos V c _ _ h0]
      simp only [k4_pay1_eq, k4_pay2_eq, k4_pay4_eq, k4_pay5_eq]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) _ _ _ _ Set.univ _)
      iframe H0 H1 H2 H3 H4 HS0 HS1
      iintro ⟨H0, H1, H2, H3, H4, HS0, HS1⟩
      iframe HS0 HS1 Hr Hg Ho H0 H1 H2
      isplitl [H3]; · iexists _; iexact H3
      iexists _; iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitr [Hg]
  · isplitr [Hr]
    · isplitl [HS0]
      · iexists _; iexact HS0
      · iexists _; iexact HS1
    · iexact Hr
  · iexact Hg

theorem hout4 (c : Dev nD) : (dat4 V c).Φ (Fin.last cfg4.N) ⊢ Pipeline.ΦA spec4 c :=
  Phi_out4 V c _ (by rw [Fin.val_last]; have : cfg4.N = 20 := N_4; omega)

end Region

end Cert.Kernel.Hand

end
-- ==== Proof.K.Apply5.lean ====
import proofs.«181289_j42949672960516_1_alg».proof.Proof.K.Apply1
import proofs.«181289_j42949672960516_1_alg».proof.Proof.Gen.Kernel.Skeleton
import proofs.«181289_j42949672960516_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_9 : Rect S5000x64 := Rect.unit (s := S5000x64) ![0, 0] S5000x64.size inb_S5000x64_S5000x64_0_0
abbrev r5_m : Rect S64x64 := Rect.unit (s := S64x64) ![0, 0] S64x64.size inb_S64x64_S64x64_0_0
abbrev r5_v : Rect S1x64 := Rect.unit (s := S1x64) ![0, 0] S1x64.size inb_S1x64_S1x64_0_0

def out5_9 (x0 : Vec F S5000x64 .f32) (x1 : Vec F S64x64 .f32) (x2 : Vec F S1x64 .f32) (x3 : Vec F S1x64 .f32) (x4 : Vec F S1x64 .f32) (x5 : Vec F S1x64 .f32) (x6 : Vec F S1x64 .f32) (x7 : Vec F S64x64 .f32) (x8 : Vec F S1x64 .f32) : Vec F S5000x64 .f32 :=
  View.canon [⟨r5_9, k5_pay1 (k5_pay2 (View.ld x0 r5_9) (View.ld x1 r5_m) (View.ld x2 r5_v) (View.ld x4 r5_v) (View.ld x3 r5_v) (View.ld x5 r5_v) (View.ld x6 r5_v) (View.ld x7 r5_m)) (View.ld x8 r5_v)⟩]

theorem cc5_eq : (cc5__apply_kernel (F := F)) = cc1__apply_kernel := rfl
theorem out5_9_eq : (out5_9 (F := F)) = out1_9 := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem hin5 (c : Dev nD) : Pipeline.ΦA spec5 c ⊢ (dat5 V c).Φ 0 := .rfl
theorem hout5 (c : Dev nD) : (dat5 V c).Φ (Fin.last cfg5.N) ⊢ Pipeline.ΦA spec5 c := .rfl

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl) (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl) (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (fun _ => rfl) (fun _ _ _ => rfl) (fun t => by rw [after5_5]; unfold Dat.blockOf iblk5; rw [A_eq5]; try rfl) t d).trans
    (by unfold Dat.fetched Dat.blockOf iblk5; rw [A_eq5]; try rfl)
theorem before5_6 (c : Dev nD) (t : Fin cfg5.N) (d) : (dat5 V c).before 6 t d = iblk5 V c 6 t :=
  ((dat5 V c).before_in_eq_fetched 6 rfl (fun _ => rfl) (fun _ _ _ => rfl) (fun t => by rw [after5_6]; unfold Dat.blockOf iblk5; rw [A_eq5]; try rfl) t d).trans
    (by unfold Dat.fetched Dat.blockOf iblk5; rw [A_eq5]; try rfl)
theorem before5_7 (c : Dev nD) (t : Fin cfg5.N) (d) : (dat5 V c).before 7 t d = iblk5 V c 7 t :=
  ((dat5 V c).before_in_eq_fetched 7 rfl (fun _ => rfl) (fun _ _ _ => rfl) (fun t => by rw [after5_7]; unfold Dat.blockOf iblk5; rw [A_eq5]; try rfl) t d).trans
    (by unfold Dat.fetched Dat.blockOf iblk5; rw [A_eq5]; try rfl)
theorem before5_8 (c : Dev nD) (t : Fin cfg5.N) (d) : (dat5 V c).before 8 t d = iblk5 V c 8 t :=
  ((dat5 V c).before_in_eq_fetched 8 rfl (fun _ => rfl) (fun _ _ _ => rfl) (fun t => by rw [after5_8]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [cc5_eq]
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, out5_9_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  iframe H0 H1 H2 H3 H4 H5 H6 H7 H8
  isplitl [H9]; · iexists _; iexact H9
  iintro ⟨H0, H1, H2, H3, H4, H5, H6, H7, H8, H9⟩
  iframe HΦ Ho H0 H1 H2 H3 H4 H5 H6 H7 H8 H9

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Final6.lean ====
import proofs.«181289_j42949672960516_1_alg».proof.Proof.Gen.Kernel.Launch
import proofs.«181289_j42949672960516_1_alg».proof.Proof.Gen.Kernel.Skeleton
import proofs.«181289_j42949672960516_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_7 : Rect S256x2 := Rect.unit (s := S256x2) ![0, 0] S256x2.size inb_S256x2_S256x2_0_0
abbrev r6_a : Rect S256x64 := Rect.unit (s := S256x64) ![0, 0] S256x64.size inb_S256x64_S256x64_0_0
abbrev r6_m : Rect S64x64 := Rect.unit (s := S64x64) ![0, 0] S64x64.size inb_S64x64_S64x64_0_0
abbrev r6_v : Rect S1x64 := Rect.unit (s := S1x64) ![0, 0] S1x64.size inb_S1x64_S1x64_0_0
abbrev r6_n : Rect S64x2 := Rect.unit (s := S64x2) ![0, 0] S64x2.size inb_S64x2_S64x2_0_0
abbrev r6_u : Rect S1x2 := Rect.unit (s := S1x2) ![0, 0] S1x2.size inb_S1x2_S1x2_0_0

def out6_7 (x0 : Vec F S256x64 .f32) (x1 : Vec F S64x64 .f32) (x2 : Vec F S1x64 .f32) (x3 : Vec F S1x64 .f32) (x4 : Vec F S1x64 .f32) (x5 : Vec F S64x2 .f32) (x6 : Vec F S1x2 .f32) : Vec F S256x2 .f32 :=
  View.canon [⟨r6_7, k6_pay1 (k6_pay2 (View.ld x0 r6_a) (View.ld x1 r6_m) (View.ld x2 r6_v) (View.ld x3 r6_v) (View.ld x4 r6_v)) (k6_pay3 (View.ld x5 r6_n)) (constant S256x2 .f32 0x00000000#32) (View.ld x6 r6_u)⟩]

theorem cover6_7 (p0 : Vec F S256x2 .f32) (y : S256x2.Idx) :
    ∃ pc ∈ ([⟨r6_7, p0⟩] : List (View.Piece (Elt F) S256x2 .f32)), y ∈ pc.1.set :=
  View.cover_of_tiled [⟨r6_7, p0⟩] S256x2.size (by rfl) y

set_option maxHeartbeats 1000000 in
theorem sound_kernel6 (c : Dev nD) (E : Set ℕ) (i : grid6.Coords) (arg1 : Memref sig .tc .vmem S256x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S256x2 .f32) (harg8 : arg8.IsWhole)
    (x0 : Vec F S256x64 .f32) (x1 : Vec F S64x64 .f32) (x2 : Vec F S1x64 .f32) (x3 : Vec F S1x64 .f32) (x4 : Vec F S1x64 .f32) (x5 : Vec F S64x2 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6)) -∗ K ⟨⟩))
      ⊢ wp frame (wpE (defs₀ (F := F)) Variants.none c none) E (cc6__final_kernel i arg1 harg1 arg2 harg2 arg3 harg3 arg4 harg4 arg5 harg5 arg6 harg6 arg7 harg7 arg8 harg8) K := by
  simp only [cc6__final_kernel_eq_skeleton]; unfold cc6__final_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem hin6 (c : Dev nD) : Pipeline.ΦA spec6 c ⊢ (dat6 V c).Φ 0 := .rfl
theorem hout6 (c : Dev nD) : (dat6 V c).Φ (Fin.last cfg6.N) ⊢ Pipeline.ΦA spec6 c := .rfl

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl) (fun t => by rw [after6_4]; unfold Dat.blockOf iblk6; rw [A_eq6]; try rfl) t d).trans
    (by unfold Dat.fetched Dat.blockOf iblk6; rw [A_eq6]; try rfl)
theorem before6_5 (c : Dev nD) (t : Fin cfg6.N) (d) : (dat6 V c).before 5 t d = iblk6 V c 5 t :=
  ((dat6 V c).before_in_eq_fetched 5 rfl (fun _ => rfl) (fun _ _ _ => rfl) (fun t => by rw [after6_5]; unfold Dat.blockOf iblk6; rw [A_eq6]; try rfl) t d).trans
    (by unfold Dat.fetched Dat.blockOf iblk6; rw [A_eq6]; try rfl)
theorem before6_6 (c : Dev nD) (t : Fin cfg6.N) (d) : (dat6 V c).before 6 t d = iblk6 V c 6 t :=
  ((dat6 V c).before_in_eq_fetched 6 rfl (fun _ => rfl) (fun _ _ _ => rfl) (fun t => by rw [after6_6]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  iframe H0 H1 H2 H3 H4 H5 H6
  isplitl [H7]; · iexists _; iexact H7
  iintro ⟨H0, H1, H2, H3, H4, H5, H6, H7⟩
  iframe HΦ Ho H0 H1 H2 H3 H4 H5 H6 H7

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.RunFold.lean ====
import proofs.«181289_j42949672960516_1_alg».proof.Proof.Gen.Kernel.Regions
import proofs.«181289_j42949672960516_1_alg».proof.Proof.K.Stats0
import proofs.«181289_j42949672960516_1_alg».proof.Proof.K.Apply1
import proofs.«181289_j42949672960516_1_alg».proof.Proof.K.Stats2
import proofs.«181289_j42949672960516_1_alg».proof.Proof.K.Apply3
import proofs.«181289_j42949672960516_1_alg».proof.Proof.K.Stats4
import proofs.«181289_j42949672960516_1_alg».proof.Proof.K.Apply5
import proofs.«181289_j42949672960516_1_alg».proof.Proof.K.Final6

noncomputable section

namespace Cert.Kernel.Hand

open Idealize.ShloMosaic Idealize.ShloMosaic.TcCoe
open Idealize.ShloMosaic.Pipeline (Dat Cfg)
open Cert.Kernel Cert.Kernel.Gen

variable {F : FTy → Type} [FloatOps F]

-- `withArrays_of_ne` with its hypothesis in the form the `hrest` lemmas state it.
theorem rest_of {gr W : ℕ} (win : Fin W → Pipeline.WinSpec sig gr) (c : Dev nD) (V : Valuation τ sig (Elt F))
    (A : (w : Fin W) → Buf (Elt F) ((win w).arr.view.loc (c.tc : Thread nD τ))) (b : Ref sig .tc)
    (hb : b ∉ Finset.univ.image (Pipeline.arrRef win)) :
    Pipeline.withArrays win c V A (Proc.devRef .tc b) = V (Proc.devRef .tc b) :=
  Pipeline.withArrays_of_ne win c V A b fun w e => hb (Finset.mem_image.mpr ⟨w, Finset.mem_univ _, e⟩)

-- What `W2_of` … `W14_of` share: an input window's array ends as it entered, and a buffer behind no window is none of the arrays.
theorem region_of {cfg : Cfg sig Λ₀} {c : Dev nD} (dat : Dat τ (Elt F) Unit ℕ (UR sig nD τ) ℕ cfg c)
    (V : Valuation τ sig (Elt F)) (hinj : Function.Injective (Pipeline.arrRef cfg.spec))
    (hA : ∀ w, dat.A w = V (Proc.devRef .tc (Pipeline.arrRef cfg.spec w))) (L : List (Ref sig .tc))
    (hL : ∀ w, (cfg.win w).isOut = true → Pipeline.arrRef cfg.spec w ∈ L) (r : Ref sig .tc) (h : r ∉ L) :
    Pipeline.withArrays cfg.spec c V (fun w => dat.arrAt w cfg.N) (Proc.devRef .tc r) = V (Proc.devRef .tc r) := by
  by_cases hw : ∃ w, Pipeline.arrRef cfg.spec w = r
  · obtain ⟨w, rfl⟩ := hw
    exact (Pipeline.withArrays_arr _ hinj c _ _ w).trans
      ((dat.arrAt_in w (Bool.eq_false_iff.mpr fun ho => h (hL w ho)) _).trans (hA w))
  · exact Pipeline.withArrays_of_ne _ c _ _ r fun w e => hw ⟨w, e⟩

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b => rest_of spec0 c _ _ b
theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ ([main_v20_0, main_v20_1] : List (Ref sig .tc))) :
    W2 m c (Proc.devRef .tc r) = W1 m c (Proc.devRef .tc r) :=
  region_of (dat0 (V1 m) c) _ launch0.win.arr_inj (A_eq0 (V1 m) c) _ (by decide) r h

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b => rest_of spec1 c _ _ b
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ∉ ([main_v43] : List (Ref sig .tc))) :
    W4 m c (Proc.devRef .tc r) = W3 m c (Proc.devRef .tc r) :=
  region_of (dat1 (V3 m) c) _ launch1.win.arr_inj (A_eq1 (V3 m) c) _ (by decide) r h

abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N :=
  Pipeline.withArrays_arr spec2 launch2.win.arr_inj c _ _ w
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b => rest_of spec2 c _ _ b
theorem W5_of (c : Dev nD) (r : Ref sig .tc) (h : r ∉ hostOps2_W) : W5 m c (Proc.devRef .tc r) = W4 m c (Proc.devRef .tc r) :=
  StableHlo.after_of_writes_sub hostOps2 _ hostOps2_writes h
theorem W6_of (c : Dev nD) (r : Ref sig .tc) (h : r ∉ ([main_v60_0, main_v60_1] : List (Ref sig .tc))) :
    W6 m c (Proc.devRef .tc r) = W5 m c (Proc.devRef .tc r) :=
  region_of (dat2 (V5 m) c) _ launch2.win.arr_inj (A_eq2 (V5 m) c) _ (by decide) r h

abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N :=
  Pipeline.withArrays_arr spec3 launch3.win.arr_inj c _ _ w
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b => rest_of spec3 c _ _ b
theorem W7_of (c : Dev nD) (r : Ref sig .tc) (h : r ∉ hostOps3_W) : W7 m c (Proc.devRef .tc r) = W6 m c (Proc.devRef .tc r) :=
  StableHlo.after_of_writes_sub hostOps3 _ hostOps3_writes h
theorem W8_of (c : Dev nD) (r : Ref sig .tc) (h : r ∉ ([main_v83] : List (Ref sig .tc))) :
    W8 m c (Proc.devRef .tc r) = W7 m c (Proc.devRef .tc r) :=
  region_of (dat3 (V7 m) c) _ launch3.win.arr_inj (A_eq3 (V7 m) c) _ (by decide) r h

abbrev W9 : Dev nD → Valuation τ sig (Elt F) := fun c => StableHlo.after hostOps4 (W8 m c)
abbrev V9 : (c : Dev nD) → (b : Ref sig .tc) → Buf (Elt F) ((c : Thread nD τ).loc b) := fun c b => W9 m c b
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N :=
  Pipeline.withArrays_arr spec4 launch4.win.arr_inj c _ _ w
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b => rest_of spec4 c _ _ b
theorem W9_of (c : Dev nD) (r : Ref sig .tc) (h : r ∉ hostOps4_W) : W9 m c (Proc.devRef .tc r) = W8 m c (Proc.devRef .tc r) :=
  StableHlo.after_of_writes_sub hostOps4 _ hostOps4_writes h
theorem W10_of (c : Dev nD) (r : Ref sig .tc) (h : r ∉ ([main_v100_0, main_v100_1] : List (Ref sig .tc))) :
    W10 m c (Proc.devRef .tc r) = W9 m c (Proc.devRef .tc r) :=
  region_of (dat4 (V9 m) c) _ launch4.win.arr_inj (A_eq4 (V9 m) c) _ (by decide) r h

abbrev W11 : Dev nD → Valuation τ sig (Elt F) := fun c => StableHlo.after hostOps5 (W10 m c)
abbrev V11 : (c : Dev nD) → (b : Ref sig .tc) → Buf (Elt F) ((c : Thread nD τ).loc b) := fun c b => W11 m c b
def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N :=
  Pipeline.withArrays_arr spec5 launch5.win.arr_inj c _ _ w
abbrev V12 : (c : Dev nD) → (b : Ref sig .tc) → Buf (Elt F) ((c : Thread nD τ).loc b) := fun c b => W12 m c b
theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b => rest_of spec5 c _ _ b
theorem W11_of (c : Dev nD) (r : Ref sig .tc) (h : r ∉ hostOps5_W) : W11 m c (Proc.devRef .tc r) = W10 m c (Proc.devRef .tc r) :=
  StableHlo.after_of_writes_sub hostOps5 _ hostOps5_writes h
theorem W12_of (c : Dev nD) (r : Ref sig .tc) (h : r ∉ ([main_v123] : List (Ref sig .tc))) :
    W12 m c (Proc.devRef .tc r) = W11 m c (Proc.devRef .tc r) :=
  region_of (dat5 (V11 m) c) _ launch5.win.arr_inj (A_eq5 (V11 m) c) _ (by decide) r h

abbrev W13 : Dev nD → Valuation τ sig (Elt F) := fun c => StableHlo.after hostOps6 (W12 m c)
abbrev V13 : (c : Dev nD) → (b : Ref sig .tc) → Buf (Elt F) ((c : Thread nD τ).loc b) := fun c b => W13 m c b
def W14 (c : Dev nD) : Valuation τ sig (Elt F) :=
  Pipeline.withArrays spec6 c (W13 m c) fun w => (dat6 (V13 m) c).arrAt w cfg6.N
theorem W14_arr (c : Dev nD) (w : Fin cfg6.W) :
    W14 m c (Proc.devRef .tc (Pipeline.arrRef spec6 w)) = (dat6 (V13 m) c).arrAt w cfg6.N :=
  Pipeline.withArrays_arr spec6 launch6.win.arr_inj c _ _ w
abbrev V14 : (c : Dev nD) → (b : Ref sig .tc) → Buf (Elt F) ((c : Thread nD τ).loc b) := fun c b => W14 m c b
theorem hF6 (c : Dev nD) (w : Fin cfg6.W) : (dat6 (V13 m) c).arrAt w cfg6.N = V14 m c (Pipeline.arrRef spec6 w) :=
  (W14_arr m c w).symm
theorem hrest6 (c : Dev nD) : ∀ b, b ∉ Finset.univ.image (Pipeline.arrRef spec6) → V14 m c b = V13 m c b :=
  fun b => rest_of spec6 c _ _ b
theorem W13_of (c : Dev nD) (r : Ref sig .tc) (h : r ∉ hostOps6_W) : W13 m c (Proc.devRef .tc r) = W12 m c (Proc.devRef .tc r) :=
  StableHlo.after_of_writes_sub hostOps6 _ hostOps6_writes h
theorem W14_of (c : Dev nD) (r : Ref sig .tc) (h : r ∉ ([main_v131] : List (Ref sig .tc))) :
    W14 m c (Proc.devRef .tc r) = W13 m c (Proc.devRef .tc r) :=
  region_of (dat6 (V13 m) c) _ launch6.win.arr_inj (A_eq6 (V13 m) c) _ (by decide) r h

abbrev mainArgs : List (Ref sig .tc) := [main_arg0, main_arg1, main_arg2, main_arg3, main_arg4, main_arg5, main_arg6, main_arg7, main_arg8, main_arg9, main_arg10, main_arg11, main_arg12, main_arg13, main_arg14]

-- No step of the fold writes an argument buffer, so at every boundary it holds what it held at launch.
theorem W2_arg (c : Dev nD) (r : Ref sig .tc) (hr : r ∈ mainArgs) : W2 m c (Proc.devRef .tc r) = W0 m c (Proc.devRef .tc r) :=
  (W2_of m c r ((by decide : ∀ r ∈ mainArgs, r ∉ ([main_v20_0, main_v20_1] : List (Ref sig .tc))) r hr)).trans (W1_of m c r ((by decide : ∀ r ∈ mainArgs, r ∉ hostOps0_W) r hr))
theorem W4_arg (c : Dev nD) (r : Ref sig .tc) (hr : r ∈ mainArgs) : W4 m c (Proc.devRef .tc r) = W0 m c (Proc.devRef .tc r) :=
  (W4_of m c r ((by decide : ∀ r ∈ mainArgs, r ∉ ([main_v43] : List (Ref sig .tc))) r hr)).trans <|
    (W3_of m c r ((by decide : ∀ r ∈ mainArgs, r ∉ hostOps1_W) r hr)).trans (W2_arg m c r hr)
theorem W6_arg (c : Dev nD) (r : Ref sig .tc) (hr : r ∈ mainArgs) : W6 m c (Proc.devRef .tc r) = W0 m c (Proc.devRef .tc r) :=
  (W6_of m c r ((by decide : ∀ r ∈ mainArgs, r ∉ ([main_v60_0, main_v60_1] : List (Ref sig .tc))) r hr)).trans <|
    (W5_of m c r ((by decide : ∀ r ∈ mainArgs, r ∉ hostOps2_W) r hr)).trans (W4_arg m c r hr)
theorem W8_arg (c : Dev nD) (r : Ref sig .tc) (hr : r ∈ mainArgs) : W8 m c (Proc.devRef .tc r) = W0 m c (Proc.devRef .tc r) :=
  (W8_of m c r ((by decide : ∀ r ∈ mainArgs, r ∉ ([main_v83] : List (Ref sig .tc))) r hr)).trans <|
    (W7_of m c r ((by decide : ∀ r ∈ mainArgs, r ∉ hostOps3_W) r hr)).trans (W6_arg m c r hr)
theorem W10_arg (c : Dev nD) (r : Ref sig .tc) (hr : r ∈ mainArgs) : W10 m c (Proc.devRef .tc r) = W0 m c (Proc.devRef .tc r) :=
  (W10_of m c r ((by decide : ∀ r ∈ mainArgs, r ∉ ([main_v100_0, main_v100_1] : List (Ref sig .tc))) r hr)).trans <|
    (W9_of m c r ((by decide : ∀ r ∈ mainArgs, r ∉ hostOps4_W) r hr)).trans (W8_arg m c r hr)
theorem W12_arg (c : Dev nD) (r : Ref sig .tc) (hr : r ∈ mainArgs) : W12 m c (Proc.devRef .tc r) = W0 m c (Proc.devRef .tc r) :=
  (W12_of m c r ((by decide : ∀ r ∈ mainArgs, r ∉ ([main_v123] : List (Ref sig .tc))) r hr)).trans <|
    (W11_of m c r ((by decide : ∀ r ∈ mainArgs, r ∉ hostOps5_W) r hr)).trans (W10_arg m c r hr)
theorem W13_arg (c : Dev nD) (r : Ref sig .tc) (hr : r ∈ mainArgs) : W13 m c (Proc.devRef .tc r) = W0 m c (Proc.devRef .tc r) :=
  (W13_of m c r ((by decide : ∀ r ∈ mainArgs, r ∉ hostOps6_W) r hr)).trans (W12_arg m c r hr)
theorem W14_arg (c : Dev nD) (r : Ref sig .tc) (hr : r ∈ mainArgs) : W14 m c (Proc.devRef .tc r) = m ((c : Thread nD τ).loc r) :=
  (W14_of m c r ((by decide : ∀ r ∈ mainArgs, r ∉ ([main_v131] : List (Ref sig .tc))) r hr)).trans (W13_arg m c r hr)

end Cert.Kernel.Hand

end
-- ==== Proof.K.Run.lean ====
import proofs.«181289_j42949672960516_1_alg».proof.Proof.K.RunFold

set_option maxRecDepth 4096

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

def pdats : (p : Fin 7) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
  | ⟨6, _⟩ => fun c => dat6 (V13 m) c
abbrev 𝒱₀ : Variants := Variants.none
abbrev L₀ : GSem nD τ sig → Finset Unit := fun _ => ∅
abbrev lv₀ : GSem nD τ sig → Unit → ℕ := fun _ _ => 0
abbrev R₀ (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R₀ c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R₀
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def mkReg (p : Fin 7) (lf : Pipeline.LaunchFacts (nD := nD) (τ := τ) cfgs p)
    (Wi Wo : Dev nD → Valuation τ sig (Elt F))
    (hq : ∀ c w, (pdats m p c).q w = fullShare)
    (howed : ∀ c t, (pdats m p c).owed t = 0)
    (hrec : ∀ c t, (pdats m p c).recorded t = Set.univ)
    (hA : ∀ c w, (pdats m p c).A w = Wi c (Proc.devRef .tc (Pipeline.arrRef (cfgs p).spec w)))
    (hF : ∀ c w, (pdats m p c).arrAt w (cfgs p).N = Wo c (Proc.devRef .tc (Pipeline.arrRef (cfgs p).spec w)))
    (hrest : ∀ c (b : Ref sig .tc), b ∉ Finset.univ.image (Pipeline.arrRef (cfgs p).spec) → Wo c (Proc.devRef .tc b) = Wi c (Proc.devRef .tc b))
    (hbody : ∀ c, Pipeline.BodyObligationLoose (pdats m p c) (defs₀ (F := F)) 𝒱₀ () Set.univ)
    (hΦi : ∀ c, Pipeline.ΦA (U := UR sig nD τ) (Val := Elt F) (cfgs p).spec c ⊢ (pdats m p c).Φ 0)
    (hΦo : ∀ c, (pdats m p c).Φ (Fin.last (cfgs p).N) ⊢ Pipeline.ΦA (U := UR sig nD τ) (Val := Elt F) (cfgs p).spec c) :
    Pipeline.RegionSeg (pcfgs (F := F)) adm (pdats m) () defs₀ 𝒱₀ L₀ lv₀ p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L₀ lv₀ p howed
  pre := T Wi
  post := T Wo
  X c := iprop(∃ r, prngReg c r)
  Y c := iprop(∃ r, prngReg c r)
  Z c := Pipeline.unscopedRest (Ix := Unit) (Name := ℕ) (U := UR sig nD τ) (Lvl := ℕ) (cfgs p).spec c (fun b => Wi c (Proc.devRef .tc b))
  hentry c := by
    rw [Pipeline.ownSems0_none]
    have hsplit := Pipeline.arrays_of_unscopedBufs (p := p) (pcfgs (F := F)) adm (pdats m) lf.win lf.arr_whole c
      ((pdats m p c).share_full (hq c)) (fun b => Wi c (Proc.devRef .tc b)) (hA c)
    rw [Pipeline.unscopedBufs_held c (Wi c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; exact Set.mem_univ _)
      iexact HO
    isplitl [Hp]; · iexact Hp
    iexact Hrest
  hin c := by
    refine .trans ?_ (hΦi c)
    unfold Pipeline.ΦA
    iintro ⟨Hp, -, Hr⟩
    isplitl [Hr]; · iexact Hr
    iexact Hp
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wi c (Proc.devRef .tc b)) (fun b => Wo c (Proc.devRef .tc b)) ((pdats m p c).arrAt · (cfgs p).N) (hF c) (hrest c)
    rw [Pipeline.unscopedBufs_held c (Wo c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 : Pipeline.RegionSeg (pcfgs (F := F)) adm (pdats m) () defs₀ 𝒱₀ L₀ lv₀ 0 :=
  mkReg m 0 launch0 (W1 m) (W2 m) (fun _ _ => rfl) (fun _ _ => rfl) (fun _ _ => rfl)
    (A_eq0 (V1 m)) (hF0 m) (hrest0 m)
    (fun c => (body_obligation0 (V1 m) c).loose) (hin0 (V1 m)) (hout0 (V1 m))

def reg1 : Pipeline.RegionSeg (pcfgs (F := F)) adm (pdats m) () defs₀ 𝒱₀ L₀ lv₀ 1 :=
  mkReg m 1 launch1 (W3 m) (W4 m) (fun _ _ => rfl) (fun _ _ => rfl) (fun _ _ => rfl)
    (A_eq1 (V3 m)) (hF1 m) (hrest1 m)
    (fun c => (body_obligation1 (V3 m) c).loose) (hin1 (V3 m)) (hout1 (V3 m))

def reg2 : Pipeline.RegionSeg (pcfgs (F := F)) adm (pdats m) () defs₀ 𝒱₀ L₀ lv₀ 2 :=
  mkReg m 2 launch2 (W5 m) (W6 m) (fun _ _ => rfl) (fun _ _ => rfl) (fun _ _ => rfl)
    (A_eq2 (V5 m)) (hF2 m) (hrest2 m)
    (fun c => (body_obligation2 (V5 m) c).loose) (hin2 (V5 m)) (hout2 (V5 m))

def reg3 : Pipeline.RegionSeg (pcfgs (F := F)) adm (pdats m) () defs₀ 𝒱₀ L₀ lv₀ 3 :=
  mkReg m 3 launch3 (W7 m) (W8 m) (fun _ _ => rfl) (fun _ _ => rfl) (fun _ _ => rfl)
    (A_eq3 (V7 m)) (hF3 m) (hrest3 m)
    (fun c => (body_obligation3 (V7 m) c).loose) (hin3 (V7 m)) (hout3 (V7 m))

def reg4 : Pipeline.RegionSeg (pcfgs (F := F)) adm (pdats m) () defs₀ 𝒱₀ L₀ lv₀ 4 :=
  mkReg m 4 launch4 (W9 m) (W10 m) (fun _ _ => rfl) (fun _ _ => rfl) (fun _ _ => rfl)
    (A_eq4 (V9 m)) (hF4 m) (hrest4 m)
    (fun c => (body_obligation4 (V9 m) c).loose) (hin4 (V9 m)) (hout4 (V9 m))

def reg5 : Pipeline.RegionSeg (pcfgs (F := F)) adm (pdats m) () defs₀ 𝒱₀ L₀ lv₀ 5 :=
  mkReg m 5 launch5 (W11 m) (W12 m) (fun _ _ => rfl) (fun _ _ => rfl) (fun _ _ => rfl)
    (A_eq5 (V11 m)) (hF5 m) (hrest5 m)
    (fun c => (body_obligation5 (V11 m) c).loose) (hin5 (V11 m)) (hout5 (V11 m))

def reg6 : Pipeline.RegionSeg (pcfgs (F := F)) adm (pdats m) () defs₀ 𝒱₀ L₀ lv₀ 6 :=
  mkReg m 6 launch6 (W13 m) (W14 m) (fun _ _ => rfl) (fun _ _ => rfl) (fun _ _ => rfl)
    (A_eq6 (V13 m)) (hF6 m) (hrest6 m)
    (fun c => (body_obligation6 (V13 m) c).loose) (hin6 (V13 m)) (hout6 (V13 m))

abbrev segs : List (Pipeline.Seg (pcfgs (F := F)) adm (pdats m) () defs₀ 𝒱₀ L₀ lv₀) :=
  [ .host (hseg hostOps0 hostOps0_sub hostOps0_fresh (W0 m)), .region (reg0 m),
    .host (hseg hostOps1 hostOps1_sub hostOps1_fresh (W2 m)), .region (reg1 m),
    .host (hseg hostOps2 hostOps2_sub hostOps2_fresh (W4 m)), .region (reg2 m),
    .host (hseg hostOps3 hostOps3_sub hostOps3_fresh (W6 m)), .region (reg3 m),
    .host (hseg hostOps4 hostOps4_sub hostOps4_fresh (W8 m)), .region (reg4 m),
    .host (hseg hostOps5 hostOps5_sub hostOps5_fresh (W10 m)), .region (reg5 m),
    .host (hseg hostOps6 hostOps6_sub hostOps6_fresh (W12 m)), .region (reg6 m) ]

theorem main_run (c : Dev nD) : main (F := F) c = Pipeline.Seg.run (segs m) := by
  rw [main_chain c, Pipeline.Seg.run_eq_chain]
  rfl

set_option backward.isDefEq.respectTransparency.types false in
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W14 m c b) :=
  Pipeline.θ_run_regions_kit (pcfgs (F := F)) adm (pdats m) () cellOf_inj emb₁ defs₀ 𝒱₀ L₀ lv₀ m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m))
    (Tₙ := fun c => iprop(StableHlo.held (c : Thread nD τ) (Pipeline.ucRefs τ sig) (W14 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show T (W14 m) c ⊢ _
        iintro ⟨Hh, Hp, HO⟩
        isplitl [Hh Hp]
        · isplitl [Hh] <;> iassumption
        iexact HO⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun _ h => h)

theorem run_refs (ρ : Dev nD → PrngReg) :
    θ_run defs (onTc (τ := τ) (main (F := F))) ⟨m, fun _ => 0, ρ⟩
      (fun r => ∀ (c : Dev nD) (b : Ref sig .tc), ¬ (Proc.devRef .tc b : DevRef τ sig).isScoped →
        r.2.mem ((c.tc : Thread nD τ).loc b) = W14 m c (Proc.devRef .tc b)) :=
  (θ_run defs _ _).mono (fun r h c b hb => h c _ (mem_uc b hb)) (run_all m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    refine ⟨?_, ?_, ?_, ?_, ?_, ?_, ?_, ?_, ?_, ?_, ?_, ?_, ?_, ?_, ?_⟩ <;>
      exact (h c _ (by decide)).trans (W14_arg m c _ (by decide))) (run_refs m ρ)

end Cert.Kernel.Hand

end
-- ==== Proof.KI.Stats0.lean ====
import proofs.«181289_j42949672960516_1_alg».proof.Proof.Gen.KernelIdeal.Launch
import proofs.«181289_j42949672960516_1_alg».proof.Proof.Gen.KernelIdeal.Skeleton
import proofs.«181289_j42949672960516_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros0 : (![0, 0] : Fin 2 → Nat) = fun _ => 0 := funext fun a => by fin_cases a <;> rfl

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1
theorem hcond0_1 : ∀ t : Fin cfg0.N, cond0_1 (grid0.coords t) ↔ t.val = 19 :=
  (by decide +kernel : ∀ t : Fin grid0.N, cond0_1 (grid0.coords t) ↔ t.val = 19)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, t.val ≠ 19 → cfg0.idle 3 (grid0.coords t) = true := by decide +kernel
theorem idleAt0_4 : ∀ t : Fin cfg0.N, t.val ≠ 19 → cfg0.idle 4 (grid0.coords t) = true := by decide +kernel
theorem noFlush0_3 : ∀ t : Fin cfg0.N, t.val ≠ 19 → (cfg0.win 3).flush t = false := by decide +kernel
theorem noFlush0_4 : ∀ t : Fin cfg0.N, t.val ≠ 19 → (cfg0.win 4).flush t = false := by decide +kernel
theorem liveAt0_3 : ∀ t : Fin cfg0.N, t.val = 19 → cfg0.idle 3 (grid0.coords t) = false := by decide +kernel
theorem liveAt0_4 : ∀ t : Fin cfg0.N, t.val = 19 → cfg0.idle 4 (grid0.coords t) = false := by decide +kernel

abbrev scM0_0 : Memref sig .tc .vmem S1x64 .f32 := Memref.whole cc0_scratch0
abbrev scM0_1 : Memref sig .tc .vmem S1x64 .f32 := Memref.whole cc0_scratch1

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

local macro "stats_value" : tactic => `(tactic| (
  sl_unfold_run_names
  rw [View.read_writes_eq_canon _ _ _ (fun y => ⟨_, List.mem_cons.mpr (Or.inl rfl), View.mem_set_unit_zero zeros0 inb_S1x64_S1x64_0_0 y⟩)]
  rw [View.canon_cons_unit_zero (S := S1x64) zeros0]
  try rw [View.readCov_unit_zero (S := S1x64) _ zeros0]
  simp only [View.readAt_eq_ld, View.ld_unit_zero (S := S5000x64) zeros0, View.ld_unit_zero (S := S64x64) zeros0, View.ld_unit_zero (S := S1x64) zeros0]))

set_option maxHeartbeats 1000000 in
theorem run0_A (c : Dev nD) (i : grid0.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : cond0_0 i) (hc1 : ¬cond0_1 i) (x0 : Vec F S5000x64 .f32) (x1 : Vec F S64x64 .f32) (x2 : Vec F S1x64 .f32) (xi3 xi4 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4
            ∗ owns (c : Thread nD τ) arg6 fullShare (k0_pay4 x0 x1 x2 (k0_pay1 (F := F)))
            ∗ owns (c : Thread nD τ) arg7 fullShare (k0_pay5 x0 x1 x2 (k0_pay2 (F := F)))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    stats_value
  iexists _; isplitr
  swap; · iexact H7
  ipureintro
  stats_value

set_option maxHeartbeats 1000000 in
theorem run0_B (c : Dev nD) (i : grid0.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : ¬cond0_0 i) (hc1 : ¬cond0_1 i) (x0 : Vec F S5000x64 .f32) (x1 : Vec F S64x64 .f32) (x2 : Vec F S1x64 .f32) (xi3 xi4 : Vec F S1x64 .f32) (xs0 xs1 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4
            ∗ owns (c : Thread nD τ) arg6 fullShare (k0_pay4 x0 x1 x2 xs0)
            ∗ owns (c : Thread nD τ) arg7 fullShare (k0_pay5 x0 x1 x2 xs1)) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    stats_value
  iexists _; isplitr
  swap; · iexact H7
  ipureintro
  stats_value

set_option maxHeartbeats 1000000 in
theorem run0_C (c : Dev nD) (i : grid0.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : ¬cond0_0 i) (hc1 : cond0_1 i) (x0 : Vec F S5000x64 .f32) (x1 : Vec F S64x64 .f32) (x2 : Vec F S1x64 .f32) (xs0 xs1 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2 xs0) ∗ owns (c : Thread nD τ) arg5 fullShare (k0_pay5 x0 x1 x2 xs1)
            ∗ owns (c : Thread nD τ) arg6 fullShare (k0_pay4 x0 x1 x2 xs0)
            ∗ owns (c : Thread nD τ) arg7 fullShare (k0_pay5 x0 x1 x2 xs1)) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf1 hf2 hf3 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    stats_value
  isplitl [H5]
  · iexists _; isplitr
    swap; · iexact H5
    ipureintro
    stats_value
  isplitl [H6]
  · iexists _; isplitr
    swap; · iexact H6
    ipureintro
    stats_value
  iexists _; isplitr
  swap; · iexact H7
  ipureintro
  stats_value

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def acc0 (c : Dev nD) : (n : ℕ) → n < cfg0.N → Vec F S1x64 .f32 × Vec F S1x64 .f32
  | 0, hn => (k0_pay4 (iblk0 V c 0 ⟨0, hn⟩) (iblk0 V c 1 ⟨0, hn⟩) (iblk0 V c 2 ⟨0, hn⟩) (k0_pay1 (F := F)),
      k0_pay5 (iblk0 V c 0 ⟨0, hn⟩) (iblk0 V c 1 ⟨0, hn⟩) (iblk0 V c 2 ⟨0, hn⟩) (k0_pay2 (F := F)))
  | n + 1, hn => (k0_pay4 (iblk0 V c 0 ⟨n + 1, hn⟩) (iblk0 V c 1 ⟨n + 1, hn⟩) (iblk0 V c 2 ⟨n + 1, hn⟩) (acc0 c n (Nat.lt_of_succ_lt hn)).1,
      k0_pay5 (iblk0 V c 0 ⟨n + 1, hn⟩) (iblk0 V c 1 ⟨n + 1, hn⟩) (iblk0 V c 2 ⟨n + 1, hn⟩) (acc0 c n (Nat.lt_of_succ_lt hn)).2)

theorem acc0_zero (c : Dev nD) (hn : 0 < cfg0.N) :
    acc0 V c 0 hn = (k0_pay4 (iblk0 V c 0 ⟨0, hn⟩) (iblk0 V c 1 ⟨0, hn⟩) (iblk0 V c 2 ⟨0, hn⟩) (k0_pay1 (F := F)),
      k0_pay5 (iblk0 V c 0 ⟨0, hn⟩) (iblk0 V c 1 ⟨0, hn⟩) (iblk0 V c 2 ⟨0, hn⟩) (k0_pay2 (F := F))) := rfl

theorem acc0_succ (c : Dev nD) (n : ℕ) (hn : n + 1 < cfg0.N) :
    acc0 V c (n + 1) hn = (k0_pay4 (iblk0 V c 0 ⟨n + 1, hn⟩) (iblk0 V c 1 ⟨n + 1, hn⟩) (iblk0 V c 2 ⟨n + 1, hn⟩) (acc0 V c n (Nat.lt_of_succ_lt hn)).1,
      k0_pay5 (iblk0 V c 0 ⟨n + 1, hn⟩) (iblk0 V c 1 ⟨n + 1, hn⟩) (iblk0 V c 2 ⟨n + 1, hn⟩) (acc0 V c n (Nat.lt_of_succ_lt hn)).2) := rfl

theorem acc0_pos (c : Dev nD) (t : Fin cfg0.N) (ht : t.val ≠ 0) :
    acc0 V c t.val t.isLt = (k0_pay4 (iblk0 V c 0 t) (iblk0 V c 1 t) (iblk0 V c 2 t) (acc0 V c (t.val - 1) (Nat.lt_of_le_of_lt (Nat.sub_le _ _) t.isLt)).1,
      k0_pay5 (iblk0 V c 0 t) (iblk0 V c 1 t) (iblk0 V c 2 t) (acc0 V c (t.val - 1) (Nat.lt_of_le_of_lt (Nat.sub_le _ _) t.isLt)).2) := by
  obtain ⟨n, hn⟩ := t
  cases n with
  | zero => exact absurd rfl ht
  | succ n => rfl

theorem acc0_first (c : Dev nD) (t : Fin cfg0.N) (ht : t.val = 0) :
    acc0 V c t.val t.isLt = (k0_pay4 (iblk0 V c 0 t) (iblk0 V c 1 t) (iblk0 V c 2 t) (k0_pay1 (F := F)),
      k0_pay5 (iblk0 V c 0 t) (iblk0 V c 1 t) (iblk0 V c 2 t) (k0_pay2 (F := F))) := by
  obtain ⟨n, hn⟩ := t
  cases n with
  | zero => rfl
  | succ n => exact absurd ht (Nat.succ_ne_zero n)

def PhiS0 (c : Dev nD) : (n : ℕ) → n ≤ cfg0.N → sProp 𝕄
  | 0, _ => Pipeline.ΦA spec0 c
  | n + 1, hn => iprop(iprop(iprop(owns (c : Thread nD τ) scM0_0 fullShare (acc0 V c n hn).1 ∗ owns (c : Thread nD τ) scM0_1 fullShare (acc0 V c n hn).2)
          ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (acc0 V c n hn).1 ∗ owns (c : Thread nD τ) scM0_1 fullShare (acc0 V c n hn).2)
          ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (acc0 V c (n - 1) (by omega)).1 ∗ owns (c : Thread nD τ) scM0_1 fullShare (acc0 V c (n - 1) (by omega)).2)
          ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (acc0 V c t.val t.isLt).1
    | ⟨4, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (acc0 V c t.val t.isLt).1 := by dsimp only [dat0]
theorem after0_4 (c : Dev nD) (t : Fin cfg0.N) : (dat0 V c).after 4 t = (acc0 V c t.val t.isLt).2 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  by_cases h0 : t.val = 0
  · -- the first point
    have h1 : t.val ≠ 19 := by omega
    rw [Dat.leavesExact_idle (dat0 V c) 3 t (idleAt0_3 t h1) (noFlush0_3 t h1)]
    rw [Dat.leavesExact_idle (dat0 V c) 4 t (idleAt0_4 t h1) (noFlush0_4 t h1)]
    rw [acc0_first V c t h0]
    rw [PhiS0_castSucc V c t, PhiS0_zero V c _ _ h0, PhiA0_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (run0_A c (grid0.coords t) _ _ _ _ _ _ _ _ _ _ _ _ _ _ ((hcond0_0 t).mpr h0) (fun h => h1 ((hcond0_1 t).mp h)) (iblk0 V c 0 t) (iblk0 V c 1 t) (iblk0 V c 2 t) _ _ Set.univ _)
    iframe H0 H1 H2 H3 H4 HS0 HS1
    iintro ⟨H0, H1, H2, H3, H4, HS0, HS1⟩
    iframe HS0 HS1 Hr Hg Ho H0 H1 H2
    isplitl [H3]; · iexists _; iexact H3
    iexists _; iexact H4
  · by_cases h1 : t.val = 19
    · -- the last point
      rw [show (dat0 V c).leavesExact 3 t = owns (c : Thread nD τ) (st0_3 t) fullShare ((dat0 V c).after 3 t) from by
        unfold Dat.leavesExact; rw [liveAt0_3 t h1], after0_3]
      rw [show (dat0 V c).leavesExact 4 t = owns (c : Thread nD τ) (st0_4 t) fullShare ((dat0 V c).after 4 t) from by
        unfold Dat.leavesExact; rw [liveAt0_4 t h1], after0_4]
      rw [acc0_pos V c t h0]
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_C c (grid0.coords t) _ _ _ _ _ _ _ _ _ _ _ _ _ _ (fun h => h0 ((hcond0_0 t).mp h)) ((hcond0_1 t).mpr h1) (iblk0 V c 0 t) (iblk0 V c 1 t) (iblk0 V c 2 t) _ _ Set.univ _)
      iframe H0 H1 H2 HS0 HS1
      isplitl [H3]; · iexists _; iexact H3
      isplitl [H4]; · iexists _; iexact H4
      iintro ⟨H0, H1, H2, H3, H4, HS0, HS1⟩
      iframe HS0 HS1 Hr Hg Ho H0 H1 H2 H3 H4
    · -- a point in between
      rw [Dat.leavesExact_idle (dat0 V c) 3 t (idleAt0_3 t h1) (noFlush0_3 t h1)]
      rw [Dat.leavesExact_idle (dat0 V c) 4 t (idleAt0_4 t h1) (noFlush0_4 t h1)]
      rw [acc0_pos V c t h0]
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _ _ _ Set.univ _)
      iframe H0 H1 H2 H3 H4 HS0 HS1
      iintro ⟨H0, H1, H2, H3, H4, HS0, HS1⟩
      iframe HS0 HS1 Hr Hg Ho H0 H1 H2
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitr [Hg]
  · isplitr [Hr]
    · isplitl [HS0]
      · iexists _; iexact HS0
      · iexists _; iexact HS1
    · iexact Hr
  · iexact Hg

theorem hout0 (c : Dev nD) : (dat0 V c).Φ (Fin.last cfg0.N) ⊢ Pipeline.ΦA spec0 c :=
  Phi_out0 V c _ (by rw [Fin.val_last]; have : cfg0.N = 20 := N_0; omega)

end Region

end Cert.KernelIdeal.Hand

end
-- ==== Proof.KI.Apply1.lean ====
import proofs.«181289_j42949672960516_1_alg».proof.Proof.Gen.KernelIdeal.Launch
import proofs.«181289_j42949672960516_1_alg».proof.Proof.Gen.KernelIdeal.Skeleton
import proofs.«181289_j42949672960516_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_9 : Rect S5000x64 := Rect.unit (s := S5000x64) ![0, 0] S5000x64.size inb_S5000x64_S5000x64_0_0
abbrev r1_m : Rect S64x64 := Rect.unit (s := S64x64) ![0, 0] S64x64.size inb_S64x64_S64x64_0_0
abbrev r1_v : Rect S1x64 := Rect.unit (s := S1x64) ![0, 0] S1x64.size inb_S1x64_S1x64_0_0

def out1_9 (x0 : Vec F S5000x64 .f32) (x1 : Vec F S64x64 .f32) (x2 : Vec F S1x64 .f32) (x3 : Vec F S1x64 .f32) (x4 : Vec F S1x64 .f32) (x5 : Vec F S1x64 .f32) (x6 : Vec F S1x64 .f32) (x7 : Vec F S64x64 .f32) (x8 : Vec F S1x64 .f32) : Vec F S5000x64 .f32 :=
  View.canon [⟨r1_9, k1_pay1 (k1_pay2 (View.ld x0 r1_9) (View.ld x1 r1_m) (View.ld x2 r1_v) (View.ld x4 r1_v) (View.ld x3 r1_v) (View.ld x5 r1_v) (View.ld x6 r1_v) (View.ld x7 r1_m)) (View.ld x8 r1_v)⟩]

theorem cover1_9 (p0 : Vec F S5000x64 .f32) (y : S5000x64.Idx) :
    ∃ pc ∈ ([⟨r1_9, p0⟩] : List (View.Piece (Elt F) S5000x64 .f32)), y ∈ pc.1.set :=
  View.cover_of_tiled [⟨r1_9, p0⟩] S5000x64.size (by rfl) y

set_option maxHeartbeats 1000000 in
theorem sound_kernel1 (c : Dev nD) (E : Set ℕ) (i : grid1.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S5000x64 .f32) (harg10 : arg10.IsWhole)
    (x0 : Vec F S5000x64 .f32) (x1 : Vec F S64x64 .f32) (x2 : Vec F S1x64 .f32) (x3 : Vec F S1x64 .f32) (x4 : Vec F S1x64 .f32) (x5 : Vec F S1x64 .f32) (x6 : Vec F S1x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__apply_kernel i arg1 harg1 arg2 harg2 arg3 harg3 arg4 harg4 arg5 harg5 arg6 harg6 arg7 harg7 arg8 harg8 arg9 harg9 arg10 harg10) K := by
  simp only [cc1__apply_kernel_eq_skeleton]; unfold cc1__apply_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem hin1 (c : Dev nD) : Pipeline.ΦA spec1 c ⊢ (dat1 V c).Φ 0 := .rfl
theorem hout1 (c : Dev nD) : (dat1 V c).Φ (Fin.last cfg1.N) ⊢ Pipeline.ΦA spec1 c := .rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  iframe H0 H1 H2 H3 H4 H5 H6 H7 H8
  isplitl [H9]; · iexists _; iexact H9
  iintro ⟨H0, H1, H2, H3, H4, H5, H6, H7, H8, H9⟩
  iframe HΦ Ho H0 H1 H2 H3 H4 H5 H6 H7 H8 H9

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Stats2.lean ====
import proofs.«181289_j42949672960516_1_alg».proof.Proof.KI.Stats0
import proofs.«181289_j42949672960516_1_alg».proof.Proof.Gen.KernelIdeal.Skeleton
import proofs.«181289_j42949672960516_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1
theorem hcond2_1 : ∀ t : Fin cfg2.N, cond2_1 (grid2.coords t) ↔ t.val = 19 :=
  (by decide +kernel : ∀ t : Fin grid2.N, cond2_1 (grid2.coords t) ↔ t.val = 19)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, t.val ≠ 19 → cfg2.idle 3 (grid2.coords t) = true := by decide +kernel
theorem idleAt2_4 : ∀ t : Fin cfg2.N, t.val ≠ 19 → cfg2.idle 4 (grid2.coords t) = true := by decide +kernel
theorem noFlush2_3 : ∀ t : Fin cfg2.N, t.val ≠ 19 → (cfg2.win 3).flush t = false := by decide +kernel
theorem noFlush2_4 : ∀ t : Fin cfg2.N, t.val ≠ 19 → (cfg2.win 4).flush t = false := by decide +kernel
theorem liveAt2_3 : ∀ t : Fin cfg2.N, t.val = 19 → cfg2.idle 3 (grid2.coords t) = false := by decide +kernel
theorem liveAt2_4 : ∀ t : Fin cfg2.N, t.val = 19 → cfg2.idle 4 (grid2.coords t) = false := by decide +kernel

abbrev scM2_0 : Memref sig .tc .vmem S1x64 .f32 := Memref.whole cc2_scratch0
abbrev scM2_1 : Memref sig .tc .vmem S1x64 .f32 := Memref.whole cc2_scratch1

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

theorem cc2_eq : (cc2__stats_kernel (F := F)) = cc0__stats_kernel := rfl
theorem k2_pay1_eq : (k2_pay1 (F := F)) = k0_pay1 := rfl
theorem k2_pay2_eq : (k2_pay2 (F := F)) = k0_pay2 := rfl
theorem k2_pay4_eq : (k2_pay4 (F := F)) = k0_pay4 := rfl
theorem k2_pay5_eq : (k2_pay5 (F := F)) = k0_pay5 := rfl

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S1x64 .f32 × Vec F S1x64 .f32
  | 0, hn => (k2_pay4 (iblk2 V c 0 ⟨0, hn⟩) (iblk2 V c 1 ⟨0, hn⟩) (iblk2 V c 2 ⟨0, hn⟩) (k2_pay1 (F := F)),
      k2_pay5 (iblk2 V c 0 ⟨0, hn⟩) (iblk2 V c 1 ⟨0, hn⟩) (iblk2 V c 2 ⟨0, hn⟩) (k2_pay2 (F := F)))
  | n + 1, hn => (k2_pay4 (iblk2 V c 0 ⟨n + 1, hn⟩) (iblk2 V c 1 ⟨n + 1, hn⟩) (iblk2 V c 2 ⟨n + 1, hn⟩) (acc2 c n (Nat.lt_of_succ_lt hn)).1,
      k2_pay5 (iblk2 V c 0 ⟨n + 1, hn⟩) (iblk2 V c 1 ⟨n + 1, hn⟩) (iblk2 V c 2 ⟨n + 1, hn⟩) (acc2 c n (Nat.lt_of_succ_lt hn)).2)

theorem acc2_zero (c : Dev nD) (hn : 0 < cfg2.N) :
    acc2 V c 0 hn = (k2_pay4 (iblk2 V c 0 ⟨0, hn⟩) (iblk2 V c 1 ⟨0, hn⟩) (iblk2 V c 2 ⟨0, hn⟩) (k2_pay1 (F := F)),
      k2_pay5 (iblk2 V c 0 ⟨0, hn⟩) (iblk2 V c 1 ⟨0, hn⟩) (iblk2 V c 2 ⟨0, hn⟩) (k2_pay2 (F := F))) := rfl

theorem acc2_succ (c : Dev nD) (n : ℕ) (hn : n + 1 < cfg2.N) :
    acc2 V c (n + 1) hn = (k2_pay4 (iblk2 V c 0 ⟨n + 1, hn⟩) (iblk2 V c 1 ⟨n + 1, hn⟩) (iblk2 V c 2 ⟨n + 1, hn⟩) (acc2 V c n (Nat.lt_of_succ_lt hn)).1,
      k2_pay5 (iblk2 V c 0 ⟨n + 1, hn⟩) (iblk2 V c 1 ⟨n + 1, hn⟩) (iblk2 V c 2 ⟨n + 1, hn⟩) (acc2 V c n (Nat.lt_of_succ_lt hn)).2) := rfl

theorem acc2_pos (c : Dev nD) (t : Fin cfg2.N) (ht : t.val ≠ 0) :
    acc2 V c t.val t.isLt = (k2_pay4 (iblk2 V c 0 t) (iblk2 V c 1 t) (iblk2 V c 2 t) (acc2 V c (t.val - 1) (Nat.lt_of_le_of_lt (Nat.sub_le _ _) t.isLt)).1,
      k2_pay5 (iblk2 V c 0 t) (iblk2 V c 1 t) (iblk2 V c 2 t) (acc2 V c (t.val - 1) (Nat.lt_of_le_of_lt (Nat.sub_le _ _) t.isLt)).2) := by
  obtain ⟨n, hn⟩ := t
  cases n with
  | zero => exact absurd rfl ht
  | succ n => rfl

theorem acc2_first (c : Dev nD) (t : Fin cfg2.N) (ht : t.val = 0) :
    acc2 V c t.val t.isLt = (k2_pay4 (iblk2 V c 0 t) (iblk2 V c 1 t) (iblk2 V c 2 t) (k2_pay1 (F := F)),
      k2_pay5 (iblk2 V c 0 t) (iblk2 V c 1 t) (iblk2 V c 2 t) (k2_pay2 (F := F))) := by
  obtain ⟨n, hn⟩ := t
  cases n with
  | zero => rfl
  | succ n => exact absurd ht (Nat.succ_ne_zero n)

def PhiS2 (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2)
          ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (acc2 V c n hn).1 ∗ owns (c : Thread nD τ) scM2_1 fullShare (acc2 V c n hn).2)
          ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (acc2 V c (n - 1) (by omega)).1 ∗ owns (c : Thread nD τ) scM2_1 fullShare (acc2 V c (n - 1) (by omega)).2)
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (acc2 V c t.val t.isLt).1
    | ⟨4, _⟩ => (acc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (acc2 V c t.val t.isLt).1 := by dsimp only [dat2]
theorem after2_4 (c : Dev nD) (t : Fin cfg2.N) : (dat2 V c).after 4 t = (acc2 V c t.val t.isLt).2 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [cc2_eq]
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  by_cases h0 : t.val = 0
  · -- the first point
    have h1 : t.val ≠ 19 := by omega
    rw [Dat.leavesExact_idle (dat2 V c) 3 t (idleAt2_3 t h1) (noFlush2_3 t h1)]
    rw [Dat.leavesExact_idle (dat2 V c) 4 t (idleAt2_4 t h1) (noFlush2_4 t h1)]
    rw [acc2_first V c t h0]
    rw [PhiS2_castSucc V c t, PhiS2_zero V c _ _ h0, PhiA2_eq]
    simp only [k2_pay1_eq, k2_pay2_eq, k2_pay4_eq, k2_pay5_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (run0_A c (grid2.coords t) _ _ _ _ _ _ _ _ _ _ _ _ _ _ ((hcond2_0 t).mpr h0) (fun h => h1 ((hcond2_1 t).mp h)) (iblk2 V c 0 t) (iblk2 V c 1 t) (iblk2 V c 2 t) _ _ Set.univ _)
    iframe H0 H1 H2 H3 H4 HS0 HS1
    iintro ⟨H0, H1, H2, H3, H4, HS0, HS1⟩
    iframe HS0 HS1 Hr Hg Ho H0 H1 H2
    isplitl [H3]; · iexists _; iexact H3
    iexists _; iexact H4
  · by_cases h1 : t.val = 19
    · -- the last point
      rw [show (dat2 V c).leavesExact 3 t = owns (c : Thread nD τ) (st2_3 t) fullShare ((dat2 V c).after 3 t) from by
        unfold Dat.leavesExact; rw [liveAt2_3 t h1], after2_3]
      rw [show (dat2 V c).leavesExact 4 t = owns (c : Thread nD τ) (st2_4 t) fullShare ((dat2 V c).after 4 t) from by
        unfold Dat.leavesExact; rw [liveAt2_4 t h1], after2_4]
      rw [acc2_pos V c t h0]
      rw [PhiS2_castSucc V c t, PhiS2_pos V c _ _ h0]
      simp only [k2_pay1_eq, k2_pay2_eq, k2_pay4_eq, k2_pay5_eq]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_C c (grid2.coords t) _ _ _ _ _ _ _ _ _ _ _ _ _ _ (fun h => h0 ((hcond2_0 t).mp h)) ((hcond2_1 t).mpr h1) (iblk2 V c 0 t) (iblk2 V c 1 t) (iblk2 V c 2 t) _ _ Set.univ _)
      iframe H0 H1 H2 HS0 HS1
      isplitl [H3]; · iexists _; iexact H3
      isplitl [H4]; · iexists _; iexact H4
      iintro ⟨H0, H1, H2, H3, H4, HS0, HS1⟩
      iframe HS0 HS1 Hr Hg Ho H0 H1 H2 H3 H4
    · -- a point in between
      rw [Dat.leavesExact_idle (dat2 V c) 3 t (idleAt2_3 t h1) (noFlush2_3 t h1)]
      rw [Dat.leavesExact_idle (dat2 V c) 4 t (idleAt2_4 t h1) (noFlush2_4 t h1)]
      rw [acc2_pos V c t h0]
      rw [PhiS2_castSucc V c t, PhiS2_pos V c _ _ h0]
      simp only [k2_pay1_eq, k2_pay2_eq, k2_pay4_eq, k2_pay5_eq]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) _ _ _ _ Set.univ _)
      iframe H0 H1 H2 H3 H4 HS0 HS1
      iintro ⟨H0, H1, H2, H3, H4, HS0, HS1⟩
      iframe HS0 HS1 Hr Hg Ho H0 H1 H2
      isplitl [H3]; · iexists _; iexact H3
      iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitr [Hg]
  · isplitr [Hr]
    · isplitl [HS0]
      · iexists _; iexact HS0
      · iexists _; iexact HS1
    · iexact Hr
  · iexact Hg

theorem hout2 (c : Dev nD) : (dat2 V c).Φ (Fin.last cfg2.N) ⊢ Pipeline.ΦA spec2 c :=
  Phi_out2 V c _ (by rw [Fin.val_last]; have : cfg2.N = 20 := N_2; omega)

end Region

end Cert.KernelIdeal.Hand

end
-- ==== Proof.KI.Apply3.lean ====
import proofs.«181289_j42949672960516_1_alg».proof.Proof.KI.Apply1
import proofs.«181289_j42949672960516_1_alg».proof.Proof.Gen.KernelIdeal.Skeleton
import proofs.«181289_j42949672960516_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_9 : Rect S5000x64 := Rect.unit (s := S5000x64) ![0, 0] S5000x64.size inb_S5000x64_S5000x64_0_0
abbrev r3_m : Rect S64x64 := Rect.unit (s := S64x64) ![0, 0] S64x64.size inb_S64x64_S64x64_0_0
abbrev r3_v : Rect S1x64 := Rect.unit (s := S1x64) ![0, 0] S1x64.size inb_S1x64_S1x64_0_0

def out3_9 (x0 : Vec F S5000x64 .f32) (x1 : Vec F S64x64 .f32) (x2 : Vec F S1x64 .f32) (x3 : Vec F S1x64 .f32) (x4 : Vec F S1x64 .f32) (x5 : Vec F S1x64 .f32) (x6 : Vec F S1x64 .f32) (x7 : Vec F S64x64 .f32) (x8 : Vec F S1x64 .f32) : Vec F S5000x64 .f32 :=
  View.canon [⟨r3_9, k3_pay1 (k3_pay2 (View.ld x0 r3_9) (View.ld x1 r3_m) (View.ld x2 r3_v) (View.ld x4 r3_v) (View.ld x3 r3_v) (View.ld x5 r3_v) (View.ld x6 r3_v) (View.ld x7 r3_m)) (View.ld x8 r3_v)⟩]

theorem cc3_eq : (cc3__apply_kernel (F := F)) = cc1__apply_kernel := rfl
theorem out3_9_eq : (out3_9 (F := F)) = out1_9 := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl) (fun t => by rw [after3_7]; unfold Dat.blockOf iblk3; rw [A_eq3]; try rfl) t d).trans
    (by unfold Dat.fetched Dat.blockOf iblk3; rw [A_eq3]; try rfl)
theorem before3_8 (c : Dev nD) (t : Fin cfg3.N) (d) : (dat3 V c).before 8 t d = iblk3 V c 8 t :=
  ((dat3 V c).before_in_eq_fetched 8 rfl (fun _ => rfl) (fun _ _ _ => rfl) (fun t => by rw [after3_8]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq]
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, out3_9_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  iframe H0 H1 H2 H3 H4 H5 H6 H7 H8
  isplitl [H9]; · iexists _; iexact H9
  iintro ⟨H0, H1, H2, H3, H4, H5, H6, H7, H8, H9⟩
  iframe HΦ Ho H0 H1 H2 H3 H4 H5 H6 H7 H8 H9

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Stats4.lean ====
import proofs.«181289_j42949672960516_1_alg».proof.Proof.KI.Stats0
import proofs.«181289_j42949672960516_1_alg».proof.Proof.Gen.KernelIdeal.Skeleton
import proofs.«181289_j42949672960516_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1
theorem hcond4_1 : ∀ t : Fin cfg4.N, cond4_1 (grid4.coords t) ↔ t.val = 19 :=
  (by decide +kernel : ∀ t : Fin grid4.N, cond4_1 (grid4.coords t) ↔ t.val = 19)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, t.val ≠ 19 → cfg4.idle 3 (grid4.coords t) = true := by decide +kernel
theorem idleAt4_4 : ∀ t : Fin cfg4.N, t.val ≠ 19 → cfg4.idle 4 (grid4.coords t) = true := by decide +kernel
theorem noFlush4_3 : ∀ t : Fin cfg4.N, t.val ≠ 19 → (cfg4.win 3).flush t = false := by decide +kernel
theorem noFlush4_4 : ∀ t : Fin cfg4.N, t.val ≠ 19 → (cfg4.win 4).flush t = false := by decide +kernel
theorem liveAt4_3 : ∀ t : Fin cfg4.N, t.val = 19 → cfg4.idle 3 (grid4.coords t) = false := by decide +kernel
theorem liveAt4_4 : ∀ t : Fin cfg4.N, t.val = 19 → cfg4.idle 4 (grid4.coords t) = false := by decide +kernel

abbrev scM4_0 : Memref sig .tc .vmem S1x64 .f32 := Memref.whole cc4_scratch0
abbrev scM4_1 : Memref sig .tc .vmem S1x64 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

theorem cc4_eq : (cc4__stats_kernel (F := F)) = cc0__stats_kernel := rfl
theorem k4_pay1_eq : (k4_pay1 (F := F)) = k0_pay1 := rfl
theorem k4_pay2_eq : (k4_pay2 (F := F)) = k0_pay2 := rfl
theorem k4_pay4_eq : (k4_pay4 (F := F)) = k0_pay4 := rfl
theorem k4_pay5_eq : (k4_pay5 (F := F)) = k0_pay5 := rfl

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S1x64 .f32 × Vec F S1x64 .f32
  | 0, hn => (k4_pay4 (iblk4 V c 0 ⟨0, hn⟩) (iblk4 V c 1 ⟨0, hn⟩) (iblk4 V c 2 ⟨0, hn⟩) (k4_pay1 (F := F)),
      k4_pay5 (iblk4 V c 0 ⟨0, hn⟩) (iblk4 V c 1 ⟨0, hn⟩) (iblk4 V c 2 ⟨0, hn⟩) (k4_pay2 (F := F)))
  | n + 1, hn => (k4_pay4 (iblk4 V c 0 ⟨n + 1, hn⟩) (iblk4 V c 1 ⟨n + 1, hn⟩) (iblk4 V c 2 ⟨n + 1, hn⟩) (acc4 c n (Nat.lt_of_succ_lt hn)).1,
      k4_pay5 (iblk4 V c 0 ⟨n + 1, hn⟩) (iblk4 V c 1 ⟨n + 1, hn⟩) (iblk4 V c 2 ⟨n + 1, hn⟩) (acc4 c n (Nat.lt_of_succ_lt hn)).2)

theorem acc4_zero (c : Dev nD) (hn : 0 < cfg4.N) :
    acc4 V c 0 hn = (k4_pay4 (iblk4 V c 0 ⟨0, hn⟩) (iblk4 V c 1 ⟨0, hn⟩) (iblk4 V c 2 ⟨0, hn⟩) (k4_pay1 (F := F)),
      k4_pay5 (iblk4 V c 0 ⟨0, hn⟩) (iblk4 V c 1 ⟨0, hn⟩) (iblk4 V c 2 ⟨0, hn⟩) (k4_pay2 (F := F))) := rfl

theorem acc4_succ (c : Dev nD) (n : ℕ) (hn : n + 1 < cfg4.N) :
    acc4 V c (n + 1) hn = (k4_pay4 (iblk4 V c 0 ⟨n + 1, hn⟩) (iblk4 V c 1 ⟨n + 1, hn⟩) (iblk4 V c 2 ⟨n + 1, hn⟩) (acc4 V c n (Nat.lt_of_succ_lt hn)).1,
      k4_pay5 (iblk4 V c 0 ⟨n + 1, hn⟩) (iblk4 V c 1 ⟨n + 1, hn⟩) (iblk4 V c 2 ⟨n + 1, hn⟩) (acc4 V c n (Nat.lt_of_succ_lt hn)).2) := rfl

theorem acc4_pos (c : Dev nD) (t : Fin cfg4.N) (ht : t.val ≠ 0) :
    acc4 V c t.val t.isLt = (k4_pay4 (iblk4 V c 0 t) (iblk4 V c 1 t) (iblk4 V c 2 t) (acc4 V c (t.val - 1) (Nat.lt_of_le_of_lt (Nat.sub_le _ _) t.isLt)).1,
      k4_pay5 (iblk4 V c 0 t) (iblk4 V c 1 t) (iblk4 V c 2 t) (acc4 V c (t.val - 1) (Nat.lt_of_le_of_lt (Nat.sub_le _ _) t.isLt)).2) := by
  obtain ⟨n, hn⟩ := t
  cases n with
  | zero => exact absurd rfl ht
  | succ n => rfl

theorem acc4_first (c : Dev nD) (t : Fin cfg4.N) (ht : t.val = 0) :
    acc4 V c t.val t.isLt = (k4_pay4 (iblk4 V c 0 t) (iblk4 V c 1 t) (iblk4 V c 2 t) (k4_pay1 (F := F)),
      k4_pay5 (iblk4 V c 0 t) (iblk4 V c 1 t) (iblk4 V c 2 t) (k4_pay2 (F := F))) := by
  obtain ⟨n, hn⟩ := t
  cases n with
  | zero => rfl
  | succ n => exact absurd ht (Nat.succ_ne_zero n)

def PhiS4 (c : Dev nD) : (n : ℕ) → n ≤ cfg4.N → sProp 𝕄
  | 0, _ => Pipeline.ΦA spec4 c
  | n + 1, hn => iprop(iprop(iprop(owns (c : Thread nD τ) scM4_0 fullShare (acc4 V c n hn).1 ∗ owns (c : Thread nD τ) scM4_1 fullShare (acc4 V c n hn).2)
          ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (acc4 V c n hn).1 ∗ owns (c : Thread nD τ) scM4_1 fullShare (acc4 V c n hn).2)
          ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (acc4 V c (n - 1) (by omega)).1 ∗ owns (c : Thread nD τ) scM4_1 fullShare (acc4 V c (n - 1) (by omega)).2)
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (acc4 V c t.val t.isLt).1
    | ⟨4, _⟩ => (acc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (acc4 V c t.val t.isLt).1 := by dsimp only [dat4]
theorem after4_4 (c : Dev nD) (t : Fin cfg4.N) : (dat4 V c).after 4 t = (acc4 V c t.val t.isLt).2 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_eq]
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  by_cases h0 : t.val = 0
  · -- the first point
    have h1 : t.val ≠ 19 := by omega
    rw [Dat.leavesExact_idle (dat4 V c) 3 t (idleAt4_3 t h1) (noFlush4_3 t h1)]
    rw [Dat.leavesExact_idle (dat4 V c) 4 t (idleAt4_4 t h1) (noFlush4_4 t h1)]
    rw [acc4_first V c t h0]
    rw [PhiS4_castSucc V c t, PhiS4_zero V c _ _ h0, PhiA4_eq]
    simp only [k4_pay1_eq, k4_pay2_eq, k4_pay4_eq, k4_pay5_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (run0_A c (grid4.coords t) _ _ _ _ _ _ _ _ _ _ _ _ _ _ ((hcond4_0 t).mpr h0) (fun h => h1 ((hcond4_1 t).mp h)) (iblk4 V c 0 t) (iblk4 V c 1 t) (iblk4 V c 2 t) _ _ Set.univ _)
    iframe H0 H1 H2 H3 H4 HS0 HS1
    iintro ⟨H0, H1, H2, H3, H4, HS0, HS1⟩
    iframe HS0 HS1 Hr Hg Ho H0 H1 H2
    isplitl [H3]; · iexists _; iexact H3
    iexists _; iexact H4
  · by_cases h1 : t.val = 19
    · -- the last point
      rw [show (dat4 V c).leavesExact 3 t = owns (c : Thread nD τ) (st4_3 t) fullShare ((dat4 V c).after 3 t) from by
        unfold Dat.leavesExact; rw [liveAt4_3 t h1], after4_3]
      rw [show (dat4 V c).leavesExact 4 t = owns (c : Thread nD τ) (st4_4 t) fullShare ((dat4 V c).after 4 t) from by
        unfold Dat.leavesExact; rw [liveAt4_4 t h1], after4_4]
      rw [acc4_pos V c t h0]
      rw [PhiS4_castSucc V c t, PhiS4_pos V c _ _ h0]
      simp only [k4_pay1_eq, k4_pay2_eq, k4_pay4_eq, k4_pay5_eq]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_C c (grid4.coords t) _ _ _ _ _ _ _ _ _ _ _ _ _ _ (fun h => h0 ((hcond4_0 t).mp h)) ((hcond4_1 t).mpr h1) (iblk4 V c 0 t) (iblk4 V c 1 t) (iblk4 V c 2 t) _ _ Set.univ _)
      iframe H0 H1 H2 HS0 HS1
      isplitl [H3]; · iexists _; iexact H3
      isplitl [H4]; · iexists _; iexact H4
      iintro ⟨H0, H1, H2, H3, H4, HS0, HS1⟩
      iframe HS0 HS1 Hr Hg Ho H0 H1 H2 H3 H4
    · -- a point in between
      rw [Dat.leavesExact_idle (dat4 V c) 3 t (idleAt4_3 t h1) (noFlush4_3 t h1)]
      rw [Dat.leavesExact_idle (dat4 V c) 4 t (idleAt4_4 t h1) (noFlush4_4 t h1)]
      rw [acc4_pos V c t h0]
      rw [PhiS4_castSucc V c t, PhiS4_pos V c _ _ h0]
      simp only [k4_pay1_eq, k4_pay2_eq, k4_pay4_eq, k4_pay5_eq]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run0_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) _ _ _ _ Set.univ _)
      iframe H0 H1 H2 H3 H4 HS0 HS1
      iintro ⟨H0, H1, H2, H3, H4, HS0, HS1⟩
      iframe HS0 HS1 Hr Hg Ho H0 H1 H2
      isplitl [H3]; · iexists _; iexact H3
      iexists _; iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitr [Hg]
  · isplitr [Hr]
    · isplitl [HS0]
      · iexists _; iexact HS0
      · iexists _; iexact HS1
    · iexact Hr
  · iexact Hg

theorem hout4 (c : Dev nD) : (dat4 V c).Φ (Fin.last cfg4.N) ⊢ Pipeline.ΦA spec4 c :=
  Phi_out4 V c _ (by rw [Fin.val_last]; have : cfg4.N = 20 := N_4; omega)

end Region

end Cert.KernelIdeal.Hand

end
-- ==== Proof.KI.Apply5.lean ====
import proofs.«181289_j42949672960516_1_alg».proof.Proof.KI.Apply1
import proofs.«181289_j42949672960516_1_alg».proof.Proof.Gen.KernelIdeal.Skeleton
import proofs.«181289_j42949672960516_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_9 : Rect S5000x64 := Rect.unit (s := S5000x64) ![0, 0] S5000x64.size inb_S5000x64_S5000x64_0_0
abbrev r5_m : Rect S64x64 := Rect.unit (s := S64x64) ![0, 0] S64x64.size inb_S64x64_S64x64_0_0
abbrev r5_v : Rect S1x64 := Rect.unit (s := S1x64) ![0, 0] S1x64.size inb_S1x64_S1x64_0_0

def out5_9 (x0 : Vec F S5000x64 .f32) (x1 : Vec F S64x64 .f32) (x2 : Vec F S1x64 .f32) (x3 : Vec F S1x64 .f32) (x4 : Vec F S1x64 .f32) (x5 : Vec F S1x64 .f32) (x6 : Vec F S1x64 .f32) (x7 : Vec F S64x64 .f32) (x8 : Vec F S1x64 .f32) : Vec F S5000x64 .f32 :=
  View.canon [⟨r5_9, k5_pay1 (k5_pay2 (View.ld x0 r5_9) (View.ld x1 r5_m) (View.ld x2 r5_v) (View.ld x4 r5_v) (View.ld x3 r5_v) (View.ld x5 r5_v) (View.ld x6 r5_v) (View.ld x7 r5_m)) (View.ld x8 r5_v)⟩]

theorem cc5_eq : (cc5__apply_kernel (F := F)) = cc1__apply_kernel := rfl
theorem out5_9_eq : (out5_9 (F := F)) = out1_9 := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem hin5 (c : Dev nD) : Pipeline.ΦA spec5 c ⊢ (dat5 V c).Φ 0 := .rfl
theorem hout5 (c : Dev nD) : (dat5 V c).Φ (Fin.last cfg5.N) ⊢ Pipeline.ΦA spec5 c := .rfl

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl) (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl) (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (fun _ => rfl) (fun _ _ _ => rfl) (fun t => by rw [after5_5]; unfold Dat.blockOf iblk5; rw [A_eq5]; try rfl) t d).trans
    (by unfold Dat.fetched Dat.blockOf iblk5; rw [A_eq5]; try rfl)
theorem before5_6 (c : Dev nD) (t : Fin cfg5.N) (d) : (dat5 V c).before 6 t d = iblk5 V c 6 t :=
  ((dat5 V c).before_in_eq_fetched 6 rfl (fun _ => rfl) (fun _ _ _ => rfl) (fun t => by rw [after5_6]; unfold Dat.blockOf iblk5; rw [A_eq5]; try rfl) t d).trans
    (by unfold Dat.fetched Dat.blockOf iblk5; rw [A_eq5]; try rfl)
theorem before5_7 (c : Dev nD) (t : Fin cfg5.N) (d) : (dat5 V c).before 7 t d = iblk5 V c 7 t :=
  ((dat5 V c).before_in_eq_fetched 7 rfl (fun _ => rfl) (fun _ _ _ => rfl) (fun t => by rw [after5_7]; unfold Dat.blockOf iblk5; rw [A_eq5]; try rfl) t d).trans
    (by unfold Dat.fetched Dat.blockOf iblk5; rw [A_eq5]; try rfl)
theorem before5_8 (c : Dev nD) (t : Fin cfg5.N) (d) : (dat5 V c).before 8 t d = iblk5 V c 8 t :=
  ((dat5 V c).before_in_eq_fetched 8 rfl (fun _ => rfl) (fun _ _ _ => rfl) (fun t => by rw [after5_8]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [cc5_eq]
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, out5_9_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  iframe H0 H1 H2 H3 H4 H5 H6 H7 H8
  isplitl [H9]; · iexists _; iexact H9
  iintro ⟨H0, H1, H2, H3, H4, H5, H6, H7, H8, H9⟩
  iframe HΦ Ho H0 H1 H2 H3 H4 H5 H6 H7 H8 H9

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Final6.lean ====
import proofs.«181289_j42949672960516_1_alg».proof.Proof.Gen.KernelIdeal.Launch
import proofs.«181289_j42949672960516_1_alg».proof.Proof.Gen.KernelIdeal.Skeleton
import proofs.«181289_j42949672960516_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_7 : Rect S256x2 := Rect.unit (s := S256x2) ![0, 0] S256x2.size inb_S256x2_S256x2_0_0
abbrev r6_a : Rect S256x64 := Rect.unit (s := S256x64) ![0, 0] S256x64.size inb_S256x64_S256x64_0_0
abbrev r6_m : Rect S64x64 := Rect.unit (s := S64x64) ![0, 0] S64x64.size inb_S64x64_S64x64_0_0
abbrev r6_v : Rect S1x64 := Rect.unit (s := S1x64) ![0, 0] S1x64.size inb_S1x64_S1x64_0_0
abbrev r6_n : Rect S64x2 := Rect.unit (s := S64x2) ![0, 0] S64x2.size inb_S64x2_S64x2_0_0
abbrev r6_u : Rect S1x2 := Rect.unit (s := S1x2) ![0, 0] S1x2.size inb_S1x2_S1x2_0_0

def out6_7 (x0 : Vec F S256x64 .f32) (x1 : Vec F S64x64 .f32) (x2 : Vec F S1x64 .f32) (x3 : Vec F S1x64 .f32) (x4 : Vec F S1x64 .f32) (x5 : Vec F S64x2 .f32) (x6 : Vec F S1x2 .f32) : Vec F S256x2 .f32 :=
  View.canon [⟨r6_7, k6_pay1 (k6_pay2 (View.ld x0 r6_a) (View.ld x1 r6_m) (View.ld x2 r6_v) (View.ld x3 r6_v) (View.ld x4 r6_v)) (k6_pay3 (View.ld x5 r6_n)) (constant S256x2 .f32 0x00000000#32) (View.ld x6 r6_u)⟩]

theorem cover6_7 (p0 : Vec F S256x2 .f32) (y : S256x2.Idx) :
    ∃ pc ∈ ([⟨r6_7, p0⟩] : List (View.Piece (Elt F) S256x2 .f32)), y ∈ pc.1.set :=
  View.cover_of_tiled [⟨r6_7, p0⟩] S256x2.size (by rfl) y

set_option maxHeartbeats 1000000 in
theorem sound_kernel6 (c : Dev nD) (E : Set ℕ) (i : grid6.Coords) (arg1 : Memref sig .tc .vmem S256x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S256x2 .f32) (harg8 : arg8.IsWhole)
    (x0 : Vec F S256x64 .f32) (x1 : Vec F S64x64 .f32) (x2 : Vec F S1x64 .f32) (x3 : Vec F S1x64 .f32) (x4 : Vec F S1x64 .f32) (x5 : Vec F S64x2 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6)) -∗ K ⟨⟩))
      ⊢ wp frame (wpE (defs₀ (F := F)) Variants.none c none) E (cc6__final_kernel i arg1 harg1 arg2 harg2 arg3 harg3 arg4 harg4 arg5 harg5 arg6 harg6 arg7 harg7 arg8 harg8) K := by
  simp only [cc6__final_kernel_eq_skeleton]; unfold cc6__final_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem hin6 (c : Dev nD) : Pipeline.ΦA spec6 c ⊢ (dat6 V c).Φ 0 := .rfl
theorem hout6 (c : Dev nD) : (dat6 V c).Φ (Fin.last cfg6.N) ⊢ Pipeline.ΦA spec6 c := .rfl

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl) (fun t => by rw [after6_4]; unfold Dat.blockOf iblk6; rw [A_eq6]; try rfl) t d).trans
    (by unfold Dat.fetched Dat.blockOf iblk6; rw [A_eq6]; try rfl)
theorem before6_5 (c : Dev nD) (t : Fin cfg6.N) (d) : (dat6 V c).before 5 t d = iblk6 V c 5 t :=
  ((dat6 V c).before_in_eq_fetched 5 rfl (fun _ => rfl) (fun _ _ _ => rfl) (fun t => by rw [after6_5]; unfold Dat.blockOf iblk6; rw [A_eq6]; try rfl) t d).trans
    (by unfold Dat.fetched Dat.blockOf iblk6; rw [A_eq6]; try rfl)
theorem before6_6 (c : Dev nD) (t : Fin cfg6.N) (d) : (dat6 V c).before 6 t d = iblk6 V c 6 t :=
  ((dat6 V c).before_in_eq_fetched 6 rfl (fun _ => rfl) (fun _ _ _ => rfl) (fun t => by rw [after6_6]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  iframe H0 H1 H2 H3 H4 H5 H6
  isplitl [H7]; · iexists _; iexact H7
  iintro ⟨H0, H1, H2, H3, H4, H5, H6, H7⟩
  iframe HΦ Ho H0 H1 H2 H3 H4 H5 H6 H7

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.RunFold.lean ====
import proofs.«181289_j42949672960516_1_alg».proof.Proof.Gen.KernelIdeal.Regions
import proofs.«181289_j42949672960516_1_alg».proof.Proof.KI.Stats0
import proofs.«181289_j42949672960516_1_alg».proof.Proof.KI.Apply1
import proofs.«181289_j42949672960516_1_alg».proof.Proof.KI.Stats2
import proofs.«181289_j42949672960516_1_alg».proof.Proof.KI.Apply3
import proofs.«181289_j42949672960516_1_alg».proof.Proof.KI.Stats4
import proofs.«181289_j42949672960516_1_alg».proof.Proof.KI.Apply5
import proofs.«181289_j42949672960516_1_alg».proof.Proof.KI.Final6

noncomputable section

namespace Cert.KernelIdeal.Hand

open Idealize.ShloMosaic Idealize.ShloMosaic.TcCoe
open Idealize.ShloMosaic.Pipeline (Dat Cfg)
open Cert.KernelIdeal Cert.KernelIdeal.Gen

variable {F : FTy → Type} [FloatOps F]

-- `withArrays_of_ne` with its hypothesis in the form the `hrest` lemmas state it.
theorem rest_of {gr W : ℕ} (win : Fin W → Pipeline.WinSpec sig gr) (c : Dev nD) (V : Valuation τ sig (Elt F))
    (A : (w : Fin W) → Buf (Elt F) ((win w).arr.view.loc (c.tc : Thread nD τ))) (b : Ref sig .tc)
    (hb : b ∉ Finset.univ.image (Pipeline.arrRef win)) :
    Pipeline.withArrays win c V A (Proc.devRef .tc b) = V (Proc.devRef .tc b) :=
  Pipeline.withArrays_of_ne win c V A b fun w e => hb (Finset.mem_image.mpr ⟨w, Finset.mem_univ _, e⟩)

-- What `W2_of` … `W14_of` share: an input window's array ends as it entered, and a buffer behind no window is none of the arrays.
theorem region_of {cfg : Cfg sig Λ₀} {c : Dev nD} (dat : Dat τ (Elt F) Unit ℕ (UR sig nD τ) ℕ cfg c)
    (V : Valuation τ sig (Elt F)) (hinj : Function.Injective (Pipeline.arrRef cfg.spec))
    (hA : ∀ w, dat.A w = V (Proc.devRef .tc (Pipeline.arrRef cfg.spec w))) (L : List (Ref sig .tc))
    (hL : ∀ w, (cfg.win w).isOut = true → Pipeline.arrRef cfg.spec w ∈ L) (r : Ref sig .tc) (h : r ∉ L) :
    Pipeline.withArrays cfg.spec c V (fun w => dat.arrAt w cfg.N) (Proc.devRef .tc r) = V (Proc.devRef .tc r) := by
  by_cases hw : ∃ w, Pipeline.arrRef cfg.spec w = r
  · obtain ⟨w, rfl⟩ := hw
    exact (Pipeline.withArrays_arr _ hinj c _ _ w).trans
      ((dat.arrAt_in w (Bool.eq_false_iff.mpr fun ho => h (hL w ho)) _).trans (hA w))
  · exact Pipeline.withArrays_of_ne _ c _ _ r fun w e => hw ⟨w, e⟩

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b => rest_of spec0 c _ _ b
theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ ([main_v20_0, main_v20_1] : List (Ref sig .tc))) :
    W2 m c (Proc.devRef .tc r) = W1 m c (Proc.devRef .tc r) :=
  region_of (dat0 (V1 m) c) _ launch0.win.arr_inj (A_eq0 (V1 m) c) _ (by decide) r h

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b => rest_of spec1 c _ _ b
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ∉ ([main_v43] : List (Ref sig .tc))) :
    W4 m c (Proc.devRef .tc r) = W3 m c (Proc.devRef .tc r) :=
  region_of (dat1 (V3 m) c) _ launch1.win.arr_inj (A_eq1 (V3 m) c) _ (by decide) r h

abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N :=
  Pipeline.withArrays_arr spec2 launch2.win.arr_inj c _ _ w
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b => rest_of spec2 c _ _ b
theorem W5_of (c : Dev nD) (r : Ref sig .tc) (h : r ∉ hostOps2_W) : W5 m c (Proc.devRef .tc r) = W4 m c (Proc.devRef .tc r) :=
  StableHlo.after_of_writes_sub hostOps2 _ hostOps2_writes h
theorem W6_of (c : Dev nD) (r : Ref sig .tc) (h : r ∉ ([main_v60_0, main_v60_1] : List (Ref sig .tc))) :
    W6 m c (Proc.devRef .tc r) = W5 m c (Proc.devRef .tc r) :=
  region_of (dat2 (V5 m) c) _ launch2.win.arr_inj (A_eq2 (V5 m) c) _ (by decide) r h

abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N :=
  Pipeline.withArrays_arr spec3 launch3.win.arr_inj c _ _ w
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b => rest_of spec3 c _ _ b
theorem W7_of (c : Dev nD) (r : Ref sig .tc) (h : r ∉ hostOps3_W) : W7 m c (Proc.devRef .tc r) = W6 m c (Proc.devRef .tc r) :=
  StableHlo.after_of_writes_sub hostOps3 _ hostOps3_writes h
theorem W8_of (c : Dev nD) (r : Ref sig .tc) (h : r ∉ ([main_v83] : List (Ref sig .tc))) :
    W8 m c (Proc.devRef .tc r) = W7 m c (Proc.devRef .tc r) :=
  region_of (dat3 (V7 m) c) _ launch3.win.arr_inj (A_eq3 (V7 m) c) _ (by decide) r h

abbrev W9 : Dev nD → Valuation τ sig (Elt F) := fun c => StableHlo.after hostOps4 (W8 m c)
abbrev V9 : (c : Dev nD) → (b : Ref sig .tc) → Buf (Elt F) ((c : Thread nD τ).loc b) := fun c b => W9 m c b
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N :=
  Pipeline.withArrays_arr spec4 launch4.win.arr_inj c _ _ w
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b => rest_of spec4 c _ _ b
theorem W9_of (c : Dev nD) (r : Ref sig .tc) (h : r ∉ hostOps4_W) : W9 m c (Proc.devRef .tc r) = W8 m c (Proc.devRef .tc r) :=
  StableHlo.after_of_writes_sub hostOps4 _ hostOps4_writes h
theorem W10_of (c : Dev nD) (r : Ref sig .tc) (h : r ∉ ([main_v100_0, main_v100_1] : List (Ref sig .tc))) :
    W10 m c (Proc.devRef .tc r) = W9 m c (Proc.devRef .tc r) :=
  region_of (dat4 (V9 m) c) _ launch4.win.arr_inj (A_eq4 (V9 m) c) _ (by decide) r h

abbrev W11 : Dev nD → Valuation τ sig (Elt F) := fun c => StableHlo.after hostOps5 (W10 m c)
abbrev V11 : (c : Dev nD) → (b : Ref sig .tc) → Buf (Elt F) ((c : Thread nD τ).loc b) := fun c b => W11 m c b
def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N :=
  Pipeline.withArrays_arr spec5 launch5.win.arr_inj c _ _ w
abbrev V12 : (c : Dev nD) → (b : Ref sig .tc) → Buf (Elt F) ((c : Thread nD τ).loc b) := fun c b => W12 m c b
theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b => rest_of spec5 c _ _ b
theorem W11_of (c : Dev nD) (r : Ref sig .tc) (h : r ∉ hostOps5_W) : W11 m c (Proc.devRef .tc r) = W10 m c (Proc.devRef .tc r) :=
  StableHlo.after_of_writes_sub hostOps5 _ hostOps5_writes h
theorem W12_of (c : Dev nD) (r : Ref sig .tc) (h : r ∉ ([main_v123] : List (Ref sig .tc))) :
    W12 m c (Proc.devRef .tc r) = W11 m c (Proc.devRef .tc r) :=
  region_of (dat5 (V11 m) c) _ launch5.win.arr_inj (A_eq5 (V11 m) c) _ (by decide) r h

abbrev W13 : Dev nD → Valuation τ sig (Elt F) := fun c => StableHlo.after hostOps6 (W12 m c)
abbrev V13 : (c : Dev nD) → (b : Ref sig .tc) → Buf (Elt F) ((c : Thread nD τ).loc b) := fun c b => W13 m c b
def W14 (c : Dev nD) : Valuation τ sig (Elt F) :=
  Pipeline.withArrays spec6 c (W13 m c) fun w => (dat6 (V13 m) c).arrAt w cfg6.N
theorem W14_arr (c : Dev nD) (w : Fin cfg6.W) :
    W14 m c (Proc.devRef .tc (Pipeline.arrRef spec6 w)) = (dat6 (V13 m) c).arrAt w cfg6.N :=
  Pipeline.withArrays_arr spec6 launch6.win.arr_inj c _ _ w
abbrev V14 : (c : Dev nD) → (b : Ref sig .tc) → Buf (Elt F) ((c : Thread nD τ).loc b) := fun c b => W14 m c b
theorem hF6 (c : Dev nD) (w : Fin cfg6.W) : (dat6 (V13 m) c).arrAt w cfg6.N = V14 m c (Pipeline.arrRef spec6 w) :=
  (W14_arr m c w).symm
theorem hrest6 (c : Dev nD) : ∀ b, b ∉ Finset.univ.image (Pipeline.arrRef spec6) → V14 m c b = V13 m c b :=
  fun b => rest_of spec6 c _ _ b
theorem W13_of (c : Dev nD) (r : Ref sig .tc) (h : r ∉ hostOps6_W) : W13 m c (Proc.devRef .tc r) = W12 m c (Proc.devRef .tc r) :=
  StableHlo.after_of_writes_sub hostOps6 _ hostOps6_writes h
theorem W14_of (c : Dev nD) (r : Ref sig .tc) (h : r ∉ ([main_v131] : List (Ref sig .tc))) :
    W14 m c (Proc.devRef .tc r) = W13 m c (Proc.devRef .tc r) :=
  region_of (dat6 (V13 m) c) _ launch6.win.arr_inj (A_eq6 (V13 m) c) _ (by decide) r h

abbrev mainArgs : List (Ref sig .tc) := [main_arg0, main_arg1, main_arg2, main_arg3, main_arg4, main_arg5, main_arg6, main_arg7, main_arg8, main_arg9, main_arg10, main_arg11, main_arg12, main_arg13, main_arg14]

-- No step of the fold writes an argument buffer, so at every boundary it holds what it held at launch.
theorem W2_arg (c : Dev nD) (r : Ref sig .tc) (hr : r ∈ mainArgs) : W2 m c (Proc.devRef .tc r) = W0 m c (Proc.devRef .tc r) :=
  (W2_of m c r ((by decide : ∀ r ∈ mainArgs, r ∉ ([main_v20_0, main_v20_1] : List (Ref sig .tc))) r hr)).trans (W1_of m c r ((by decide : ∀ r ∈ mainArgs, r ∉ hostOps0_W) r hr))
theorem W4_arg (c : Dev nD) (r : Ref sig .tc) (hr : r ∈ mainArgs) : W4 m c (Proc.devRef .tc r) = W0 m c (Proc.devRef .tc r) :=
  (W4_of m c r ((by decide : ∀ r ∈ mainArgs, r ∉ ([main_v43] : List (Ref sig .tc))) r hr)).trans <|
    (W3_of m c r ((by decide : ∀ r ∈ mainArgs, r ∉ hostOps1_W) r hr)).trans (W2_arg m c r hr)
theorem W6_arg (c : Dev nD) (r : Ref sig .tc) (hr : r ∈ mainArgs) : W6 m c (Proc.devRef .tc r) = W0 m c (Proc.devRef .tc r) :=
  (W6_of m c r ((by decide : ∀ r ∈ mainArgs, r ∉ ([main_v60_0, main_v60_1] : List (Ref sig .tc))) r hr)).trans <|
    (W5_of m c r ((by decide : ∀ r ∈ mainArgs, r ∉ hostOps2_W) r hr)).trans (W4_arg m c r hr)
theorem W8_arg (c : Dev nD) (r : Ref sig .tc) (hr : r ∈ mainArgs) : W8 m c (Proc.devRef .tc r) = W0 m c (Proc.devRef .tc r) :=
  (W8_of m c r ((by decide : ∀ r ∈ mainArgs, r ∉ ([main_v83] : List (Ref sig .tc))) r hr)).trans <|
    (W7_of m c r ((by decide : ∀ r ∈ mainArgs, r ∉ hostOps3_W) r hr)).trans (W6_arg m c r hr)
theorem W10_arg (c : Dev nD) (r : Ref sig .tc) (hr : r ∈ mainArgs) : W10 m c (Proc.devRef .tc r) = W0 m c (Proc.devRef .tc r) :=
  (W10_of m c r ((by decide : ∀ r ∈ mainArgs, r ∉ ([main_v100_0, main_v100_1] : List (Ref sig .tc))) r hr)).trans <|
    (W9_of m c r ((by decide : ∀ r ∈ mainArgs, r ∉ hostOps4_W) r hr)).trans (W8_arg m c r hr)
theorem W12_arg (c : Dev nD) (r : Ref sig .tc) (hr : r ∈ mainArgs) : W12 m c (Proc.devRef .tc r) = W0 m c (Proc.devRef .tc r) :=
  (W12_of m c r ((by decide : ∀ r ∈ mainArgs, r ∉ ([main_v123] : List (Ref sig .tc))) r hr)).trans <|
    (W11_of m c r ((by decide : ∀ r ∈ mainArgs, r ∉ hostOps5_W) r hr)).trans (W10_arg m c r hr)
theorem W13_arg (c : Dev nD) (r : Ref sig .tc) (hr : r ∈ mainArgs) : W13 m c (Proc.devRef .tc r) = W0 m c (Proc.devRef .tc r) :=
  (W13_of m c r ((by decide : ∀ r ∈ mainArgs, r ∉ hostOps6_W) r hr)).trans (W12_arg m c r hr)
theorem W14_arg (c : Dev nD) (r : Ref sig .tc) (hr : r ∈ mainArgs) : W14 m c (Proc.devRef .tc r) = m ((c : Thread nD τ).loc r) :=
  (W14_of m c r ((by decide : ∀ r ∈ mainArgs, r ∉ ([main_v131] : List (Ref sig .tc))) r hr)).trans (W13_arg m c r hr)

end Cert.KernelIdeal.Hand

end
-- ==== Proof.KI.Run.lean ====
import proofs.«181289_j42949672960516_1_alg».proof.Proof.KI.RunFold

set_option maxRecDepth 4096

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

def pdats : (p : Fin 7) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
  | ⟨6, _⟩ => fun c => dat6 (V13 m) c
abbrev 𝒱₀ : Variants := Variants.none
abbrev L₀ : GSem nD τ sig → Finset Unit := fun _ => ∅
abbrev lv₀ : GSem nD τ sig → Unit → ℕ := fun _ _ => 0
abbrev R₀ (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R₀ c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R₀
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def mkReg (p : Fin 7) (lf : Pipeline.LaunchFacts (nD := nD) (τ := τ) cfgs p)
    (Wi Wo : Dev nD → Valuation τ sig (Elt F))
    (hq : ∀ c w, (pdats m p c).q w = fullShare)
    (howed : ∀ c t, (pdats m p c).owed t = 0)
    (hrec : ∀ c t, (pdats m p c).recorded t = Set.univ)
    (hA : ∀ c w, (pdats m p c).A w = Wi c (Proc.devRef .tc (Pipeline.arrRef (cfgs p).spec w)))
    (hF : ∀ c w, (pdats m p c).arrAt w (cfgs p).N = Wo c (Proc.devRef .tc (Pipeline.arrRef (cfgs p).spec w)))
    (hrest : ∀ c (b : Ref sig .tc), b ∉ Finset.univ.image (Pipeline.arrRef (cfgs p).spec) → Wo c (Proc.devRef .tc b) = Wi c (Proc.devRef .tc b))
    (hbody : ∀ c, Pipeline.BodyObligationLoose (pdats m p c) (defs₀ (F := F)) 𝒱₀ () Set.univ)
    (hΦi : ∀ c, Pipeline.ΦA (U := UR sig nD τ) (Val := Elt F) (cfgs p).spec c ⊢ (pdats m p c).Φ 0)
    (hΦo : ∀ c, (pdats m p c).Φ (Fin.last (cfgs p).N) ⊢ Pipeline.ΦA (U := UR sig nD τ) (Val := Elt F) (cfgs p).spec c) :
    Pipeline.RegionSeg (pcfgs (F := F)) adm (pdats m) () defs₀ 𝒱₀ L₀ lv₀ p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L₀ lv₀ p howed
  pre := T Wi
  post := T Wo
  X c := iprop(∃ r, prngReg c r)
  Y c := iprop(∃ r, prngReg c r)
  Z c := Pipeline.unscopedRest (Ix := Unit) (Name := ℕ) (U := UR sig nD τ) (Lvl := ℕ) (cfgs p).spec c (fun b => Wi c (Proc.devRef .tc b))
  hentry c := by
    rw [Pipeline.ownSems0_none]
    have hsplit := Pipeline.arrays_of_unscopedBufs (p := p) (pcfgs (F := F)) adm (pdats m) lf.win lf.arr_whole c
      ((pdats m p c).share_full (hq c)) (fun b => Wi c (Proc.devRef .tc b)) (hA c)
    rw [Pipeline.unscopedBufs_held c (Wi c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; exact Set.mem_univ _)
      iexact HO
    isplitl [Hp]; · iexact Hp
    iexact Hrest
  hin c := by
    refine .trans ?_ (hΦi c)
    unfold Pipeline.ΦA
    iintro ⟨Hp, -, Hr⟩
    isplitl [Hr]; · iexact Hr
    iexact Hp
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wi c (Proc.devRef .tc b)) (fun b => Wo c (Proc.devRef .tc b)) ((pdats m p c).arrAt · (cfgs p).N) (hF c) (hrest c)
    rw [Pipeline.unscopedBufs_held c (Wo c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 : Pipeline.RegionSeg (pcfgs (F := F)) adm (pdats m) () defs₀ 𝒱₀ L₀ lv₀ 0 :=
  mkReg m 0 launch0 (W1 m) (W2 m) (fun _ _ => rfl) (fun _ _ => rfl) (fun _ _ => rfl)
    (A_eq0 (V1 m)) (hF0 m) (hrest0 m)
    (fun c => (body_obligation0 (V1 m) c).loose) (hin0 (V1 m)) (hout0 (V1 m))

def reg1 : Pipeline.RegionSeg (pcfgs (F := F)) adm (pdats m) () defs₀ 𝒱₀ L₀ lv₀ 1 :=
  mkReg m 1 launch1 (W3 m) (W4 m) (fun _ _ => rfl) (fun _ _ => rfl) (fun _ _ => rfl)
    (A_eq1 (V3 m)) (hF1 m) (hrest1 m)
    (fun c => (body_obligation1 (V3 m) c).loose) (hin1 (V3 m)) (hout1 (V3 m))

def reg2 : Pipeline.RegionSeg (pcfgs (F := F)) adm (pdats m) () defs₀ 𝒱₀ L₀ lv₀ 2 :=
  mkReg m 2 launch2 (W5 m) (W6 m) (fun _ _ => rfl) (fun _ _ => rfl) (fun _ _ => rfl)
    (A_eq2 (V5 m)) (hF2 m) (hrest2 m)
    (fun c => (body_obligation2 (V5 m) c).loose) (hin2 (V5 m)) (hout2 (V5 m))

def reg3 : Pipeline.RegionSeg (pcfgs (F := F)) adm (pdats m) () defs₀ 𝒱₀ L₀ lv₀ 3 :=
  mkReg m 3 launch3 (W7 m) (W8 m) (fun _ _ => rfl) (fun _ _ => rfl) (fun _ _ => rfl)
    (A_eq3 (V7 m)) (hF3 m) (hrest3 m)
    (fun c => (body_obligation3 (V7 m) c).loose) (hin3 (V7 m)) (hout3 (V7 m))

def reg4 : Pipeline.RegionSeg (pcfgs (F := F)) adm (pdats m) () defs₀ 𝒱₀ L₀ lv₀ 4 :=
  mkReg m 4 launch4 (W9 m) (W10 m) (fun _ _ => rfl) (fun _ _ => rfl) (fun _ _ => rfl)
    (A_eq4 (V9 m)) (hF4 m) (hrest4 m)
    (fun c => (body_obligation4 (V9 m) c).loose) (hin4 (V9 m)) (hout4 (V9 m))

def reg5 : Pipeline.RegionSeg (pcfgs (F := F)) adm (pdats m) () defs₀ 𝒱₀ L₀ lv₀ 5 :=
  mkReg m 5 launch5 (W11 m) (W12 m) (fun _ _ => rfl) (fun _ _ => rfl) (fun _ _ => rfl)
    (A_eq5 (V11 m)) (hF5 m) (hrest5 m)
    (fun c => (body_obligation5 (V11 m) c).loose) (hin5 (V11 m)) (hout5 (V11 m))

def reg6 : Pipeline.RegionSeg (pcfgs (F := F)) adm (pdats m) () defs₀ 𝒱₀ L₀ lv₀ 6 :=
  mkReg m 6 launch6 (W13 m) (W14 m) (fun _ _ => rfl) (fun _ _ => rfl) (fun _ _ => rfl)
    (A_eq6 (V13 m)) (hF6 m) (hrest6 m)
    (fun c => (body_obligation6 (V13 m) c).loose) (hin6 (V13 m)) (hout6 (V13 m))

abbrev segs : List (Pipeline.Seg (pcfgs (F := F)) adm (pdats m) () defs₀ 𝒱₀ L₀ lv₀) :=
  [ .host (hseg hostOps0 hostOps0_sub hostOps0_fresh (W0 m)), .region (reg0 m),
    .host (hseg hostOps1 hostOps1_sub hostOps1_fresh (W2 m)), .region (reg1 m),
    .host (hseg hostOps2 hostOps2_sub hostOps2_fresh (W4 m)), .region (reg2 m),
    .host (hseg hostOps3 hostOps3_sub hostOps3_fresh (W6 m)), .region (reg3 m),
    .host (hseg hostOps4 hostOps4_sub hostOps4_fresh (W8 m)), .region (reg4 m),
    .host (hseg hostOps5 hostOps5_sub hostOps5_fresh (W10 m)), .region (reg5 m),
    .host (hseg hostOps6 hostOps6_sub hostOps6_fresh (W12 m)), .region (reg6 m) ]

theorem main_run (c : Dev nD) : main (F := F) c = Pipeline.Seg.run (segs m) := by
  rw [main_chain c, Pipeline.Seg.run_eq_chain]
  rfl

set_option backward.isDefEq.respectTransparency.types false in
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W14 m c b) :=
  Pipeline.θ_run_regions_kit (pcfgs (F := F)) adm (pdats m) () cellOf_inj emb₁ defs₀ 𝒱₀ L₀ lv₀ m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m))
    (Tₙ := fun c => iprop(StableHlo.held (c : Thread nD τ) (Pipeline.ucRefs τ sig) (W14 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show T (W14 m) c ⊢ _
        iintro ⟨Hh, Hp, HO⟩
        isplitl [Hh Hp]
        · isplitl [Hh] <;> iassumption
        iexact HO⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun _ h => h)

theorem run_refs (ρ : Dev nD → PrngReg) :
    θ_run defs (onTc (τ := τ) (main (F := F))) ⟨m, fun _ => 0, ρ⟩
      (fun r => ∀ (c : Dev nD) (b : Ref sig .tc), ¬ (Proc.devRef .tc b : DevRef τ sig).isScoped →
        r.2.mem ((c.tc : Thread nD τ).loc b) = W14 m c (Proc.devRef .tc b)) :=
  (θ_run defs _ _).mono (fun r h c b hb => h c _ (mem_uc b hb)) (run_all m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    refine ⟨?_, ?_, ?_, ?_, ?_, ?_, ?_, ?_, ?_, ?_, ?_, ?_, ?_, ?_, ?_⟩ <;>
      exact (h c _ (by decide)).trans (W14_arg m c _ (by decide))) (run_refs m ρ)

end Cert.KernelIdeal.Hand

end
-- ==== Proof.Spec.lean ====
import Idealize.ShloMosaic.PureOps.Ideal
import Idealize.ShloMosaic.Lib.ValueIdx

noncomputable section

namespace Cert.Spec

open Idealize.ShloMosaic

abbrev Mat (a b : ℕ) : Type := Fin a → Fin b → EReal
abbrev Row (b : ℕ) : Type := Fin b → EReal

def toMat {a b : ℕ} (v : FVec Ideal ⟨2, ![a, b]⟩ .f32) : Mat a b := fun i j => v (ValueIdx.ix2 i j)
def ofMat {a b : ℕ} (f : Mat a b) : FVec Ideal ⟨2, ![a, b]⟩ .f32 := fun idx => f (idx 0) (idx 1)
def toRow {b : ℕ} (v : FVec Ideal ⟨1, ![b]⟩ .f32) : Row b := fun j => v (ValueIdx.ix1 j)
def toMat3 {s a b : ℕ} (v : FVec Ideal ⟨3, ![s, a, b]⟩ .f32) (l : Fin s) : Mat a b := fun i j => v (ValueIdx.ix3 l i j)
def rowOf {s b : ℕ} (v : FVec Ideal ⟨2, ![s, b]⟩ .f32) (l : Fin s) : Row b := fun j => v (ValueIdx.ix2 l j)

theorem toMat_ofMat {a b : ℕ} (f : Mat a b) : toMat (ofMat f) = f := rfl
theorem ofMat_toMat {a b : ℕ} (v : FVec Ideal ⟨2, ![a, b]⟩ .f32) : ofMat (toMat v) = v := by
  funext idx; exact congrArg v (ValueIdx.eq_ix2 idx).symm
theorem ofMat_apply {a b : ℕ} (f : Mat a b) (i : Fin a) (j : Fin b) : ofMat f (ValueIdx.ix2 i j) = f i j := rfl

abbrev zeroF : EReal := Ideal.ofBits .f32 0x00000000#32
abbrev epsF : EReal := Ideal.ofBits .f32 0x3727C5AC#32
abbrev nNodes : EReal := Ideal.ofBits .f32 0x47C35000#32
abbrev nGraphs : EReal := Ideal.ofBits .f32 0x43800000#32

def IsReal (x : EReal) : Prop := ∃ r : ℝ, x = (r : EReal)

variable {n p q : ℕ}

def lin (h : Mat n p) (W : Mat p q) (b : Row q) : Mat n q := fun i j => (∑ k, h i k * W k j) + b j
def colSum (u : Mat n q) : Row q := fun j => ∑ i, u i j
def meanC (N : EReal) (u : Mat n q) : Row q := fun j => Ideal.div (colSum u j) N
def varDev (N : EReal) (u : Mat n q) : Row q :=
  fun j => Ideal.div (∑ i, (u i j - meanC N u j) * (u i j - meanC N u j)) N
def varMom (N : EReal) (u : Mat n q) : Row q :=
  fun j => Ideal.div (∑ i, u i j * u i j) N - meanC N u j * meanC N u j
def bnRelu (u : Mat n q) (mu var g bt : Row q) : Mat n q :=
  fun i j => max ((u i j - mu j) * Ideal.rsqrt (var j + epsF) * g j + bt j) zeroF
def reluLin (y : Mat n p) (W : Mat p q) (b : Row q) : Mat n q := fun i j => max (lin y W b i j) zeroF

def layerDev (h : Mat n p) (W1 : Mat p q) (b1 g bt : Row q) (W2 : Mat q q) (b2 : Row q) : Mat n q :=
  reluLin (bnRelu (lin h W1 b1) (meanC nNodes (lin h W1 b1)) (varDev nNodes (lin h W1 b1)) g bt) W2 b2
def layerMom (h : Mat n p) (W1 : Mat p q) (b1 g bt : Row q) (W2 : Mat q q) (b2 : Row q) : Mat n q :=
  reluLin (bnRelu (lin h W1 b1) (meanC nNodes (lin h W1 b1)) (varMom nNodes (lin h W1 b1)) g bt) W2 b2

def headOut {r : ℕ} (P : Mat n p) (W1 : Mat p q) (b1 g bt : Row q) (W2 : Mat q r) (b2 : Row r) : Mat n r :=
  lin (bnRelu (lin P W1 b1) (meanC nGraphs (lin P W1 b1)) (varDev nGraphs (lin P W1 b1)) g bt) W2 b2

def blockRow (t : Fin 20) (r : Fin 5000) : Fin 100000 := ⟨5000 * t.val + r.val, by omega⟩

end Cert.Spec

end
-- ==== Proof.Math.lean ====
import proofs.«181289_j42949672960516_1_alg».proof.Proof.Spec
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Fin
import Mathlib.Logic.Equiv.Fin.Basic
import Mathlib.Algebra.BigOperators.Intervals
import Mathlib.Tactic.FieldSimp
import Mathlib.Tactic.Ring
import Mathlib.Tactic.Positivity
import Mathlib.Analysis.SpecialFunctions.Pow.Real

noncomputable section
namespace Cert.Spec
open Idealize.ShloMosaic

theorem nNodes_eq : nNodes = ((100000 : ℝ) : EReal) := by
  simp [nNodes, Ideal.ofBits, Ideal.ieee, -EReal.coe_mul]; norm_num

theorem nGraphs_eq : nGraphs = ((256 : ℝ) : EReal) := by
  simp [nGraphs, Ideal.ofBits, Ideal.ieee, -EReal.coe_mul]; norm_num

theorem zeroF_eq : zeroF = 0 := Ideal.ofBits_zero_f32

theorem epsF_real : ∃ e : ℝ, 0 < e ∧ epsF = (e : EReal) := by
  refine ⟨(10995116 : ℝ) * (2 : ℝ) ^ (-40 : Int), by positivity, ?_⟩
  simp [epsF, Ideal.ofBits, Ideal.ieee, -EReal.coe_mul]

theorem sum_blocks (f : Fin 100000 → EReal) : ∑ t : Fin 20, ∑ r : Fin 5000, f (blockRow t r) = ∑ i, f i := by
  rw [← Fintype.sum_prod_type' (fun t r => f (blockRow t r))]
  refine Fintype.sum_equiv (finProdFinEquiv (m := 20) (n := 5000)) _ f (fun x => ?_)
  refine congrArg f (Fin.ext ?_)
  show 5000 * x.1.val + x.2.val = x.2.val + 5000 * x.1.val
  omega

theorem IsReal.coe (a : ℝ) : IsReal (a : EReal) := ⟨a, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.sum {ι : Type} (s : Finset ι) (f : ι → EReal) (h : ∀ i ∈ s, IsReal (f i)) :
    IsReal (∑ i ∈ s, f i) := by
  classical
  revert h
  refine Finset.induction_on s (fun _ => by rw [Finset.sum_empty]; exact IsReal.zero) ?_
  intro a s ha ih h
  rw [Finset.sum_insert ha]
  exact (h a (Finset.mem_insert_self a s)).add (ih fun i hi => h i (Finset.mem_insert_of_mem hi))
theorem IsReal.div_coe {x : EReal} (hx : IsReal x) {N : ℝ} (hN : N ≠ 0) : IsReal (Ideal.div x (N : EReal)) := by
  rw [Ideal.div_coe hN]; exact hx.mul (IsReal.coe _)

theorem coe_finsum {ι : Type} (s : Finset ι) (f : ι → ℝ) :
    ∑ i ∈ s, (f i : EReal) = ((∑ i ∈ s, f i : ℝ) : EReal) := by
  classical
  refine Finset.induction_on s (by simp) ?_
  intro a s ha ih
  rw [Finset.sum_insert ha, Finset.sum_insert ha, ih, EReal.coe_add]

variable {n p q : ℕ}

theorem lin_real (h : Mat n p) (W : Mat p q) (b : Row q) (hh : ∀ i k, IsReal (h i k))
    (hW : ∀ k j, IsReal (W k j)) (hb : ∀ j, IsReal (b j)) : ∀ i j, IsReal (lin h W b i j) :=
  fun i j => (IsReal.sum _ _ fun k _ => (hh i k).mul (hW k j)).add (hb j)

theorem real_var_identity (N : ℝ) (hn : (n : ℝ) = N) (hN : N ≠ 0) (x : Fin n → ℝ) :
    (∑ i, x i * x i) * (1 / N) - ((∑ i, x i) * (1 / N)) * ((∑ i, x i) * (1 / N))
      = (∑ i, (x i - (∑ i, x i) * (1 / N)) * (x i - (∑ i, x i) * (1 / N))) * (1 / N) := by
  have e : ∀ (m : ℝ) i, (x i - m) * (x i - m) = x i * x i - 2 * m * x i + m * m := fun m i => by ring
  simp only [e, Finset.sum_add_distrib, Finset.sum_sub_distrib, ← Finset.mul_sum, Finset.sum_const,
    Finset.card_univ, Fintype.card_fin, nsmul_eq_mul, hn]
  field_simp
  ring

theorem meanC_coe (N : ℝ) (hN : N ≠ 0) (r : Fin n → Fin q → ℝ) (j : Fin q) :
    meanC (N : EReal) (fun i j => (r i j : EReal)) j = (((∑ i, r i j) * (1 / N) : ℝ) : EReal) := by
  simp only [meanC, colSum]
  rw [coe_finsum, Ideal.div_coe hN, ← EReal.coe_mul]

theorem varDev_coe (N : ℝ) (hN : N ≠ 0) (r : Fin n → Fin q → ℝ) (j : Fin q) :
    varDev (N : EReal) (fun i j => (r i j : EReal)) j
      = (((∑ i, (r i j - (∑ i, r i j) * (1 / N)) * (r i j - (∑ i, r i j) * (1 / N))) * (1 / N) : ℝ) : EReal) := by
  simp only [varDev]
  rw [meanC_coe N hN]
  simp only [← EReal.coe_sub, ← EReal.coe_mul]
  rw [coe_finsum, Ideal.div_coe hN, ← EReal.coe_mul]

theorem varMom_coe (N : ℝ) (hN : N ≠ 0) (r : Fin n → Fin q → ℝ) (j : Fin q) :
    varMom (N : EReal) (fun i j => (r i j : EReal)) j
      = (((∑ i, r i j * r i j) * (1 / N) - ((∑ i, r i j) * (1 / N)) * ((∑ i, r i j) * (1 / N)) : ℝ) : EReal) := by
  simp only [varMom]
  rw [meanC_coe N hN]
  simp only [← EReal.coe_mul]
  rw [coe_finsum, Ideal.div_coe hN, ← EReal.coe_mul, ← EReal.coe_sub]

theorem varMom_eq_varDev_coe (N : ℝ) (hn : (n : ℝ) = N) (hN : N ≠ 0) (u : Mat n q)
    (hu : ∀ i j, IsReal (u i j)) : varMom (N : EReal) u = varDev (N : EReal) u := by
  choose r hr using hu
  obtain rfl : u = fun i j => (r i j : EReal) := funext fun i => funext fun j => hr i j
  funext j
  rw [varMom_coe N hN, varDev_coe N hN, real_var_identity N hn hN]

theorem varMom_eq_varDev (u : Mat 100000 q) (hu : ∀ i j, IsReal (u i j)) :
    varMom nNodes u = varDev nNodes u := by
  rw [nNodes_eq]
  exact varMom_eq_varDev_coe 100000 (by norm_num) (by norm_num) u hu

theorem layerMom_eq_layerDev (h : Mat 100000 p) (W1 : Mat p q) (b1 g bt : Row q) (W2 : Mat q q) (b2 : Row q)
    (hh : ∀ i k, IsReal (h i k)) (hW : ∀ k j, IsReal (W1 k j)) (hb : ∀ j, IsReal (b1 j)) :
    layerMom h W1 b1 g bt W2 b2 = layerDev h W1 b1 g bt W2 b2 := by
  unfold layerMom layerDev
  rw [varMom_eq_varDev _ (lin_real h W1 b1 hh hW hb)]

theorem meanC_real (N : ℝ) (hN : N ≠ 0) (u : Mat n q) (hu : ∀ i j, IsReal (u i j)) (j : Fin q) :
    IsReal (meanC (N : EReal) u j) :=
  (IsReal.sum _ _ fun i _ => hu i j).div_coe hN

theorem varDev_nonneg_real (N : ℝ) (hN : 0 < N) (u : Mat n q) (hu : ∀ i j, IsReal (u i j)) (j : Fin q) :
    ∃ v : ℝ, 0 ≤ v ∧ varDev (N : EReal) u j = (v : EReal) := by
  choose r hr using hu
  obtain rfl : u = fun i j => (r i j : EReal) := funext fun i => funext fun j => hr i j
  refine ⟨_, ?_, varDev_coe N hN.ne' r j⟩
  exact mul_nonneg (Finset.sum_nonneg fun i _ => mul_self_nonneg _) (by positivity)

theorem rsqrt_real {v e : ℝ} (hv : 0 ≤ v) (he : 0 < e) : IsReal (Ideal.rsqrt ((v : EReal) + (e : EReal))) := by
  have hpos : 0 < v + e := add_pos_of_nonneg_of_pos hv he
  rw [← EReal.coe_add, Ideal.rsqrt_coe, if_neg (not_lt.2 hpos.le), if_neg hpos.ne']
  exact IsReal.coe _

theorem bnRelu_real (u : Mat n q) (mu var g bt : Row q) (hu : ∀ i j, IsReal (u i j)) (hmu : ∀ j, IsReal (mu j))
    (hvar : ∀ j, ∃ v : ℝ, 0 ≤ v ∧ var j = (v : EReal)) (hg : ∀ j, IsReal (g j)) (hbt : ∀ j, IsReal (bt j)) :
    ∀ i j, IsReal (bnRelu u mu var g bt i j) := by
  intro i j
  obtain ⟨e, he, hE⟩ := epsF_real
  obtain ⟨v, hv, hV⟩ := hvar j
  unfold bnRelu
  rw [hV, hE, zeroF_eq]
  exact (((((hu i j).sub (hmu j)).mul (rsqrt_real hv he)).mul (hg j)).add (hbt j)).max IsReal.zero

theorem reluLin_real (y : Mat n p) (W : Mat p q) (b : Row q) (hy : ∀ i k, IsReal (y i k))
    (hW : ∀ k j, IsReal (W k j)) (hb : ∀ j, IsReal (b j)) : ∀ i j, IsReal (reluLin y W b i j) := by
  intro i j
  unfold reluLin
  rw [zeroF_eq]
  exact (lin_real y W b hy hW hb i j).max IsReal.zero

theorem layerDev_real (h : Mat n p) (W1 : Mat p q) (b1 g bt : Row q) (W2 : Mat q q) (b2 : Row q)
    (hh : ∀ i k, IsReal (h i k)) (hW1 : ∀ k j, IsReal (W1 k j)) (hb1 : ∀ j, IsReal (b1 j))
    (hg : ∀ j, IsReal (g j)) (hbt : ∀ j, IsReal (bt j)) (hW2 : ∀ k j, IsReal (W2 k j))
    (hb2 : ∀ j, IsReal (b2 j)) : ∀ i j, IsReal (layerDev h W1 b1 g bt W2 b2 i j) := by
  unfold layerDev
  have hu := lin_real h W1 b1 hh hW1 hb1
  refine reluLin_real _ W2 b2 (bnRelu_real _ _ _ g bt hu ?_ ?_ hg hbt) hW2 hb2
  · intro j; rw [nNodes_eq]; exact meanC_real 100000 (by norm_num) _ hu j
  · intro j; rw [nNodes_eq]; exact varDev_nonneg_real 100000 (by norm_num) _ hu j

end Cert.Spec
end
-- ==== Proof.HostFn.lean ====
import proofs.«181289_j42949672960516_1_alg».proof.Defs
import proofs.«181289_j42949672960516_1_alg».proof.Proof.Spec
import proofs.«181289_j42949672960516_1_alg».proof.Proof.Math
import Idealize.ShloMosaic.Lib.ValueIdx
import Idealize.ShloMosaic.Lib.ValueLayout
import Idealize.ShloMosaic.Lib.Pipeline.Value
import Idealize.ShloMosaic.PureOps.Ideal.Laws

noncomputable section

namespace Cert.HostFn

open Idealize.ShloMosaic Idealize.SL.Sem
open Cert.KernelIdeal
open Cert.KernelIdeal.Facts₀ Cert.KernelIdeal.Facts

variable [Cert.KernelIdeal.Facts]

def srcRow (ei : (⟨S2x1000000, .i32⟩ : BufTy).Contents (Elt Ideal)) : (⟨S1000000, .i32⟩ : BufTy).Contents (Elt Ideal) :=
  shapeCast S1000000 (extractStridedSlice S1x1000000 ![0, 0] ei slices_S2x1000000_S1x1000000_0_0) shapeCasts_S1x1000000_S1000000

def srcIdx (ei : (⟨S2x1000000, .i32⟩ : BufTy).Contents (Elt Ideal)) : (⟨S1000000x1, .i32⟩ : BufTy).Contents (Elt Ideal) :=
  broadcastInDim S1000000x1 ![0] bcast_S1000000_S1000000x1_0
    (select (cmpi .slt (srcRow ei) (broadcastInDim S1000000 ![] bcast_S_S1000000 (constantI S_ 32 0#32)))
      (addi (srcRow ei) (broadcastInDim S1000000 ![] bcast_S_S1000000 (constantI S_ 32 100000#32)))
      (srcRow ei))

def dstRow (ei : (⟨S2x1000000, .i32⟩ : BufTy).Contents (Elt Ideal)) : (⟨S1000000, .i32⟩ : BufTy).Contents (Elt Ideal) :=
  shapeCast S1000000 (extractStridedSlice S1x1000000 ![1, 0] ei slices_S2x1000000_S1x1000000_1_0) shapeCasts_S1x1000000_S1000000

def dstIdx (ei : (⟨S2x1000000, .i32⟩ : BufTy).Contents (Elt Ideal)) : (⟨S1000000x1, .i32⟩ : BufTy).Contents (Elt Ideal) :=
  broadcastInDim S1000000x1 ![0] bcast_S1000000_S1000000x1_0 (dstRow ei)

def agg (x : FVec Ideal S100000x64 .f32) (ei : (⟨S2x1000000, .i32⟩ : BufTy).Contents (Elt Ideal)) : FVec Ideal S100000x64 .f32 :=
  addf x (Host.scatterAdd scatter_S100000x64_S1000000x1_S1000000x64_1_0_0_1
    (broadcastInDim S100000x64 ![] bcast_S_S100000x64 (constant (F := Ideal) S_ .f32 0x00000000#32))
    (dstIdx ei)
    (Host.gather gather_S100000x64_S1000000x1_S1000000x64_1_0_n_n_0_1_164 x (srcIdx ei)))

def aggRows (x : FVec Ideal S100000x64 .f32) (s d : (⟨S1000000, .i32⟩ : BufTy).Contents (Elt Ideal)) : FVec Ideal S100000x64 .f32 :=
  addf x (Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 d)
    (Host.gather gather_S100000x64_S1000000x1_S1000000x64_1_0_n_n_0_1_164 x
      (broadcastInDim S1000000x1 ![0] bcast_S1000000_S1000000x1_0
        (select (cmpi .slt s (broadcastInDim S1000000 ![] bcast_S_S1000000 (constantI S_ 32 0#32)))
          (addi s (broadcastInDim S1000000 ![] bcast_S_S1000000 (constantI S_ 32 100000#32)))
          s))))

theorem agg_eq_aggRows (x : FVec Ideal S100000x64 .f32) (ei : (⟨S2x1000000, .i32⟩ : BufTy).Contents (Elt Ideal)) :
    agg x ei = aggRows x (srcRow ei) (dstRow ei) := rfl

def pool (x : FVec Ideal S100000x64 .f32) (batch : (⟨S100000, .i32⟩ : BufTy).Contents (Elt Ideal)) : FVec Ideal S256x64 .f32 :=
  Host.scatterAdd scatter_S256x64_S100000x1_S100000x64_1_0_0_1
    (broadcastInDim S256x64 ![] bcast_S_S256x64 (constant (F := Ideal) S_ .f32 0x00000000#32))
    (broadcastInDim S100000x1 ![0] bcast_S100000_S100000x1_0 batch)
    x

def sliceW0 (W : FVec Ideal S3x64x64 .f32) : FVec Ideal S64x64 .f32 :=
  shapeCast S64x64 (extractStridedSlice S1x64x64 ![0, 0, 0] W slices_S3x64x64_S1x64x64_0_0_0) shapeCasts_S1x64x64_S64x64
def sliceW1 (W : FVec Ideal S3x64x64 .f32) : FVec Ideal S64x64 .f32 :=
  shapeCast S64x64 (extractStridedSlice S1x64x64 ![1, 0, 0] W slices_S3x64x64_S1x64x64_1_0_0) shapeCasts_S1x64x64_S64x64
def sliceW2 (W : FVec Ideal S3x64x64 .f32) : FVec Ideal S64x64 .f32 :=
  shapeCast S64x64 (extractStridedSlice S1x64x64 ![2, 0, 0] W slices_S3x64x64_S1x64x64_2_0_0) shapeCasts_S1x64x64_S64x64

def sliceB0 (b : FVec Ideal S3x64 .f32) : FVec Ideal S64 .f32 :=
  shapeCast S64 (extractStridedSlice S1x64 ![0, 0] b slices_S3x64_S1x64_0_0) shapeCasts_S1x64_S64
def sliceB1 (b : FVec Ideal S3x64 .f32) : FVec Ideal S64 .f32 :=
  shapeCast S64 (extractStridedSlice S1x64 ![1, 0] b slices_S3x64_S1x64_1_0) shapeCasts_S1x64_S64
def sliceB2 (b : FVec Ideal S3x64 .f32) : FVec Ideal S64 .f32 :=
  shapeCast S64 (extractStridedSlice S1x64 ![2, 0] b slices_S3x64_S1x64_2_0) shapeCasts_S1x64_S64

def sliceW (W : FVec Ideal S3x64x64 .f32) (l : Fin 3) : FVec Ideal S64x64 .f32 :=
  match l with
  | ⟨0, _⟩ => sliceW0 W
  | ⟨1, _⟩ => sliceW1 W
  | ⟨2, _⟩ => sliceW2 W
def sliceB (b : FVec Ideal S3x64 .f32) (l : Fin 3) : FVec Ideal S64 .f32 :=
  match l with
  | ⟨0, _⟩ => sliceB0 b
  | ⟨1, _⟩ => sliceB1 b
  | ⟨2, _⟩ => sliceB2 b

section Slices
open Cert.Spec

theorem slice3_toMat (W : FVec Ideal S3x64x64 .f32) (l : Fin 3) (h : S3x64x64.Slices ![l.val, 0, 0] S1x64x64) :
    toMat (shapeCast S64x64 (extractStridedSlice S1x64x64 ![l.val, 0, 0] W h) shapeCasts_S1x64x64_S64x64) = toMat3 W l := by
  funext i j
  refine (shapeCast_apply _ shapeCasts_S1x64x64_S64x64 (ValueIdx.ix2 i j) (ValueIdx.ix3 (0 : Fin 1) i j) ?_).trans ?_
  · rw [Shape.rowMajor_val_three, Shape.rowMajor_val_two]
    show (0 * 64 + i.val) * 64 + j.val = i.val * 64 + j.val
    omega
  · refine extractStridedSlice_apply _ W h _ (ValueIdx.ix3 l i j) fun a => ?_
    match a with
    | ⟨0, _⟩ => show l.val = l.val + 0; omega
    | ⟨1, _⟩ => show i.val = 0 + i.val; omega
    | ⟨2, _⟩ => show j.val = 0 + j.val; omega

theorem sliceW_toMat (W : FVec Ideal S3x64x64 .f32) (l : Fin 3) : toMat (sliceW W l) = toMat3 W l :=
  match l with
  | ⟨0, _⟩ => slice3_toMat W 0 slices_S3x64x64_S1x64x64_0_0_0
  | ⟨1, _⟩ => slice3_toMat W 1 slices_S3x64x64_S1x64x64_1_0_0
  | ⟨2, _⟩ => slice3_toMat W 2 slices_S3x64x64_S1x64x64_2_0_0

theorem slice2_toRow (b : FVec Ideal S3x64 .f32) (l : Fin 3) (h : S3x64.Slices ![l.val, 0] S1x64) :
    toRow (shapeCast S64 (extractStridedSlice S1x64 ![l.val, 0] b h) shapeCasts_S1x64_S64) = rowOf b l := by
  funext j
  refine (shapeCast_apply _ shapeCasts_S1x64_S64 (ValueIdx.ix1 j) (ValueIdx.ix2 (0 : Fin 1) j) ?_).trans ?_
  · rw [Shape.rowMajor_val_two, Shape.rowMajor_val_one]
    show 0 * 64 + j.val = j.val
    omega
  · refine extractStridedSlice_apply _ b h _ (ValueIdx.ix2 l j) fun a => ?_
    match a with
    | ⟨0, _⟩ => show l.val = l.val + 0; omega
    | ⟨1, _⟩ => show j.val = 0 + j.val; omega

theorem sliceB_toRow (b : FVec Ideal S3x64 .f32) (l : Fin 3) : toRow (sliceB b l) = rowOf b l :=
  match l with
  | ⟨0, _⟩ => slice2_toRow b 0 slices_S3x64_S1x64_0_0
  | ⟨1, _⟩ => slice2_toRow b 1 slices_S3x64_S1x64_1_0
  | ⟨2, _⟩ => slice2_toRow b 2 slices_S3x64_S1x64_2_0

theorem reshape_row (b : FVec Ideal S64 .f32) (j : Fin 64) :
    (shapeCast S1x64 b shapeCasts_S64_S1x64) (ValueIdx.ix2 0 j) = b (ValueIdx.ix1 j) := by
  refine shapeCast_apply _ shapeCasts_S64_S1x64 (ValueIdx.ix2 (0 : Fin 1) j) (ValueIdx.ix1 j) ?_
  rw [Shape.rowMajor_val_two, Shape.rowMajor_val_one]
  show j.val = 0 * 64 + j.val
  omega

end Slices

section Real
open Cert.Spec

theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

theorem zeros_real (T : Shape) (h : S_.BroadcastsInDim T ![]) (i : T.Idx) :
    IsReal (broadcastInDim T ![] h (constant (F := Ideal) S_ .f32 0x00000000#32) i) := by
  show IsReal (Ideal.ofBits .f32 0x00000000#32)
  rw [Ideal.ofBits_zero_f32]
  exact IsReal.zero

theorem agg_real (x : FVec Ideal S100000x64 .f32) (ei : (⟨S2x1000000, .i32⟩ : BufTy).Contents (Elt Ideal))
    (hx : ∀ idx, IsReal (x idx)) : ∀ idx, IsReal (agg x ei idx) := by
  intro idx
  show IsReal (x idx + _)
  exact IsReal.add (hx idx) (scatterAdd_real _ _ _ _ (zeros_real _ _) (fun j => hx _) idx)

theorem pool_real (x : FVec Ideal S100000x64 .f32) (batch : (⟨S100000, .i32⟩ : BufTy).Contents (Elt Ideal))
    (hx : ∀ idx, IsReal (x idx)) : ∀ idx, IsReal (pool x batch idx) := by
  intro idx
  exact scatterAdd_real _ _ _ _ (zeros_real _ _) hx idx

end Real

end Cert.HostFn

end
-- ==== Proof.KI.ValHost.lean ====
import proofs.«181289_j42949672960516_1_alg».proof.Proof.Gen.KernelIdeal.Launch
import proofs.«181289_j42949672960516_1_alg».proof.Proof.HostFn
import proofs.«181289_j42949672960516_1_alg».proof.Proof.Spec
import proofs.«181289_j42949672960516_1_alg».proof.Proof.Math
import Idealize.ShloMosaic.Lib.StableHlo.Run

set_option maxRecDepth 1448

noncomputable section

namespace Cert.KernelIdeal.HandVal

open Idealize.ShloMosaic Idealize.ShloMosaic.TcCoe Idealize.SL.Sem
open Cert.KernelIdeal Cert.KernelIdeal.Gen
open Cert.HostFn (agg aggRows pool srcRow dstRow sliceW0 sliceW1 sliceW2 sliceB0 sliceB1 sliceB2)

variable (V : Valuation τ sig (Elt Ideal))

theorem host0_v14 :
    (StableHlo.after (hostOps0 (F := Ideal)) V (Proc.devRef .tc main_v14) : FVec Ideal S100000x64 .f32)
      = agg (V (Proc.devRef .tc main_arg0)) (V (Proc.devRef .tc main_arg1)) := by
  after_results_simp
  rfl
theorem host0_v16 :
    (StableHlo.after (hostOps0 (F := Ideal)) V (Proc.devRef .tc main_v16) : FVec Ideal S64x64 .f32)
      = sliceW0 (V (Proc.devRef .tc main_arg3)) := by
  after_results
  rfl
theorem host0_v19 :
    (StableHlo.after (hostOps0 (F := Ideal)) V (Proc.devRef .tc main_v19) : FVec Ideal S1x64 .f32)
      = shapeCast S1x64 (sliceB0 (V (Proc.devRef .tc main_arg4))) shapeCasts_S64_S1x64 := by
  after_results
  rfl
theorem host0_v1 :
    (StableHlo.after (hostOps0 (F := Ideal)) V (Proc.devRef .tc main_v1) : (⟨S1000000, .i32⟩ : BufTy).Contents (Elt Ideal))
      = srcRow (V (Proc.devRef .tc main_arg1)) := by
  after_results
  rfl
theorem host0_v3 :
    (StableHlo.after (hostOps0 (F := Ideal)) V (Proc.devRef .tc main_v3) : (⟨S1000000, .i32⟩ : BufTy).Contents (Elt Ideal))
      = dstRow (V (Proc.devRef .tc main_arg1)) := by
  after_results
  rfl

theorem host1_v22_apply (j : Fin 64) :
    (StableHlo.after (hostOps1 (F := Ideal)) V (Proc.devRef .tc main_v22) : FVec Ideal S1x64 .f32) (ValueIdx.ix2 0 j)
      = Ideal.div (((V (Proc.devRef .tc main_v20_0)) : FVec Ideal S1x64 .f32) (ValueIdx.ix2 0 j)) Cert.Spec.nNodes := by
  after_results
  rfl
theorem host1_v26_apply (j : Fin 64) :
    (StableHlo.after (hostOps1 (F := Ideal)) V (Proc.devRef .tc main_v26) : FVec Ideal S1x64 .f32) (ValueIdx.ix2 0 j)
      = Ideal.div (((V (Proc.devRef .tc main_v20_1)) : FVec Ideal S1x64 .f32) (ValueIdx.ix2 0 j)) Cert.Spec.nNodes
        - Ideal.div (((V (Proc.devRef .tc main_v20_0)) : FVec Ideal S1x64 .f32) (ValueIdx.ix2 0 j)) Cert.Spec.nNodes
          * Ideal.div (((V (Proc.devRef .tc main_v20_0)) : FVec Ideal S1x64 .f32) (ValueIdx.ix2 0 j)) Cert.Spec.nNodes := by
  after_results
  rfl
theorem host1_v28 :
    (StableHlo.after (hostOps1 (F := Ideal)) V (Proc.devRef .tc main_v28) : FVec Ideal S64x64 .f32)
      = sliceW0 (V (Proc.devRef .tc main_arg3)) := by
  after_results
  rfl
theorem host1_v39 :
    (StableHlo.after (hostOps1 (F := Ideal)) V (Proc.devRef .tc main_v39) : FVec Ideal S1x64 .f32)
      = shapeCast S1x64 (sliceB0 (V (Proc.devRef .tc main_arg4))) shapeCasts_S64_S1x64 := by
  after_results
  rfl
theorem host1_v40 :
    (StableHlo.after (hostOps1 (F := Ideal)) V (Proc.devRef .tc main_v40) : FVec Ideal S1x64 .f32)
      = shapeCast S1x64 (sliceB0 (V (Proc.devRef .tc main_arg5))) shapeCasts_S64_S1x64 := by
  after_results
  rfl
theorem host1_v41 :
    (StableHlo.after (hostOps1 (F := Ideal)) V (Proc.devRef .tc main_v41) : FVec Ideal S1x64 .f32)
      = shapeCast S1x64 (sliceB0 (V (Proc.devRef .tc main_arg6))) shapeCasts_S64_S1x64 := by
  after_results
  rfl
theorem host1_v36 :
    (StableHlo.after (hostOps1 (F := Ideal)) V (Proc.devRef .tc main_v36) : FVec Ideal S64x64 .f32)
      = sliceW0 (V (Proc.devRef .tc main_arg7)) := by
  after_results
  rfl
theorem host1_v42 :
    (StableHlo.after (hostOps1 (F := Ideal)) V (Proc.devRef .tc main_v42) : FVec Ideal S1x64 .f32)
      = shapeCast S1x64 (sliceB0 (V (Proc.devRef .tc main_arg8))) shapeCasts_S64_S1x64 := by
  after_results
  rfl

theorem host2_v54 :
    (StableHlo.after (hostOps2 (F := Ideal)) V (Proc.devRef .tc main_v54) : FVec Ideal S100000x64 .f32)
      = aggRows (V (Proc.devRef .tc main_v43)) (V (Proc.devRef .tc main_v1)) (V (Proc.devRef .tc main_v3)) := by
  after_results_simp
  rfl
theorem host2_v56 :
    (StableHlo.after (hostOps2 (F := Ideal)) V (Proc.devRef .tc main_v56) : FVec Ideal S64x64 .f32)
      = sliceW1 (V (Proc.devRef .tc main_arg3)) := by
  after_results
  rfl
theorem host2_v59 :
    (StableHlo.after (hostOps2 (F := Ideal)) V (Proc.devRef .tc main_v59) : FVec Ideal S1x64 .f32)
      = shapeCast S1x64 (sliceB1 (V (Proc.devRef .tc main_arg4))) shapeCasts_S64_S1x64 := by
  after_results
  rfl

theorem host3_v62_apply (j : Fin 64) :
    (StableHlo.after (hostOps3 (F := Ideal)) V (Proc.devRef .tc main_v62) : FVec Ideal S1x64 .f32) (ValueIdx.ix2 0 j)
      = Ideal.div (((V (Proc.devRef .tc main_v60_0)) : FVec Ideal S1x64 .f32) (ValueIdx.ix2 0 j)) Cert.Spec.nNodes := by
  after_results
  rfl
theorem host3_v66_apply (j : Fin 64) :
    (StableHlo.after (hostOps3 (F := Ideal)) V (Proc.devRef .tc main_v66) : FVec Ideal S1x64 .f32) (ValueIdx.ix2 0 j)
      = Ideal.div (((V (Proc.devRef .tc main_v60_1)) : FVec Ideal S1x64 .f32) (ValueIdx.ix2 0 j)) Cert.Spec.nNodes
        - Ideal.div (((V (Proc.devRef .tc main_v60_0)) : FVec Ideal S1x64 .f32) (ValueIdx.ix2 0 j)) Cert.Spec.nNodes
          * Ideal.div (((V (Proc.devRef .tc main_v60_0)) : FVec Ideal S1x64 .f32) (ValueIdx.ix2 0 j)) Cert.Spec.nNodes := by
  after_results
  rfl
theorem host3_v68 :
    (StableHlo.after (hostOps3 (F := Ideal)) V (Proc.devRef .tc main_v68) : FVec Ideal S64x64 .f32)
      = sliceW1 (V (Proc.devRef .tc main_arg3)) := by
  after_results
  rfl
theorem host3_v79 :
    (StableHlo.after (hostOps3 (F := Ideal)) V (Proc.devRef .tc main_v79) : FVec Ideal S1x64 .f32)
      = shapeCast S1x64 (sliceB1 (V (Proc.devRef .tc main_arg4))) shapeCasts_S64_S1x64 := by
  after_results
  rfl
theorem host3_v80 :
    (StableHlo.after (hostOps3 (F := Ideal)) V (Proc.devRef .tc main_v80) : FVec Ideal S1x64 .f32)
      = shapeCast S1x64 (sliceB1 (V (Proc.devRef .tc main_arg5))) shapeCasts_S64_S1x64 := by
  after_results
  rfl
theorem host3_v81 :
    (StableHlo.after (hostOps3 (F := Ideal)) V (Proc.devRef .tc main_v81) : FVec Ideal S1x64 .f32)
      = shapeCast S1x64 (sliceB1 (V (Proc.devRef .tc main_arg6))) shapeCasts_S64_S1x64 := by
  after_results
  rfl
theorem host3_v76 :
    (StableHlo.after (hostOps3 (F := Ideal)) V (Proc.devRef .tc main_v76) : FVec Ideal S64x64 .f32)
      = sliceW1 (V (Proc.devRef .tc main_arg7)) := by
  after_results
  rfl
theorem host3_v82 :
    (StableHlo.after (hostOps3 (F := Ideal)) V (Proc.devRef .tc main_v82) : FVec Ideal S1x64 .f32)
      = shapeCast S1x64 (sliceB1 (V (Proc.devRef .tc main_arg8))) shapeCasts_S64_S1x64 := by
  after_results
  rfl

theorem host4_v94 :
    (StableHlo.after (hostOps4 (F := Ideal)) V (Proc.devRef .tc main_v94) : FVec Ideal S100000x64 .f32)
      = aggRows (V (Proc.devRef .tc main_v83)) (V (Proc.devRef .tc main_v1)) (V (Proc.devRef .tc main_v3)) := by
  after_results_simp
  rfl
theorem host4_v96 :
    (StableHlo.after (hostOps4 (F := Ideal)) V (Proc.devRef .tc main_v96) : FVec Ideal S64x64 .f32)
      = sliceW2 (V (Proc.devRef .tc main_arg3)) := by
  after_results
  rfl
theorem host4_v99 :
    (StableHlo.after (hostOps4 (F := Ideal)) V (Proc.devRef .tc main_v99) : FVec Ideal S1x64 .f32)
      = shapeCast S1x64 (sliceB2 (V (Proc.devRef .tc main_arg4))) shapeCasts_S64_S1x64 := by
  after_results
  rfl

theorem host5_v102_apply (j : Fin 64) :
    (StableHlo.after (hostOps5 (F := Ideal)) V (Proc.devRef .tc main_v102) : FVec Ideal S1x64 .f32) (ValueIdx.ix2 0 j)
      = Ideal.div (((V (Proc.devRef .tc main_v100_0)) : FVec Ideal S1x64 .f32) (ValueIdx.ix2 0 j)) Cert.Spec.nNodes := by
  after_results
  rfl
theorem host5_v106_apply (j : Fin 64) :
    (StableHlo.after (hostOps5 (F := Ideal)) V (Proc.devRef .tc main_v106) : FVec Ideal S1x64 .f32) (ValueIdx.ix2 0 j)
      = Ideal.div (((V (Proc.devRef .tc main_v100_1)) : FVec Ideal S1x64 .f32) (ValueIdx.ix2 0 j)) Cert.Spec.nNodes
        - Ideal.div (((V (Proc.devRef .tc main_v100_0)) : FVec Ideal S1x64 .f32) (ValueIdx.ix2 0 j)) Cert.Spec.nNodes
          * Ideal.div (((V (Proc.devRef .tc main_v100_0)) : FVec Ideal S1x64 .f32) (ValueIdx.ix2 0 j)) Cert.Spec.nNodes := by
  after_results
  rfl
theorem host5_v108 :
    (StableHlo.after (hostOps5 (F := Ideal)) V (Proc.devRef .tc main_v108) : FVec Ideal S64x64 .f32)
      = sliceW2 (V (Proc.devRef .tc main_arg3)) := by
  after_results
  rfl
theorem host5_v119 :
    (StableHlo.after (hostOps5 (F := Ideal)) V (Proc.devRef .tc main_v119) : FVec Ideal S1x64 .f32)
      = shapeCast S1x64 (sliceB2 (V (Proc.devRef .tc main_arg4))) shapeCasts_S64_S1x64 := by
  after_results
  rfl
theorem host5_v120 :
    (StableHlo.after (hostOps5 (F := Ideal)) V (Proc.devRef .tc main_v120) : FVec Ideal S1x64 .f32)
      = shapeCast S1x64 (sliceB2 (V (Proc.devRef .tc main_arg5))) shapeCasts_S64_S1x64 := by
  after_results
  rfl
theorem host5_v121 :
    (StableHlo.after (hostOps5 (F := Ideal)) V (Proc.devRef .tc main_v121) : FVec Ideal S1x64 .f32)
      = shapeCast S1x64 (sliceB2 (V (Proc.devRef .tc main_arg6))) shapeCasts_S64_S1x64 := by
  after_results
  rfl
theorem host5_v116 :
    (StableHlo.after (hostOps5 (F := Ideal)) V (Proc.devRef .tc main_v116) : FVec Ideal S64x64 .f32)
      = sliceW2 (V (Proc.devRef .tc main_arg7)) := by
  after_results
  rfl
theorem host5_v122 :
    (StableHlo.after (hostOps5 (F := Ideal)) V (Proc.devRef .tc main_v122) : FVec Ideal S1x64 .f32)
      = shapeCast S1x64 (sliceB2 (V (Proc.devRef .tc main_arg8))) shapeCasts_S64_S1x64 := by
  after_results
  rfl

theorem host6_v126 :
    (StableHlo.after (hostOps6 (F := Ideal)) V (Proc.devRef .tc main_v126) : FVec Ideal S256x64 .f32)
      = pool (V (Proc.devRef .tc main_v123)) (V (Proc.devRef .tc main_arg2)) := by
  after_results
  rfl
theorem host6_v127 :
    (StableHlo.after (hostOps6 (F := Ideal)) V (Proc.devRef .tc main_v127) : FVec Ideal S1x64 .f32)
      = shapeCast S1x64 (V (Proc.devRef .tc main_arg10)) shapeCasts_S64_S1x64 := by
  after_results
  rfl
theorem host6_v128 :
    (StableHlo.after (hostOps6 (F := Ideal)) V (Proc.devRef .tc main_v128) : FVec Ideal S1x64 .f32)
      = shapeCast S1x64 (V (Proc.devRef .tc main_arg11)) shapeCasts_S64_S1x64 := by
  after_results
  rfl
theorem host6_v129 :
    (StableHlo.after (hostOps6 (F := Ideal)) V (Proc.devRef .tc main_v129) : FVec Ideal S1x64 .f32)
      = shapeCast S1x64 (V (Proc.devRef .tc main_arg12)) shapeCasts_S64_S1x64 := by
  after_results
  rfl
theorem host6_v130 :
    (StableHlo.after (hostOps6 (F := Ideal)) V (Proc.devRef .tc main_v130) : FVec Ideal S1x2 .f32)
      = shapeCast S1x2 (V (Proc.devRef .tc main_arg14)) shapeCasts_S2_S1x2 := by
  after_results
  rfl

end Cert.KernelIdeal.HandVal

end
-- ==== Proof.KI.ValPay.lean ====
import proofs.«181289_j42949672960516_1_alg».proof.Proof.Gen.KernelIdeal.Skeleton
import proofs.«181289_j42949672960516_1_alg».proof.Proof.Spec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.KernelIdeal.HandVal

open Idealize.ShloMosaic Idealize.ShloMosaic.ValueIdx Cert.KernelIdeal Cert.KernelIdeal.Gen
open scoped BigOperators

-- a block at index 0 on every axis, of the array's shape, reads the whole array
theorem blk_whole {s : Shape} {α : Type} (X : s.Idx → α) {f : s.Idx → s.Idx} {k z : Fin s.rank → Nat}
    (hf : ∀ y a, (f y a : Nat) = k a * z a + y a) (hk : ∀ a, k a = 0) : (fun j => X (f j)) = X :=
  funext fun j => congrArg X (funext fun a => Fin.ext (by rw [hf, hk]; omega))

theorem matmul_plain_apply {m k n : ℕ} {φ₁ φ₂ : FTy} (A : FVec Ideal ⟨2, ![m, k]⟩ φ₁) (B : FVec Ideal ⟨2, ![k, n]⟩ φ₂)
    (p : Fin m) (q : Fin n) :
    matmul (DotDims.plain m k n) none A B (constant (F := Ideal) ⟨2, ![m, n]⟩ .f32 0x00000000#32) (ix2 p q)
      = ∑ c : Fin k, A (ix2 p c) * B (ix2 c q) := by
  simp only [matmul]
  rw [Ideal.matmul_constant_zero_apply]
  exact (Ideal.dotGeneral_apply _ none _ A B _).symm.trans (StackMember.dotGeneral_plain_apply none A B p q)

theorem matmul_D5_apply {φ₁ φ₂ : FTy} (A : FVec Ideal S5000x64 φ₁) (B : FVec Ideal S64x64 φ₂) (p : Fin 5000) (q : Fin 64) :
    matmul dot_S5000x64_S64x64_S5000x64_1_0_0_1_n_n none A B (constant (F := Ideal) S5000x64 .f32 0x00000000#32) (ix2 p q)
      = ∑ k : Fin 64, A (ix2 p k) * B (ix2 k q) :=
  matmul_plain_apply A B p q

theorem matmul_D256_apply {φ₁ φ₂ : FTy} (A : FVec Ideal S256x64 φ₁) (B : FVec Ideal S64x64 φ₂) (p : Fin 256) (q : Fin 64) :
    matmul dot_S256x64_S64x64_S256x64_1_0_0_1_n_n none A B (constant (F := Ideal) S256x64 .f32 0x00000000#32) (ix2 p q)
      = ∑ k : Fin 64, A (ix2 p k) * B (ix2 k q) :=
  matmul_plain_apply A B p q

theorem matmul_D2_apply {φ₁ φ₂ : FTy} (A : FVec Ideal S256x64 φ₁) (B : FVec Ideal S64x2 φ₂) (p : Fin 256) (q : Fin 2) :
    matmul dot_S256x64_S64x2_S256x2_1_0_0_1_n_n none A B (constant (F := Ideal) S256x2 .f32 0x00000000#32) (ix2 p q)
      = ∑ k : Fin 64, A (ix2 p k) * B (ix2 k q) :=
  matmul_plain_apply A B p q

theorem rsqrt_apply {s : Shape} {φ : FTy} (a : FVec Ideal s φ) (i : s.Idx) : rsqrt a i = Ideal.rsqrt (a i) := rfl

theorem colsum_apply {n m : ℕ} (src : FVec Ideal ⟨2, ![n, m]⟩ .f32) (h : Shape.Reduces ⟨2, ![n, m]⟩ [0] ⟨1, ![m]⟩)
    (hφ : FKind.Formats .f32) (hacc : (0x00000000#32 : BitVec 32) = 0x00000000#32) (j : Fin m) :
    multiReduction .add [0] ⟨1, ![m]⟩ src 0x00000000#32 h hφ hacc (ix1 j) = ∑ r : Fin n, src (ix2 r j) := by
  refine (Ideal.multiReduction_add_single src 0x00000000#32 h hφ hacc (ix1 j)).trans ?_
  refine Finset.sum_congr rfl fun r _ => congrArg src ?_
  funext a
  refine Fin.ext ?_
  match a with
  | ⟨0, _⟩ => rfl
  | ⟨1, _⟩ => rfl

theorem stats_u_apply (x0 : Vec Ideal S5000x64 .f32) (x1 : Vec Ideal S64x64 .f32) (x2 : Vec Ideal S1x64 .f32)
    (p : Fin 5000) (q : Fin 64) :
    k0_pay3 (F := Ideal) x0 x1 x2 (ix2 p q)
      = Cert.Spec.lin (Cert.Spec.toMat x0) (Cert.Spec.toMat x1) (Cert.Spec.rowOf x2 0) p q := by
  unfold k0_pay3
  simp only [shapeCast_self]
  rw [addf_apply, matmul_D5_apply, broadcastTo_1b_ab_apply]
  rfl

theorem stats_sum_apply (x0 : Vec Ideal S5000x64 .f32) (x1 : Vec Ideal S64x64 .f32) (x2 : Vec Ideal S1x64 .f32)
    (old : Vec Ideal S1x64 .f32) (u : Fin 1) (j : Fin 64) :
    k0_pay4 (F := Ideal) x0 x1 x2 old (ix2 u j)
      = old (ix2 u j) + ∑ r : Fin 5000, Cert.Spec.lin (Cert.Spec.toMat x0) (Cert.Spec.toMat x1) (Cert.Spec.rowOf x2 0) r j := by
  unfold k0_pay4
  simp only [shapeCast_self]
  rw [addf_apply, shapeCast_a_1a_apply]
  refine congrArg (old (ix2 u j) + ·) ?_
  refine (colsum_apply _ _ _ _ j).trans ?_
  exact Finset.sum_congr rfl fun r _ => stats_u_apply x0 x1 x2 r j

theorem stats_sq_apply (x0 : Vec Ideal S5000x64 .f32) (x1 : Vec Ideal S64x64 .f32) (x2 : Vec Ideal S1x64 .f32)
    (old : Vec Ideal S1x64 .f32) (u : Fin 1) (j : Fin 64) :
    k0_pay5 (F := Ideal) x0 x1 x2 old (ix2 u j)
      = old (ix2 u j) + ∑ r : Fin 5000, Cert.Spec.lin (Cert.Spec.toMat x0) (Cert.Spec.toMat x1) (Cert.Spec.rowOf x2 0) r j
          * Cert.Spec.lin (Cert.Spec.toMat x0) (Cert.Spec.toMat x1) (Cert.Spec.rowOf x2 0) r j := by
  unfold k0_pay5
  simp only [shapeCast_self]
  rw [addf_apply, shapeCast_a_1a_apply]
  refine congrArg (old (ix2 u j) + ·) ?_
  refine (colsum_apply _ _ _ _ j).trans ?_
  refine Finset.sum_congr rfl fun r _ => ?_
  rw [mulf_apply, stats_u_apply]

theorem stats_reset1_apply (i : S1x64.Idx) : k0_pay1 (F := Ideal) i = 0 := by
  unfold k0_pay1
  simp only [shapeCast_self]
  exact Ideal.ofBits_zero_f32
theorem stats_reset2_apply (i : S1x64.Idx) : k0_pay2 (F := Ideal) i = 0 := by
  unfold k0_pay2
  simp only [shapeCast_self]
  exact Ideal.ofBits_zero_f32

theorem apply_mm_apply (x0 : Vec Ideal S5000x64 .f32) (x1 : Vec Ideal S64x64 .f32) (x2 x3 x4 x5 x6 : Vec Ideal S1x64 .f32)
    (x7 : Vec Ideal S64x64 .f32) (p : Fin 5000) (q : Fin 64) :
    k1_pay2 (F := Ideal) x0 x1 x2 x4 x3 x5 x6 x7 (ix2 p q)
      = ∑ k : Fin 64, Cert.Spec.bnRelu (Cert.Spec.lin (Cert.Spec.toMat x0) (Cert.Spec.toMat x1) (Cert.Spec.rowOf x2 0))
          (Cert.Spec.rowOf x3 0) (Cert.Spec.rowOf x4 0) (Cert.Spec.rowOf x5 0) (Cert.Spec.rowOf x6 0) p k
          * Cert.Spec.toMat x7 k q := by
  unfold k1_pay2
  simp only [shapeCast_self]
  rw [matmul_D5_apply]
  refine Finset.sum_congr rfl fun k _ => ?_
  simp only [truncf_apply, maximumf_apply, addf_apply, mulf_apply, subf_apply, rsqrt_apply,
    broadcastTo_1b_ab_apply, broadcast_apply, matmul_D5_apply]
  rfl

theorem apply_pay_apply (x0 : Vec Ideal S5000x64 .f32) (x1 : Vec Ideal S64x64 .f32) (x2 x3 x4 x5 x6 : Vec Ideal S1x64 .f32)
    (x7 : Vec Ideal S64x64 .f32) (x8 : Vec Ideal S1x64 .f32) (p : Fin 5000) (q : Fin 64) :
    k1_pay1 (F := Ideal) (k1_pay2 x0 x1 x2 x4 x3 x5 x6 x7) x8 (ix2 p q)
      = Cert.Spec.reluLin
          (Cert.Spec.bnRelu (Cert.Spec.lin (Cert.Spec.toMat x0) (Cert.Spec.toMat x1) (Cert.Spec.rowOf x2 0))
            (Cert.Spec.rowOf x3 0) (Cert.Spec.rowOf x4 0) (Cert.Spec.rowOf x5 0) (Cert.Spec.rowOf x6 0))
          (Cert.Spec.toMat x7) (Cert.Spec.rowOf x8 0) p q := by
  unfold k1_pay1
  simp only [shapeCast_self]
  rw [maximumf_apply, addf_apply, broadcastTo_1b_ab_apply, broadcast_apply, apply_mm_apply]
  rfl

theorem final_bn_apply (x0 : Vec Ideal S256x64 .f32) (x1 : Vec Ideal S64x64 .f32) (x2 x3 x4 : Vec Ideal S1x64 .f32)
    (p : Fin 256) (k : Fin 64) :
    k6_pay2 (F := Ideal) x0 x1 x2 x3 x4 (ix2 p k)
      = Cert.Spec.bnRelu (Cert.Spec.lin (Cert.Spec.toMat x0) (Cert.Spec.toMat x1) (Cert.Spec.rowOf x2 0))
          (Cert.Spec.meanC Cert.Spec.nGraphs (Cert.Spec.lin (Cert.Spec.toMat x0) (Cert.Spec.toMat x1) (Cert.Spec.rowOf x2 0)))
          (Cert.Spec.varDev Cert.Spec.nGraphs (Cert.Spec.lin (Cert.Spec.toMat x0) (Cert.Spec.toMat x1) (Cert.Spec.rowOf x2 0)))
          (Cert.Spec.rowOf x3 0) (Cert.Spec.rowOf x4 0) p k := by
  unfold k6_pay2
  simp only [shapeCast_self]
  simp only [truncf_apply, maximumf_apply, addf_apply, mulf_apply, subf_apply, divf_apply, rsqrt_apply,
    broadcastTo_1b_ab_apply, broadcast_apply, shapeCast_a_1a_apply, matmul_D256_apply]
  rw [colsum_apply, colsum_apply]
  simp only [addf_apply, mulf_apply, subf_apply, divf_apply,
    broadcastTo_1b_ab_apply, broadcast_apply, shapeCast_a_1a_apply, matmul_D256_apply, truncf_apply]
  rw [colsum_apply]
  simp only [addf_apply, broadcastTo_1b_ab_apply, matmul_D256_apply, truncf_apply]
  rfl

theorem final_pay_apply (x0 : Vec Ideal S256x64 .f32) (x1 : Vec Ideal S64x64 .f32) (x2 x3 x4 : Vec Ideal S1x64 .f32)
    (x5 : Vec Ideal S64x2 .f32) (x6 : Vec Ideal S1x2 .f32) (p : Fin 256) (q : Fin 2) :
    k6_pay1 (F := Ideal) (k6_pay2 x0 x1 x2 x3 x4) (k6_pay3 x5) (constant (F := Ideal) S256x2 .f32 0x00000000#32) x6 (ix2 p q)
      = Cert.Spec.headOut (Cert.Spec.toMat x0) (Cert.Spec.toMat x1) (Cert.Spec.rowOf x2 0) (Cert.Spec.rowOf x3 0)
          (Cert.Spec.rowOf x4 0) (Cert.Spec.toMat x5) (Cert.Spec.rowOf x6 0) p q := by
  unfold k6_pay1 k6_pay3
  simp only [shapeCast_self]
  rw [addf_apply, matmul_D2_apply, broadcastTo_1b_ab_apply]
  simp only [truncf_apply, final_bn_apply]
  rfl

theorem k2_pay1_eq : @k2_pay1 = @k0_pay1 := rfl
theorem k2_pay2_eq : @k2_pay2 = @k0_pay2 := rfl
theorem k2_pay4_eq : @k2_pay4 = @k0_pay4 := rfl
theorem k2_pay5_eq : @k2_pay5 = @k0_pay5 := rfl
theorem k4_pay1_eq : @k4_pay1 = @k0_pay1 := rfl
theorem k4_pay2_eq : @k4_pay2 = @k0_pay2 := rfl
theorem k4_pay4_eq : @k4_pay4 = @k0_pay4 := rfl
theorem k4_pay5_eq : @k4_pay5 = @k0_pay5 := rfl

end Cert.KernelIdeal.HandVal

end
-- ==== Proof.KI.ValStats0.lean ====
import proofs.«181289_j42949672960516_1_alg».proof.Proof.KI.Stats0
import proofs.«181289_j42949672960516_1_alg».proof.Proof.KI.ValPay
import proofs.«181289_j42949672960516_1_alg».proof.Proof.Spec
import proofs.«181289_j42949672960516_1_alg».proof.Proof.Math
import Idealize.ShloMosaic.Lib.Pipeline.Value
import Idealize.ShloMosaic.Lib.ValueIdx

set_option maxRecDepth 16384

noncomputable section

namespace Cert.KernelIdeal.HandVal

open Idealize.ShloMosaic Idealize.ShloMosaic.TcCoe Idealize.ShloMosaic.ValueIdx
open Idealize.ShloMosaic.Pipeline (Dat)
open Cert.KernelIdeal Cert.KernelIdeal.Gen Cert.KernelIdeal.Hand
open Cert.Spec (Mat Row toMat rowOf lin colSum blockRow)
open scoped BigOperators

variable (V : (c : Dev nD) → (b : Ref sig .tc) → Buf (Elt Ideal) ((c : Thread nD τ).loc b))

theorem hN0 : cfg0.N = 20 := by decide
theorem hlast0 : 19 < cfg0.N := by decide
abbrev last0 : Fin cfg0.N := ⟨19, hlast0⟩

abbrev hArr0 (c : Dev nD) : Vec Ideal S100000x64 .f32 := V c main_v14
abbrev wArr0 (c : Dev nD) : Vec Ideal S64x64 .f32 := V c main_v16
abbrev bArr0 (c : Dev nD) : Vec Ideal S1x64 .f32 := V c main_v19
abbrev hBlk0 (c : Dev nD) (t : Fin cfg0.N) : Vec Ideal S5000x64 .f32 := iblk0 V c 0 t
abbrev wBlk0 (c : Dev nD) (t : Fin cfg0.N) : Vec Ideal S64x64 .f32 := iblk0 V c 1 t
abbrev bBlk0 (c : Dev nD) (t : Fin cfg0.N) : Vec Ideal S1x64 .f32 := iblk0 V c 2 t
abbrev u0 (c : Dev nD) : Mat 100000 64 := lin (toMat (hArr0 V c)) (toMat (wArr0 V c)) (rowOf (bArr0 V c) 0)

theorem sum_step0 (x0 : Vec Ideal S5000x64 .f32) (x1 : Vec Ideal S64x64 .f32) (x2 old : Vec Ideal S1x64 .f32) (j : Fin 64) :
    k0_pay4 (F := Ideal) x0 x1 x2 old (ix2 0 j) = old (ix2 0 j) + ∑ r : Fin 5000, lin (toMat x0) (toMat x1) (rowOf x2 0) r j :=
  stats_sum_apply x0 x1 x2 old 0 j
theorem sq_step0 (x0 : Vec Ideal S5000x64 .f32) (x1 : Vec Ideal S64x64 .f32) (x2 old : Vec Ideal S1x64 .f32) (j : Fin 64) :
    k0_pay5 (F := Ideal) x0 x1 x2 old (ix2 0 j)
      = old (ix2 0 j) + ∑ r : Fin 5000, lin (toMat x0) (toMat x1) (rowOf x2 0) r j * lin (toMat x0) (toMat x1) (rowOf x2 0) r j :=
  stats_sq_apply x0 x1 x2 old 0 j
theorem reset_sum0 (j : Fin 64) : k0_pay1 (F := Ideal) (ix2 0 j) = 0 := stats_reset1_apply _
theorem reset_sq0 (j : Fin 64) : k0_pay2 (F := Ideal) (ix2 0 j) = 0 := stats_reset2_apply _

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ (t : Fin cfg0.N) (a : Fin 2), win0_1.index t a = 0 := by decide +kernel
theorem idx0_2 : ∀ (t : Fin cfg0.N) (a : Fin 2), win0_2.index t a = 0 := by decide +kernel

theorem hBlk0_apply (c : Dev nD) (t : Fin cfg0.N) (p : Fin 5000) (q : Fin 64) :
    hBlk0 V c t (ix2 p q) = hArr0 V c (ix2 (blockRow (Fin.cast hN0 t) p) q) := by
  show ((cfg0.win 0).blk t).view.read (Elt Ideal) (V c (Pipeline.arrRef spec0 0)) (ix2 p q) = _
  rw [View.read_apply]
  show V c main_v14 (((cfg0.win 0).blk t).view.emb (ix2 p q)) = V c main_v14 (ix2 (blockRow (Fin.cast hN0 t) p) q)
  refine congrArg (V c main_v14) (funext fun a => Fin.ext ?_)
  match a with
  | ⟨0, _⟩ => show win0_0.index t 0 * 5000 + 1 * p.val = 5000 * t.val + p.val; rw [(idx0_0 t).1]; omega
  | ⟨1, _⟩ => show win0_0.index t 1 * 64 + 1 * q.val = q.val; rw [(idx0_0 t).2]; omega

theorem wBlk0_eq (c : Dev nD) (t : Fin cfg0.N) : wBlk0 V c t = wArr0 V c :=
  blk_whole _ ((cfg0.win 1).rect_emb_val t) (idx0_1 t)

theorem bBlk0_eq (c : Dev nD) (t : Fin cfg0.N) : bBlk0 V c t = bArr0 V c :=
  blk_whole _ ((cfg0.win 2).rect_emb_val t) (idx0_2 t)

theorem lin_blk0 (c : Dev nD) (t : Fin cfg0.N) (r : Fin 5000) (j : Fin 64) :
    lin (toMat (hBlk0 V c t)) (toMat (wBlk0 V c t)) (rowOf (bBlk0 V c t) 0) r j = u0 V c (blockRow (Fin.cast hN0 t) r) j := by
  rw [wBlk0_eq, bBlk0_eq]
  show (∑ k, hBlk0 V c t (ix2 r k) * wArr0 V c (ix2 k j)) + bArr0 V c (ix2 0 j)
    = (∑ k, hArr0 V c (ix2 (blockRow (Fin.cast hN0 t) r) k) * wArr0 V c (ix2 k j)) + bArr0 V c (ix2 0 j)
  simp only [hBlk0_apply]

theorem lt20_0 {n : ℕ} (hn : n < cfg0.N) (t : Fin (n + 1)) : t.val < 20 := by
  have := t.isLt; have : cfg0.N = 20 := hN0; omega

theorem acc0_sum (c : Dev nD) (j : Fin 64) : ∀ (n : ℕ) (hn : n < cfg0.N),
    (acc0 V c n hn).1 (ix2 0 j) = ∑ t : Fin (n + 1), ∑ r : Fin 5000, u0 V c (blockRow ⟨t.val, lt20_0 hn t⟩ r) j
  | 0, hn => by
    rw [acc0_zero]
    dsimp only
    refine (sum_step0 (hBlk0 V c ⟨0, hn⟩) (wBlk0 V c ⟨0, hn⟩) (bBlk0 V c ⟨0, hn⟩) (k0_pay1 (F := Ideal)) j).trans ?_
    rw [reset_sum0, zero_add, Fin.sum_univ_one]
    exact Finset.sum_congr rfl fun r _ => lin_blk0 V c ⟨0, hn⟩ r j
  | n + 1, hn => by
    rw [acc0_succ]
    dsimp only
    refine (sum_step0 (hBlk0 V c ⟨n + 1, hn⟩) (wBlk0 V c ⟨n + 1, hn⟩) (bBlk0 V c ⟨n + 1, hn⟩)
      (acc0 V c n (Nat.lt_of_succ_lt hn)).1 j).trans ?_
    rw [acc0_sum c j n (Nat.lt_of_succ_lt hn)]
    refine Eq.trans ?_ (Fin.sum_univ_castSucc
      (fun t : Fin (n + 1 + 1) => ∑ r : Fin 5000, u0 V c (blockRow ⟨t.val, lt20_0 hn t⟩ r) j)).symm
    refine congrArg₂ (fun a b : EReal => a + b) rfl ?_
    exact Finset.sum_congr rfl fun r _ => lin_blk0 V c ⟨n + 1, hn⟩ r j

theorem acc0_sumsq (c : Dev nD) (j : Fin 64) : ∀ (n : ℕ) (hn : n < cfg0.N),
    (acc0 V c n hn).2 (ix2 0 j) = ∑ t : Fin (n + 1), ∑ r : Fin 5000,
      u0 V c (blockRow ⟨t.val, lt20_0 hn t⟩ r) j * u0 V c (blockRow ⟨t.val, lt20_0 hn t⟩ r) j
  | 0, hn => by
    rw [acc0_zero]
    dsimp only
    refine (sq_step0 (hBlk0 V c ⟨0, hn⟩) (wBlk0 V c ⟨0, hn⟩) (bBlk0 V c ⟨0, hn⟩) (k0_pay2 (F := Ideal)) j).trans ?_
    rw [reset_sq0, zero_add, Fin.sum_univ_one]
    exact Finset.sum_congr rfl fun r _ => by rw [lin_blk0 V c ⟨0, hn⟩ r j]; rfl
  | n + 1, hn => by
    rw [acc0_succ]
    dsimp only
    refine (sq_step0 (hBlk0 V c ⟨n + 1, hn⟩) (wBlk0 V c ⟨n + 1, hn⟩) (bBlk0 V c ⟨n + 1, hn⟩)
      (acc0 V c n (Nat.lt_of_succ_lt hn)).2 j).trans ?_
    rw [acc0_sumsq c j n (Nat.lt_of_succ_lt hn)]
    refine Eq.trans ?_ (Fin.sum_univ_castSucc
      (fun t : Fin (n + 1 + 1) => ∑ r : Fin 5000,
        u0 V c (blockRow ⟨t.val, lt20_0 hn t⟩ r) j * u0 V c (blockRow ⟨t.val, lt20_0 hn t⟩ r) j)).symm
    refine congrArg₂ (fun a b : EReal => a + b) rfl ?_
    exact Finset.sum_congr rfl fun r _ => by rw [lin_blk0 V c ⟨n + 1, hn⟩ r j]; rfl

abbrev sumRow0 (c : Dev nD) : Vec Ideal S1x64 .f32 := (acc0 V c 19 hlast0).1
abbrev sqRow0 (c : Dev nD) : Vec Ideal S1x64 .f32 := (acc0 V c 19 hlast0).2

theorem sumRow0_apply (c : Dev nD) (j : Fin 64) : sumRow0 V c (ix2 0 j) = colSum (u0 V c) j :=
  (acc0_sum V c j 19 hlast0).trans (Cert.Spec.sum_blocks fun i => u0 V c i j)
theorem sqRow0_apply (c : Dev nD) (j : Fin 64) : sqRow0 V c (ix2 0 j) = ∑ i : Fin 100000, u0 V c i j * u0 V c i j :=
  (acc0_sumsq V c j 19 hlast0).trans (Cert.Spec.sum_blocks fun i => u0 V c i j * u0 V c i j)

theorem offs0_3 : (fun a => win0_3.index last0 a * main_v20_0.ty.shape.size a) = fun _ => 0 :=
  funext fun a => by fin_cases a <;> decide +kernel
theorem offs0_4 : (fun a => win0_4.index last0 a * main_v20_1.ty.shape.size a) = fun _ => 0 :=
  funext fun a => by fin_cases a <;> decide +kernel

theorem flushed0_3 (c : Dev nD) (t : Fin cfg0.N) (hf : (cfg0.win 3).flush t = true) :
    (dat0 V c).flushed 3 t = ((cfg0.win 3).blk t).view.read (Elt Ideal) (sumRow0 V c) := by
  have h : t.val = 19 := by have := (flush0_3 t).mp hf; have := t.isLt; have : cfg0.N = 20 := hN0; omega
  obtain rfl : t = last0 := Fin.ext h
  show (cfg0.win 3).cut (grid0.coords last0) ((dat0 V c).after 3 last0) = _
  rw [after0_3]
  exact (Memref.read_access_unit_zero (Elt Ideal) main_v20_0 offs0_3 (fun a => by rw [congrFun offs0_3 a]; simp) (sumRow0 V c)).symm

theorem flushed0_4 (c : Dev nD) (t : Fin cfg0.N) (hf : (cfg0.win 4).flush t = true) :
    (dat0 V c).flushed 4 t = ((cfg0.win 4).blk t).view.read (Elt Ideal) (sqRow0 V c) := by
  have h : t.val = 19 := by have := (flush0_4 t).mp hf; have := t.isLt; have : cfg0.N = 20 := hN0; omega
  obtain rfl : t = last0 := Fin.ext h
  show (cfg0.win 4).cut (grid0.coords last0) ((dat0 V c).after 4 last0) = _
  rw [after0_4]
  exact (Memref.read_access_unit_zero (Elt Ideal) main_v20_1 offs0_4 (fun a => by rw [congrFun offs0_4 a]; simp) (sqRow0 V c)).symm

theorem final0_3 (c : Dev nD) : (dat0 V c).arrAt 3 cfg0.N = sumRow0 V c :=
  (dat0 V c).arrAt_eq_of_cover 3 (sumRow0 V c) (flushed0_3 V c) fun i =>
    ⟨last0, (flush0_3 last0).mpr rfl, by
      show i ∈ ((View.whole main_v20_0).slice (win0_3.rect last0)).set
      rw [View.set_slice_whole]
      exact View.mem_set_unit_zero offs0_3 _ i⟩

theorem final0_4 (c : Dev nD) : (dat0 V c).arrAt 4 cfg0.N = sqRow0 V c :=
  (dat0 V c).arrAt_eq_of_cover 4 (sqRow0 V c) (flushed0_4 V c) fun i =>
    ⟨last0, (flush0_4 last0).mpr rfl, by
      show i ∈ ((View.whole main_v20_1).slice (win0_4.rect last0)).set
      rw [View.set_slice_whole]
      exact View.mem_set_unit_zero offs0_4 _ i⟩

theorem stats0_sum (c : Dev nD) (j : Fin 64) :
    (dat0 V c).arrAt 3 cfg0.N (ix2 0 j) = colSum (u0 V c) j := by
  rw [final0_3]; exact sumRow0_apply V c j

theorem stats0_sumsq (c : Dev nD) (j : Fin 64) :
    (dat0 V c).arrAt 4 cfg0.N (ix2 0 j) = ∑ i : Fin 100000, u0 V c i j * u0 V c i j := by
  rw [final0_4]; exact sqRow0_apply V c j

theorem stats0_in0 (c : Dev nD) : (dat0 V c).arrAt 0 cfg0.N = V c main_v14 :=
  ((dat0 V c).arrAt_in 0 rfl _).trans (A_eq0 V c 0)
theorem stats0_in1 (c : Dev nD) : (dat0 V c).arrAt 1 cfg0.N = V c main_v16 :=
  ((dat0 V c).arrAt_in 1 rfl _).trans (A_eq0 V c 1)
theorem stats0_in2 (c : Dev nD) : (dat0 V c).arrAt 2 cfg0.N = V c main_v19 :=
  ((dat0 V c).arrAt_in 2 rfl _).trans (A_eq0 V c 2)

end Cert.KernelIdeal.HandVal
end
-- ==== Proof.KI.ValStats2.lean ====
import proofs.«181289_j42949672960516_1_alg».proof.Proof.KI.Stats2
import proofs.«181289_j42949672960516_1_alg».proof.Proof.KI.ValPay
import proofs.«181289_j42949672960516_1_alg».proof.Proof.Spec
import proofs.«181289_j42949672960516_1_alg».proof.Proof.Math
import Idealize.ShloMosaic.Lib.Pipeline.Value
import Idealize.ShloMosaic.Lib.ValueIdx

set_option maxRecDepth 16384

noncomputable section

namespace Cert.KernelIdeal.HandVal

open Idealize.ShloMosaic Idealize.ShloMosaic.TcCoe Idealize.ShloMosaic.ValueIdx
open Idealize.ShloMosaic.Pipeline (Dat)
open Cert.KernelIdeal Cert.KernelIdeal.Gen Cert.KernelIdeal.Hand
open Cert.Spec (Mat Row toMat rowOf lin colSum blockRow)
open scoped BigOperators

variable (V : (c : Dev nD) → (b : Ref sig .tc) → Buf (Elt Ideal) ((c : Thread nD τ).loc b))

theorem hN2 : cfg2.N = 20 := by decide
theorem hlast2 : 19 < cfg2.N := by decide
abbrev last2 : Fin cfg2.N := ⟨19, hlast2⟩

abbrev hArr2 (c : Dev nD) : Vec Ideal S100000x64 .f32 := V c main_v54
abbrev wArr2 (c : Dev nD) : Vec Ideal S64x64 .f32 := V c main_v56
abbrev bArr2 (c : Dev nD) : Vec Ideal S1x64 .f32 := V c main_v59
abbrev hBlk2 (c : Dev nD) (t : Fin cfg2.N) : Vec Ideal S5000x64 .f32 := iblk2 V c 0 t
abbrev wBlk2 (c : Dev nD) (t : Fin cfg2.N) : Vec Ideal S64x64 .f32 := iblk2 V c 1 t
abbrev bBlk2 (c : Dev nD) (t : Fin cfg2.N) : Vec Ideal S1x64 .f32 := iblk2 V c 2 t
abbrev u2 (c : Dev nD) : Mat 100000 64 := lin (toMat (hArr2 V c)) (toMat (wArr2 V c)) (rowOf (bArr2 V c) 0)

theorem sum_step2 (x0 : Vec Ideal S5000x64 .f32) (x1 : Vec Ideal S64x64 .f32) (x2 old : Vec Ideal S1x64 .f32) (j : Fin 64) :
    k2_pay4 (F := Ideal) x0 x1 x2 old (ix2 0 j) = old (ix2 0 j) + ∑ r : Fin 5000, lin (toMat x0) (toMat x1) (rowOf x2 0) r j :=
  stats_sum_apply x0 x1 x2 old 0 j
theorem sq_step2 (x0 : Vec Ideal S5000x64 .f32) (x1 : Vec Ideal S64x64 .f32) (x2 old : Vec Ideal S1x64 .f32) (j : Fin 64) :
    k2_pay5 (F := Ideal) x0 x1 x2 old (ix2 0 j)
      = old (ix2 0 j) + ∑ r : Fin 5000, lin (toMat x0) (toMat x1) (rowOf x2 0) r j * lin (toMat x0) (toMat x1) (rowOf x2 0) r j :=
  stats_sq_apply x0 x1 x2 old 0 j
theorem reset_sum2 (j : Fin 64) : k2_pay1 (F := Ideal) (ix2 0 j) = 0 := stats_reset1_apply _
theorem reset_sq2 (j : Fin 64) : k2_pay2 (F := Ideal) (ix2 0 j) = 0 := stats_reset2_apply _

theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx2_1 : ∀ (t : Fin cfg2.N) (a : Fin 2), win2_1.index t a = 0 := by decide +kernel
theorem idx2_2 : ∀ (t : Fin cfg2.N) (a : Fin 2), win2_2.index t a = 0 := by decide +kernel

theorem hBlk2_apply (c : Dev nD) (t : Fin cfg2.N) (p : Fin 5000) (q : Fin 64) :
    hBlk2 V c t (ix2 p q) = hArr2 V c (ix2 (blockRow (Fin.cast hN2 t) p) q) := by
  show ((cfg2.win 0).blk t).view.read (Elt Ideal) (V c (Pipeline.arrRef spec2 0)) (ix2 p q) = _
  rw [View.read_apply]
  show V c main_v54 (((cfg2.win 0).blk t).view.emb (ix2 p q)) = V c main_v54 (ix2 (blockRow (Fin.cast hN2 t) p) q)
  refine congrArg (V c main_v54) (funext fun a => Fin.ext ?_)
  match a with
  | ⟨0, _⟩ => show win2_0.index t 0 * 5000 + 1 * p.val = 5000 * t.val + p.val; rw [(idx2_0 t).1]; omega
  | ⟨1, _⟩ => show win2_0.index t 1 * 64 + 1 * q.val = q.val; rw [(idx2_0 t).2]; omega

theorem wBlk2_eq (c : Dev nD) (t : Fin cfg2.N) : wBlk2 V c t = wArr2 V c :=
  blk_whole _ ((cfg2.win 1).rect_emb_val t) (idx2_1 t)

theorem bBlk2_eq (c : Dev nD) (t : Fin cfg2.N) : bBlk2 V c t = bArr2 V c :=
  blk_whole _ ((cfg2.win 2).rect_emb_val t) (idx2_2 t)

theorem lin_blk2 (c : Dev nD) (t : Fin cfg2.N) (r : Fin 5000) (j : Fin 64) :
    lin (toMat (hBlk2 V c t)) (toMat (wBlk2 V c t)) (rowOf (bBlk2 V c t) 0) r j = u2 V c (blockRow (Fin.cast hN2 t) r) j := by
  rw [wBlk2_eq, bBlk2_eq]
  show (∑ k, hBlk2 V c t (ix2 r k) * wArr2 V c (ix2 k j)) + bArr2 V c (ix2 0 j)
    = (∑ k, hArr2 V c (ix2 (blockRow (Fin.cast hN2 t) r) k) * wArr2 V c (ix2 k j)) + bArr2 V c (ix2 0 j)
  simp only [hBlk2_apply]

theorem lt20_2 {n : ℕ} (hn : n < cfg2.N) (t : Fin (n + 1)) : t.val < 20 := by
  have := t.isLt; have : cfg2.N = 20 := hN2; omega

theorem acc2_sum (c : Dev nD) (j : Fin 64) : ∀ (n : ℕ) (hn : n < cfg2.N),
    (acc2 V c n hn).1 (ix2 0 j) = ∑ t : Fin (n + 1), ∑ r : Fin 5000, u2 V c (blockRow ⟨t.val, lt20_2 hn t⟩ r) j
  | 0, hn => by
    rw [acc2_zero]
    dsimp only
    refine (sum_step2 (hBlk2 V c ⟨0, hn⟩) (wBlk2 V c ⟨0, hn⟩) (bBlk2 V c ⟨0, hn⟩) (k2_pay1 (F := Ideal)) j).trans ?_
    rw [reset_sum2, zero_add, Fin.sum_univ_one]
    exact Finset.sum_congr rfl fun r _ => lin_blk2 V c ⟨0, hn⟩ r j
  | n + 1, hn => by
    rw [acc2_succ]
    dsimp only
    refine (sum_step2 (hBlk2 V c ⟨n + 1, hn⟩) (wBlk2 V c ⟨n + 1, hn⟩) (bBlk2 V c ⟨n + 1, hn⟩)
      (acc2 V c n (Nat.lt_of_succ_lt hn)).1 j).trans ?_
    rw [acc2_sum c j n (Nat.lt_of_succ_lt hn)]
    refine Eq.trans ?_ (Fin.sum_univ_castSucc
      (fun t : Fin (n + 1 + 1) => ∑ r : Fin 5000, u2 V c (blockRow ⟨t.val, lt20_2 hn t⟩ r) j)).symm
    refine congrArg₂ (fun a b : EReal => a + b) rfl ?_
    exact Finset.sum_congr rfl fun r _ => lin_blk2 V c ⟨n + 1, hn⟩ r j

theorem acc2_sumsq (c : Dev nD) (j : Fin 64) : ∀ (n : ℕ) (hn : n < cfg2.N),
    (acc2 V c n hn).2 (ix2 0 j) = ∑ t : Fin (n + 1), ∑ r : Fin 5000,
      u2 V c (blockRow ⟨t.val, lt20_2 hn t⟩ r) j * u2 V c (blockRow ⟨t.val, lt20_2 hn t⟩ r) j
  | 0, hn => by
    rw [acc2_zero]
    dsimp only
    refine (sq_step2 (hBlk2 V c ⟨0, hn⟩) (wBlk2 V c ⟨0, hn⟩) (bBlk2 V c ⟨0, hn⟩) (k2_pay2 (F := Ideal)) j).trans ?_
    rw [reset_sq2, zero_add, Fin.sum_univ_one]
    exact Finset.sum_congr rfl fun r _ => by rw [lin_blk2 V c ⟨0, hn⟩ r j]; rfl
  | n + 1, hn => by
    rw [acc2_succ]
    dsimp only
    refine (sq_step2 (hBlk2 V c ⟨n + 1, hn⟩) (wBlk2 V c ⟨n + 1, hn⟩) (bBlk2 V c ⟨n + 1, hn⟩)
      (acc2 V c n (Nat.lt_of_succ_lt hn)).2 j).trans ?_
    rw [acc2_sumsq c j n (Nat.lt_of_succ_lt hn)]
    refine Eq.trans ?_ (Fin.sum_univ_castSucc
      (fun t : Fin (n + 1 + 1) => ∑ r : Fin 5000,
        u2 V c (blockRow ⟨t.val, lt20_2 hn t⟩ r) j * u2 V c (blockRow ⟨t.val, lt20_2 hn t⟩ r) j)).symm
    refine congrArg₂ (fun a b : EReal => a + b) rfl ?_
    exact Finset.sum_congr rfl fun r _ => by rw [lin_blk2 V c ⟨n + 1, hn⟩ r j]; rfl

abbrev sumRow2 (c : Dev nD) : Vec Ideal S1x64 .f32 := (acc2 V c 19 hlast2).1
abbrev sqRow2 (c : Dev nD) : Vec Ideal S1x64 .f32 := (acc2 V c 19 hlast2).2

theorem sumRow2_apply (c : Dev nD) (j : Fin 64) : sumRow2 V c (ix2 0 j) = colSum (u2 V c) j :=
  (acc2_sum V c j 19 hlast2).trans (Cert.Spec.sum_blocks fun i => u2 V c i j)
theorem sqRow2_apply (c : Dev nD) (j : Fin 64) : sqRow2 V c (ix2 0 j) = ∑ i : Fin 100000, u2 V c i j * u2 V c i j :=
  (acc2_sumsq V c j 19 hlast2).trans (Cert.Spec.sum_blocks fun i => u2 V c i j * u2 V c i j)

theorem offs2_3 : (fun a => win2_3.index last2 a * main_v60_0.ty.shape.size a) = fun _ => 0 :=
  funext fun a => by fin_cases a <;> decide +kernel
theorem offs2_4 : (fun a => win2_4.index last2 a * main_v60_1.ty.shape.size a) = fun _ => 0 :=
  funext fun a => by fin_cases a <;> decide +kernel

theorem flushed2_3 (c : Dev nD) (t : Fin cfg2.N) (hf : (cfg2.win 3).flush t = true) :
    (dat2 V c).flushed 3 t = ((cfg2.win 3).blk t).view.read (Elt Ideal) (sumRow2 V c) := by
  have h : t.val = 19 := by have := (flush2_3 t).mp hf; have := t.isLt; have : cfg2.N = 20 := hN2; omega
  obtain rfl : t = last2 := Fin.ext h
  show (cfg2.win 3).cut (grid2.coords last2) ((dat2 V c).after 3 last2) = _
  rw [after2_3]
  exact (Memref.read_access_unit_zero (Elt Ideal) main_v60_0 offs2_3 (fun a => by rw [congrFun offs2_3 a]; simp) (sumRow2 V c)).symm

theorem flushed2_4 (c : Dev nD) (t : Fin cfg2.N) (hf : (cfg2.win 4).flush t = true) :
    (dat2 V c).flushed 4 t = ((cfg2.win 4).blk t).view.read (Elt Ideal) (sqRow2 V c) := by
  have h : t.val = 19 := by have := (flush2_4 t).mp hf; have := t.isLt; have : cfg2.N = 20 := hN2; omega
  obtain rfl : t = last2 := Fin.ext h
  show (cfg2.win 4).cut (grid2.coords last2) ((dat2 V c).after 4 last2) = _
  rw [after2_4]
  exact (Memref.read_access_unit_zero (Elt Ideal) main_v60_1 offs2_4 (fun a => by rw [congrFun offs2_4 a]; simp) (sqRow2 V c)).symm

theorem final2_3 (c : Dev nD) : (dat2 V c).arrAt 3 cfg2.N = sumRow2 V c :=
  (dat2 V c).arrAt_eq_of_cover 3 (sumRow2 V c) (flushed2_3 V c) fun i =>
    ⟨last2, (flush2_3 last2).mpr rfl, by
      show i ∈ ((View.whole main_v60_0).slice (win2_3.rect last2)).set
      rw [View.set_slice_whole]
      exact View.mem_set_unit_zero offs2_3 _ i⟩

theorem final2_4 (c : Dev nD) : (dat2 V c).arrAt 4 cfg2.N = sqRow2 V c :=
  (dat2 V c).arrAt_eq_of_cover 4 (sqRow2 V c) (flushed2_4 V c) fun i =>
    ⟨last2, (flush2_4 last2).mpr rfl, by
      show i ∈ ((View.whole main_v60_1).slice (win2_4.rect last2)).set
      rw [View.set_slice_whole]
      exact View.mem_set_unit_zero offs2_4 _ i⟩

theorem stats2_sum (c : Dev nD) (j : Fin 64) :
    (dat2 V c).arrAt 3 cfg2.N (ix2 0 j) = colSum (u2 V c) j := by
  rw [final2_3]; exact sumRow2_apply V c j

theorem stats2_sumsq (c : Dev nD) (j : Fin 64) :
    (dat2 V c).arrAt 4 cfg2.N (ix2 0 j) = ∑ i : Fin 100000, u2 V c i j * u2 V c i j := by
  rw [final2_4]; exact sqRow2_apply V c j

theorem stats2_in0 (c : Dev nD) : (dat2 V c).arrAt 0 cfg2.N = V c main_v54 :=
  ((dat2 V c).arrAt_in 0 rfl _).trans (A_eq2 V c 0)
theorem stats2_in1 (c : Dev nD) : (dat2 V c).arrAt 1 cfg2.N = V c main_v56 :=
  ((dat2 V c).arrAt_in 1 rfl _).trans (A_eq2 V c 1)
theorem stats2_in2 (c : Dev nD) : (dat2 V c).arrAt 2 cfg2.N = V c main_v59 :=
  ((dat2 V c).arrAt_in 2 rfl _).trans (A_eq2 V c 2)

end Cert.KernelIdeal.HandVal
end
-- ==== Proof.KI.ValStats4.lean ====
import proofs.«181289_j42949672960516_1_alg».proof.Proof.KI.Stats4
import proofs.«181289_j42949672960516_1_alg».proof.Proof.KI.ValPay
import proofs.«181289_j42949672960516_1_alg».proof.Proof.Spec
import proofs.«181289_j42949672960516_1_alg».proof.Proof.Math
import Idealize.ShloMosaic.Lib.Pipeline.Value
import Idealize.ShloMosaic.Lib.ValueIdx

set_option maxRecDepth 16384

noncomputable section

namespace Cert.KernelIdeal.HandVal

open Idealize.ShloMosaic Idealize.ShloMosaic.TcCoe Idealize.ShloMosaic.ValueIdx
open Idealize.ShloMosaic.Pipeline (Dat)
open Cert.KernelIdeal Cert.KernelIdeal.Gen Cert.KernelIdeal.Hand
open Cert.Spec (Mat Row toMat rowOf lin colSum blockRow)
open scoped BigOperators

variable (V : (c : Dev nD) → (b : Ref sig .tc) → Buf (Elt Ideal) ((c : Thread nD τ).loc b))

theorem hN4 : cfg4.N = 20 := by decide
theorem hlast4 : 19 < cfg4.N := by decide
abbrev last4 : Fin cfg4.N := ⟨19, hlast4⟩

abbrev hArr4 (c : Dev nD) : Vec Ideal S100000x64 .f32 := V c main_v94
abbrev wArr4 (c : Dev nD) : Vec Ideal S64x64 .f32 := V c main_v96
abbrev bArr4 (c : Dev nD) : Vec Ideal S1x64 .f32 := V c main_v99
abbrev hBlk4 (c : Dev nD) (t : Fin cfg4.N) : Vec Ideal S5000x64 .f32 := iblk4 V c 0 t
abbrev wBlk4 (c : Dev nD) (t : Fin cfg4.N) : Vec Ideal S64x64 .f32 := iblk4 V c 1 t
abbrev bBlk4 (c : Dev nD) (t : Fin cfg4.N) : Vec Ideal S1x64 .f32 := iblk4 V c 2 t
abbrev u4 (c : Dev nD) : Mat 100000 64 := lin (toMat (hArr4 V c)) (toMat (wArr4 V c)) (rowOf (bArr4 V c) 0)

theorem sum_step4 (x0 : Vec Ideal S5000x64 .f32) (x1 : Vec Ideal S64x64 .f32) (x2 old : Vec Ideal S1x64 .f32) (j : Fin 64) :
    k4_pay4 (F := Ideal) x0 x1 x2 old (ix2 0 j) = old (ix2 0 j) + ∑ r : Fin 5000, lin (toMat x0) (toMat x1) (rowOf x2 0) r j :=
  stats_sum_apply x0 x1 x2 old 0 j
theorem sq_step4 (x0 : Vec Ideal S5000x64 .f32) (x1 : Vec Ideal S64x64 .f32) (x2 old : Vec Ideal S1x64 .f32) (j : Fin 64) :
    k4_pay5 (F := Ideal) x0 x1 x2 old (ix2 0 j)
      = old (ix2 0 j) + ∑ r : Fin 5000, lin (toMat x0) (toMat x1) (rowOf x2 0) r j * lin (toMat x0) (toMat x1) (rowOf x2 0) r j :=
  stats_sq_apply x0 x1 x2 old 0 j
theorem reset_sum4 (j : Fin 64) : k4_pay1 (F := Ideal) (ix2 0 j) = 0 := stats_reset1_apply _
theorem reset_sq4 (j : Fin 64) : k4_pay2 (F := Ideal) (ix2 0 j) = 0 := stats_reset2_apply _

theorem idx4_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
theorem idx4_1 : ∀ (t : Fin cfg4.N) (a : Fin 2), win4_1.index t a = 0 := by decide +kernel
theorem idx4_2 : ∀ (t : Fin cfg4.N) (a : Fin 2), win4_2.index t a = 0 := by decide +kernel

theorem hBlk4_apply (c : Dev nD) (t : Fin cfg4.N) (p : Fin 5000) (q : Fin 64) :
    hBlk4 V c t (ix2 p q) = hArr4 V c (ix2 (blockRow (Fin.cast hN4 t) p) q) := by
  show ((cfg4.win 0).blk t).view.read (Elt Ideal) (V c (Pipeline.arrRef spec4 0)) (ix2 p q) = _
  rw [View.read_apply]
  show V c main_v94 (((cfg4.win 0).blk t).view.emb (ix2 p q)) = V c main_v94 (ix2 (blockRow (Fin.cast hN4 t) p) q)
  refine congrArg (V c main_v94) (funext fun a => Fin.ext ?_)
  match a with
  | ⟨0, _⟩ => show win4_0.index t 0 * 5000 + 1 * p.val = 5000 * t.val + p.val; rw [(idx4_0 t).1]; omega
  | ⟨1, _⟩ => show win4_0.index t 1 * 64 + 1 * q.val = q.val; rw [(idx4_0 t).2]; omega

theorem wBlk4_eq (c : Dev nD) (t : Fin cfg4.N) : wBlk4 V c t = wArr4 V c :=
  blk_whole _ ((cfg4.win 1).rect_emb_val t) (idx4_1 t)

theorem bBlk4_eq (c : Dev nD) (t : Fin cfg4.N) : bBlk4 V c t = bArr4 V c :=
  blk_whole _ ((cfg4.win 2).rect_emb_val t) (idx4_2 t)

theorem lin_blk4 (c : Dev nD) (t : Fin cfg4.N) (r : Fin 5000) (j : Fin 64) :
    lin (toMat (hBlk4 V c t)) (toMat (wBlk4 V c t)) (rowOf (bBlk4 V c t) 0) r j = u4 V c (blockRow (Fin.cast hN4 t) r) j := by
  rw [wBlk4_eq, bBlk4_eq]
  show (∑ k, hBlk4 V c t (ix2 r k) * wArr4 V c (ix2 k j)) + bArr4 V c (ix2 0 j)
    = (∑ k, hArr4 V c (ix2 (blockRow (Fin.cast hN4 t) r) k) * wArr4 V c (ix2 k j)) + bArr4 V c (ix2 0 j)
  simp only [hBlk4_apply]

theorem lt20_4 {n : ℕ} (hn : n < cfg4.N) (t : Fin (n + 1)) : t.val < 20 := by
  have := t.isLt; have : cfg4.N = 20 := hN4; omega

theorem acc4_sum (c : Dev nD) (j : Fin 64) : ∀ (n : ℕ) (hn : n < cfg4.N),
    (acc4 V c n hn).1 (ix2 0 j) = ∑ t : Fin (n + 1), ∑ r : Fin 5000, u4 V c (blockRow ⟨t.val, lt20_4 hn t⟩ r) j
  | 0, hn => by
    rw [acc4_zero]
    dsimp only
    refine (sum_step4 (hBlk4 V c ⟨0, hn⟩) (wBlk4 V c ⟨0, hn⟩) (bBlk4 V c ⟨0, hn⟩) (k4_pay1 (F := Ideal)) j).trans ?_
    rw [reset_sum4, zero_add, Fin.sum_univ_one]
    exact Finset.sum_congr rfl fun r _ => lin_blk4 V c ⟨0, hn⟩ r j
  | n + 1, hn => by
    rw [acc4_succ]
    dsimp only
    refine (sum_step4 (hBlk4 V c ⟨n + 1, hn⟩) (wBlk4 V c ⟨n + 1, hn⟩) (bBlk4 V c ⟨n + 1, hn⟩)
      (acc4 V c n (Nat.lt_of_succ_lt hn)).1 j).trans ?_
    rw [acc4_sum c j n (Nat.lt_of_succ_lt hn)]
    refine Eq.trans ?_ (Fin.sum_univ_castSucc
      (fun t : Fin (n + 1 + 1) => ∑ r : Fin 5000, u4 V c (blockRow ⟨t.val, lt20_4 hn t⟩ r) j)).symm
    refine congrArg₂ (fun a b : EReal => a + b) rfl ?_
    exact Finset.sum_congr rfl fun r _ => lin_blk4 V c ⟨n + 1, hn⟩ r j

theorem acc4_sumsq (c : Dev nD) (j : Fin 64) : ∀ (n : ℕ) (hn : n < cfg4.N),
    (acc4 V c n hn).2 (ix2 0 j) = ∑ t : Fin (n + 1), ∑ r : Fin 5000,
      u4 V c (blockRow ⟨t.val, lt20_4 hn t⟩ r) j * u4 V c (blockRow ⟨t.val, lt20_4 hn t⟩ r) j
  | 0, hn => by
    rw [acc4_zero]
    dsimp only
    refine (sq_step4 (hBlk4 V c ⟨0, hn⟩) (wBlk4 V c ⟨0, hn⟩) (bBlk4 V c ⟨0, hn⟩) (k4_pay2 (F := Ideal)) j).trans ?_
    rw [reset_sq4, zero_add, Fin.sum_univ_one]
    exact Finset.sum_congr rfl fun r _ => by rw [lin_blk4 V c ⟨0, hn⟩ r j]; rfl
  | n + 1, hn => by
    rw [acc4_succ]
    dsimp only
    refine (sq_step4 (hBlk4 V c ⟨n + 1, hn⟩) (wBlk4 V c ⟨n + 1, hn⟩) (bBlk4 V c ⟨n + 1, hn⟩)
      (acc4 V c n (Nat.lt_of_succ_lt hn)).2 j).trans ?_
    rw [acc4_sumsq c j n (Nat.lt_of_succ_lt hn)]
    refine Eq.trans ?_ (Fin.sum_univ_castSucc
      (fun t : Fin (n + 1 + 1) => ∑ r : Fin 5000,
        u4 V c (blockRow ⟨t.val, lt20_4 hn t⟩ r) j * u4 V c (blockRow ⟨t.val, lt20_4 hn t⟩ r) j)).symm
    refine congrArg₂ (fun a b : EReal => a + b) rfl ?_
    exact Finset.sum_congr rfl fun r _ => by rw [lin_blk4 V c ⟨n + 1, hn⟩ r j]; rfl

abbrev sumRow4 (c : Dev nD) : Vec Ideal S1x64 .f32 := (acc4 V c 19 hlast4).1
abbrev sqRow4 (c : Dev nD) : Vec Ideal S1x64 .f32 := (acc4 V c 19 hlast4).2

theorem sumRow4_apply (c : Dev nD) (j : Fin 64) : sumRow4 V c (ix2 0 j) = colSum (u4 V c) j :=
  (acc4_sum V c j 19 hlast4).trans (Cert.Spec.sum_blocks fun i => u4 V c i j)
theorem sqRow4_apply (c : Dev nD) (j : Fin 64) : sqRow4 V c (ix2 0 j) = ∑ i : Fin 100000, u4 V c i j * u4 V c i j :=
  (acc4_sumsq V c j 19 hlast4).trans (Cert.Spec.sum_blocks fun i => u4 V c i j * u4 V c i j)

theorem offs4_3 : (fun a => win4_3.index last4 a * main_v100_0.ty.shape.size a) = fun _ => 0 :=
  funext fun a => by fin_cases a <;> decide +kernel
theorem offs4_4 : (fun a => win4_4.index last4 a * main_v100_1.ty.shape.size a) = fun _ => 0 :=
  funext fun a => by fin_cases a <;> decide +kernel

theorem flushed4_3 (c : Dev nD) (t : Fin cfg4.N) (hf : (cfg4.win 3).flush t = true) :
    (dat4 V c).flushed 3 t = ((cfg4.win 3).blk t).view.read (Elt Ideal) (sumRow4 V c) := by
  have h : t.val = 19 := by have := (flush4_3 t).mp hf; have := t.isLt; have : cfg4.N = 20 := hN4; omega
  obtain rfl : t = last4 := Fin.ext h
  show (cfg4.win 3).cut (grid4.coords last4) ((dat4 V c).after 3 last4) = _
  rw [after4_3]
  exact (Memref.read_access_unit_zero (Elt Ideal) main_v100_0 offs4_3 (fun a => by rw [congrFun offs4_3 a]; simp) (sumRow4 V c)).symm

theorem flushed4_4 (c : Dev nD) (t : Fin cfg4.N) (hf : (cfg4.win 4).flush t = true) :
    (dat4 V c).flushed 4 t = ((cfg4.win 4).blk t).view.read (Elt Ideal) (sqRow4 V c) := by
  have h : t.val = 19 := by have := (flush4_4 t).mp hf; have := t.isLt; have : cfg4.N = 20 := hN4; omega
  obtain rfl : t = last4 := Fin.ext h
  show (cfg4.win 4).cut (grid4.coords last4) ((dat4 V c).after 4 last4) = _
  rw [after4_4]
  exact (Memref.read_access_unit_zero (Elt Ideal) main_v100_1 offs4_4 (fun a => by rw [congrFun offs4_4 a]; simp) (sqRow4 V c)).symm

theorem final4_3 (c : Dev nD) : (dat4 V c).arrAt 3 cfg4.N = sumRow4 V c :=
  (dat4 V c).arrAt_eq_of_cover 3 (sumRow4 V c) (flushed4_3 V c) fun i =>
    ⟨last4, (flush4_3 last4).mpr rfl, by
      show i ∈ ((View.whole main_v100_0).slice (win4_3.rect last4)).set
      rw [View.set_slice_whole]
      exact View.mem_set_unit_zero offs4_3 _ i⟩

theorem final4_4 (c : Dev nD) : (dat4 V c).arrAt 4 cfg4.N = sqRow4 V c :=
  (dat4 V c).arrAt_eq_of_cover 4 (sqRow4 V c) (flushed4_4 V c) fun i =>
    ⟨last4, (flush4_4 last4).mpr rfl, by
      show i ∈ ((View.whole main_v100_1).slice (win4_4.rect last4)).set
      rw [View.set_slice_whole]
      exact View.mem_set_unit_zero offs4_4 _ i⟩

theorem stats4_sum (c : Dev nD) (j : Fin 64) :
    (dat4 V c).arrAt 3 cfg4.N (ix2 0 j) = colSum (u4 V c) j := by
  rw [final4_3]; exact sumRow4_apply V c j

theorem stats4_sumsq (c : Dev nD) (j : Fin 64) :
    (dat4 V c).arrAt 4 cfg4.N (ix2 0 j) = ∑ i : Fin 100000, u4 V c i j * u4 V c i j := by
  rw [final4_4]; exact sqRow4_apply V c j

theorem stats4_in0 (c : Dev nD) : (dat4 V c).arrAt 0 cfg4.N = V c main_v94 :=
  ((dat4 V c).arrAt_in 0 rfl _).trans (A_eq4 V c 0)
theorem stats4_in1 (c : Dev nD) : (dat4 V c).arrAt 1 cfg4.N = V c main_v96 :=
  ((dat4 V c).arrAt_in 1 rfl _).trans (A_eq4 V c 1)
theorem stats4_in2 (c : Dev nD) : (dat4 V c).arrAt 2 cfg4.N = V c main_v99 :=
  ((dat4 V c).arrAt_in 2 rfl _).trans (A_eq4 V c 2)

end Cert.KernelIdeal.HandVal
end
-- ==== Proof.KI.ValStats.lean ====
import proofs.«181289_j42949672960516_1_alg».proof.Proof.KI.ValStats0
import proofs.«181289_j42949672960516_1_alg».proof.Proof.KI.ValStats2
import proofs.«181289_j42949672960516_1_alg».proof.Proof.KI.ValStats4
-- ==== Proof.KI.ValApply.lean ====
import proofs.«181289_j42949672960516_1_alg».proof.Proof.KI.Apply1
import proofs.«181289_j42949672960516_1_alg».proof.Proof.KI.Apply3
import proofs.«181289_j42949672960516_1_alg».proof.Proof.KI.Apply5
import proofs.«181289_j42949672960516_1_alg».proof.Proof.KI.ValPay
import proofs.«181289_j42949672960516_1_alg».proof.Proof.Spec
import Idealize.ShloMosaic.Lib.Pipeline.Value
import Idealize.ShloMosaic.Lib.ValueIdx

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec (toMat rowOf)

variable (V : (c : Dev nD) → (b : Ref sig .tc) → Buf (Elt Ideal) ((c : Thread nD τ).loc b))

private theorem hz2 : (![0, 0] : Fin 2 → Nat) = fun _ => 0 := funext fun a => by fin_cases a <;> rfl

-- row r of the array lies in the band of 5000 rows at block index r / 5000
private theorem band_mem (i : S100000x64.Idx) (k : Fin 2 → Nat) (hk : ∀ a, k a = if a.val = 0 then (i 0).val / 5000 else 0)
    (a : Fin 2) : k a * S5000x64.size a ≤ (i a).val ∧ (i a).val < k a * S5000x64.size a + S5000x64.size a := by
  have h0 : (i 0).val < 100000 := (i 0).isLt
  have h1 : (i 1).val < 64 := (i 1).isLt
  rw [hk]
  match a with
  | ⟨0, _⟩ => show (i 0).val / 5000 * 5000 ≤ (i 0).val ∧ (i 0).val < (i 0).val / 5000 * 5000 + 5000; omega
  | ⟨1, _⟩ => show 0 * 64 ≤ (i 1).val ∧ (i 1).val < 0 * 64 + 64; omega

-- every operation of the payload works row by row, so on a row band of H it is the layer's second half of H at that band
theorem apply_blk {H : FVec Ideal S100000x64 .f32} {W1 W2 : FVec Ideal S64x64 .f32} {b1 mu var g bt b2 : FVec Ideal S1x64 .f32}
    {x0 : Vec Ideal S5000x64 .f32} {x1 : Vec Ideal S64x64 .f32} {x2 x3 x4 x5 x6 : Vec Ideal S1x64 .f32}
    {x7 : Vec Ideal S64x64 .f32} {x8 : Vec Ideal S1x64 .f32} {f e : S5000x64.Idx → S100000x64.Idx} {k k' : Fin 2 → Nat} (t : Nat)
    (hf : ∀ y a, (f y a : Nat) = k a * S5000x64.size a + y a) (hk : ∀ a, k a = if a.val = 0 then t else 0)
    (he : ∀ y a, (e y a : Nat) = k' a * S5000x64.size a + y a) (hk' : ∀ a, k' a = if a.val = 0 then t else 0)
    (h0 : x0 = fun y => H (f y)) (h1 : x1 = W1) (h2 : x2 = b1) (h3 : x3 = mu) (h4 : x4 = var)
    (h5 : x5 = g) (h6 : x6 = bt) (h7 : x7 = W2) (h8 : x8 = b2) (j : S5000x64.Idx) :
    k1_pay1 (F := Ideal) (k1_pay2 x0 x1 x2 x4 x3 x5 x6 x7) x8 j
      = Cert.Spec.ofMat (Cert.Spec.reluLin (Cert.Spec.bnRelu (Cert.Spec.lin (toMat H) (toMat W1) (rowOf b1 0)) (rowOf mu 0) (rowOf var 0) (rowOf g 0) (rowOf bt 0)) (toMat W2) (rowOf b2 0)) (e j) := by
  have hfe : e = f := funext fun y => funext fun a => Fin.ext (by rw [hf, he, hk, hk'])
  subst h0 h1 h2 h3 h4 h5 h6 h7 h8 hfe
  obtain ⟨p, q, rfl⟩ : ∃ (p : Fin 5000) (q : Fin 64), j = ix2 p q := ⟨j 0, j 1, eq_ix2 j⟩
  obtain ⟨r, hr⟩ : ∃ r : Fin 5000 → Fin 100000, ∀ p' q', e (ix2 p' q') = ix2 (r p') q' :=
    ⟨fun p' => e (ix2 p' q) 0, fun p' q' => Shape.idx_ext₂ (by rw [he, he]) (by rw [he, hk']; show 0 * 64 + q'.val = q'.val; omega)⟩
  have e0 : toMat (fun y => H (e y)) = fun p' k => toMat H (r p') k := funext fun p' => funext fun k => congrArg H (hr p' k)
  rw [apply_pay_apply, e0, hr, Cert.Spec.ofMat_apply]
  rfl

theorem idx1 : ∀ (w : Fin cfg1.W) (t : Fin cfg1.N) (a : Fin (cfg1.win w).shape.rank),
    (cfg1.win w).index t a = if w.val = 0 ∨ w.val = 9 then (if a.val = 0 then t.val else 0) else 0 := by decide +kernel

theorem cover1 (i : S100000x64.Idx) : ∃ t : Fin cfg1.N, (cfg1.win 9).flush t = true ∧ i ∈ ((cfg1.win 9).blk t).view.set := by
  have ht : (i 0).val / 5000 < cfg1.N := by have : (i 0).val < 100000 := (i 0).isLt; rw [show cfg1.N = 20 by decide]; omega
  refine ⟨⟨_, ht⟩, flush1_9 _, ?_⟩
  show i ∈ ((View.whole main_v43).slice (win1_9.rect ⟨_, ht⟩)).set
  rw [View.set_slice_whole, Rect.mem_set_unit]
  exact band_mem i _ (idx1 9 _)

theorem apply1_arr (c : Dev nD) :
    toMat ((dat1 V c).arrAt 9 cfg1.N : FVec Ideal S100000x64 .f32)
      = Cert.Spec.reluLin (Cert.Spec.bnRelu (Cert.Spec.lin (toMat (V c main_v14 : FVec Ideal S100000x64 .f32)) (toMat (V c main_v28 : FVec Ideal S64x64 .f32)) (rowOf (V c main_v39 : FVec Ideal S1x64 .f32) 0))
          (rowOf (V c main_v22 : FVec Ideal S1x64 .f32) 0) (rowOf (V c main_v26 : FVec Ideal S1x64 .f32) 0) (rowOf (V c main_v40 : FVec Ideal S1x64 .f32) 0) (rowOf (V c main_v41 : FVec Ideal S1x64 .f32) 0))
          (toMat (V c main_v36 : FVec Ideal S64x64 .f32)) (rowOf (V c main_v42 : FVec Ideal S1x64 .f32) 0) := by
  refine (congrArg toMat ((dat1 V c).arrAt_eq_of_cover 9 (Cert.Spec.ofMat _) (fun t _ => ?_) cover1)).trans (Cert.Spec.toMat_ofMat _)
  show (cfg1.win 9).cut (grid1.coords t) ((dat1 V c).after 9 t) = _
  rw [after1_9]
  unfold out1_9
  rw [View.canon_unit_zero hz2]
  simp only [View.ld_unit_zero (S := S5000x64) hz2, View.ld_unit_zero (S := S64x64) hz2, View.ld_unit_zero (S := S1x64) hz2]
  funext j
  exact apply_blk t.val ((cfg1.win 0).rect_emb_val t) (idx1 0 t) ((cfg1.win 9).rect_emb_val t) (idx1 9 t) rfl
    (blk_whole _ ((cfg1.win 1).rect_emb_val t) (idx1 1 t)) (blk_whole _ ((cfg1.win 2).rect_emb_val t) (idx1 2 t))
    (blk_whole _ ((cfg1.win 3).rect_emb_val t) (idx1 3 t)) (blk_whole _ ((cfg1.win 4).rect_emb_val t) (idx1 4 t))
    (blk_whole _ ((cfg1.win 5).rect_emb_val t) (idx1 5 t)) (blk_whole _ ((cfg1.win 6).rect_emb_val t) (idx1 6 t))
    (blk_whole _ ((cfg1.win 7).rect_emb_val t) (idx1 7 t)) (blk_whole _ ((cfg1.win 8).rect_emb_val t) (idx1 8 t)) j

theorem idx3 : ∀ (w : Fin cfg3.W) (t : Fin cfg3.N) (a : Fin (cfg3.win w).shape.rank),
    (cfg3.win w).index t a = if w.val = 0 ∨ w.val = 9 then (if a.val = 0 then t.val else 0) else 0 := by decide +kernel

theorem cover3 (i : S100000x64.Idx) : ∃ t : Fin cfg3.N, (cfg3.win 9).flush t = true ∧ i ∈ ((cfg3.win 9).blk t).view.set := by
  have ht : (i 0).val / 5000 < cfg3.N := by have : (i 0).val < 100000 := (i 0).isLt; rw [show cfg3.N = 20 by decide]; omega
  refine ⟨⟨_, ht⟩, flush3_9 _, ?_⟩
  show i ∈ ((View.whole main_v83).slice (win3_9.rect ⟨_, ht⟩)).set
  rw [View.set_slice_whole, Rect.mem_set_unit]
  exact band_mem i _ (idx3 9 _)

theorem apply3_arr (c : Dev nD) :
    toMat ((dat3 V c).arrAt 9 cfg3.N : FVec Ideal S100000x64 .f32)
      = Cert.Spec.reluLin (Cert.Spec.bnRelu (Cert.Spec.lin (toMat (V c main_v54 : FVec Ideal S100000x64 .f32)) (toMat (V c main_v68 : FVec Ideal S64x64 .f32)) (rowOf (V c main_v79 : FVec Ideal S1x64 .f32) 0))
          (rowOf (V c main_v62 : FVec Ideal S1x64 .f32) 0) (rowOf (V c main_v66 : FVec Ideal S1x64 .f32) 0) (rowOf (V c main_v80 : FVec Ideal S1x64 .f32) 0) (rowOf (V c main_v81 : FVec Ideal S1x64 .f32) 0))
          (toMat (V c main_v76 : FVec Ideal S64x64 .f32)) (rowOf (V c main_v82 : FVec Ideal S1x64 .f32) 0) := by
  refine (congrArg toMat ((dat3 V c).arrAt_eq_of_cover 9 (Cert.Spec.ofMat _) (fun t _ => ?_) cover3)).trans (Cert.Spec.toMat_ofMat _)
  show (cfg3.win 9).cut (grid3.coords t) ((dat3 V c).after 9 t) = _
  rw [after3_9]
  unfold out3_9
  rw [View.canon_unit_zero hz2]
  simp only [View.ld_unit_zero (S := S5000x64) hz2, View.ld_unit_zero (S := S64x64) hz2, View.ld_unit_zero (S := S1x64) hz2]
  funext j
  exact apply_blk t.val ((cfg3.win 0).rect_emb_val t) (idx3 0 t) ((cfg3.win 9).rect_emb_val t) (idx3 9 t) rfl
    (blk_whole _ ((cfg3.win 1).rect_emb_val t) (idx3 1 t)) (blk_whole _ ((cfg3.win 2).rect_emb_val t) (idx3 2 t))
    (blk_whole _ ((cfg3.win 3).rect_emb_val t) (idx3 3 t)) (blk_whole _ ((cfg3.win 4).rect_emb_val t) (idx3 4 t))
    (blk_whole _ ((cfg3.win 5).rect_emb_val t) (idx3 5 t)) (blk_whole _ ((cfg3.win 6).rect_emb_val t) (idx3 6 t))
    (blk_whole _ ((cfg3.win 7).rect_emb_val t) (idx3 7 t)) (blk_whole _ ((cfg3.win 8).rect_emb_val t) (idx3 8 t)) j

theorem idx5 : ∀ (w : Fin cfg5.W) (t : Fin cfg5.N) (a : Fin (cfg5.win w).shape.rank),
    (cfg5.win w).index t a = if w.val = 0 ∨ w.val = 9 then (if a.val = 0 then t.val else 0) else 0 := by decide +kernel

theorem cover5 (i : S100000x64.Idx) : ∃ t : Fin cfg5.N, (cfg5.win 9).flush t = true ∧ i ∈ ((cfg5.win 9).blk t).view.set := by
  have ht : (i 0).val / 5000 < cfg5.N := by have : (i 0).val < 100000 := (i 0).isLt; rw [show cfg5.N = 20 by decide]; omega
  refine ⟨⟨_, ht⟩, flush5_9 _, ?_⟩
  show i ∈ ((View.whole main_v123).slice (win5_9.rect ⟨_, ht⟩)).set
  rw [View.set_slice_whole, Rect.mem_set_unit]
  exact band_mem i _ (idx5 9 _)

theorem apply5_arr (c : Dev nD) :
    toMat ((dat5 V c).arrAt 9 cfg5.N : FVec Ideal S100000x64 .f32)
      = Cert.Spec.reluLin (Cert.Spec.bnRelu (Cert.Spec.lin (toMat (V c main_v94 : FVec Ideal S100000x64 .f32)) (toMat (V c main_v108 : FVec Ideal S64x64 .f32)) (rowOf (V c main_v119 : FVec Ideal S1x64 .f32) 0))
          (rowOf (V c main_v102 : FVec Ideal S1x64 .f32) 0) (rowOf (V c main_v106 : FVec Ideal S1x64 .f32) 0) (rowOf (V c main_v120 : FVec Ideal S1x64 .f32) 0) (rowOf (V c main_v121 : FVec Ideal S1x64 .f32) 0))
          (toMat (V c main_v116 : FVec Ideal S64x64 .f32)) (rowOf (V c main_v122 : FVec Ideal S1x64 .f32) 0) := by
  refine (congrArg toMat ((dat5 V c).arrAt_eq_of_cover 9 (Cert.Spec.ofMat _) (fun t _ => ?_) cover5)).trans (Cert.Spec.toMat_ofMat _)
  show (cfg5.win 9).cut (grid5.coords t) ((dat5 V c).after 9 t) = _
  rw [after5_9]
  unfold out5_9
  rw [View.canon_unit_zero hz2]
  simp only [View.ld_unit_zero (S := S5000x64) hz2, View.ld_unit_zero (S := S64x64) hz2, View.ld_unit_zero (S := S1x64) hz2]
  funext j
  exact apply_blk t.val ((cfg5.win 0).rect_emb_val t) (idx5 0 t) ((cfg5.win 9).rect_emb_val t) (idx5 9 t) rfl
    (blk_whole _ ((cfg5.win 1).rect_emb_val t) (idx5 1 t)) (blk_whole _ ((cfg5.win 2).rect_emb_val t) (idx5 2 t))
    (blk_whole _ ((cfg5.win 3).rect_emb_val t) (idx5 3 t)) (blk_whole _ ((cfg5.win 4).rect_emb_val t) (idx5 4 t))
    (blk_whole _ ((cfg5.win 5).rect_emb_val t) (idx5 5 t)) (blk_whole _ ((cfg5.win 6).rect_emb_val t) (idx5 6 t))
    (blk_whole _ ((cfg5.win 7).rect_emb_val t) (idx5 7 t)) (blk_whole _ ((cfg5.win 8).rect_emb_val t) (idx5 8 t)) j

end Cert.KernelIdeal.HandVal

end
-- ==== Proof.KI.ValFinal.lean ====
import proofs.«181289_j42949672960516_1_alg».proof.Proof.KI.Final6
import proofs.«181289_j42949672960516_1_alg».proof.Proof.KI.ValPay
import proofs.«181289_j42949672960516_1_alg».proof.Proof.Spec
import Idealize.ShloMosaic.Lib.Pipeline.Value
import Idealize.ShloMosaic.Lib.ValueIdx

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec (toMat rowOf)

variable (V : (c : Dev nD) → (b : Ref sig .tc) → Buf (Elt Ideal) ((c : Thread nD τ).loc b))

private theorem hz2 : (![0, 0] : Fin 2 → Nat) = fun _ => 0 := funext fun a => by fin_cases a <;> rfl

theorem idx6 : ∀ (w : Fin cfg6.W) (t : Fin cfg6.N) (a : Fin (cfg6.win w).shape.rank), (cfg6.win w).index t a = 0 := by
  decide +kernel

theorem final_point {P : FVec Ideal S256x64 .f32} {W1 : FVec Ideal S64x64 .f32} {b1 g bt : FVec Ideal S1x64 .f32}
    {W2 : FVec Ideal S64x2 .f32} {b2 : FVec Ideal S1x2 .f32}
    {x0 : Vec Ideal S256x64 .f32} {x1 : Vec Ideal S64x64 .f32} {x2 x3 x4 : Vec Ideal S1x64 .f32} {x5 : Vec Ideal S64x2 .f32}
    {x6 : Vec Ideal S1x2 .f32} {e : S256x2.Idx → S256x2.Idx} {k z : Fin 2 → Nat}
    (he : ∀ y a, (e y a : Nat) = k a * z a + y a) (hk : ∀ a, k a = 0) (h0 : x0 = P) (h1 : x1 = W1) (h2 : x2 = b1) (h3 : x3 = g) (h4 : x4 = bt) (h5 : x5 = W2) (h6 : x6 = b2)
    (j : S256x2.Idx) :
    k6_pay1 (F := Ideal) (k6_pay2 x0 x1 x2 x3 x4) (k6_pay3 x5) (constant (F := Ideal) S256x2 .f32 0x00000000#32) x6 j
      = Cert.Spec.ofMat (Cert.Spec.headOut (toMat P) (toMat W1) (rowOf b1 0) (rowOf g 0) (rowOf bt 0) (toMat W2) (rowOf b2 0)) (e j) := by
  subst h0 h1 h2 h3 h4 h5 h6
  rw [show e j = j from funext fun a => Fin.ext (by rw [he, hk]; omega)]
  obtain ⟨p, q, rfl⟩ : ∃ (p : Fin 256) (q : Fin 2), j = ix2 p q := ⟨j 0, j 1, eq_ix2 j⟩
  rw [Cert.Spec.ofMat_apply]
  exact final_pay_apply x0 x1 x2 x3 x4 x5 x6 p q

theorem final6_arr (c : Dev nD) :
    toMat ((dat6 V c).arrAt 7 cfg6.N : FVec Ideal S256x2 .f32)
      = Cert.Spec.headOut (toMat (V c main_v126 : FVec Ideal S256x64 .f32)) (toMat (V c main_arg9 : FVec Ideal S64x64 .f32)) (rowOf (V c main_v127 : FVec Ideal S1x64 .f32) 0)
          (rowOf (V c main_v128 : FVec Ideal S1x64 .f32) 0) (rowOf (V c main_v129 : FVec Ideal S1x64 .f32) 0) (toMat (V c main_arg13 : FVec Ideal S64x2 .f32)) (rowOf (V c main_v130 : FVec Ideal S1x2 .f32) 0) := by
  refine (congrArg toMat ((dat6 V c).arrAt_eq_of_cover 7 (Cert.Spec.ofMat _) (fun t _ => ?_) fun i => ?_)).trans (Cert.Spec.toMat_ofMat _)
  · show (cfg6.win 7).cut (grid6.coords t) ((dat6 V c).after 7 t) = _
    rw [after6_7]
    unfold out6_7
    rw [View.canon_unit_zero hz2]
    simp only [View.ld_unit_zero (S := S256x64) hz2, View.ld_unit_zero (S := S64x64) hz2, View.ld_unit_zero (S := S1x64) hz2,
      View.ld_unit_zero (S := S64x2) hz2, View.ld_unit_zero (S := S1x2) hz2]
    funext j
    exact final_point ((cfg6.win 7).rect_emb_val t) (idx6 7 t) (blk_whole _ ((cfg6.win 0).rect_emb_val t) (idx6 0 t)) (blk_whole _ ((cfg6.win 1).rect_emb_val t) (idx6 1 t))
      (blk_whole _ ((cfg6.win 2).rect_emb_val t) (idx6 2 t)) (blk_whole _ ((cfg6.win 3).rect_emb_val t) (idx6 3 t))
      (blk_whole _ ((cfg6.win 4).rect_emb_val t) (idx6 4 t)) (blk_whole _ ((cfg6.win 5).rect_emb_val t) (idx6 5 t))
      (blk_whole _ ((cfg6.win 6).rect_emb_val t) (idx6 6 t)) j
  · have ht : 0 < cfg6.N := by decide
    refine ⟨⟨0, ht⟩, flush6_7 _, ?_⟩
    show i ∈ ((View.whole main_v131).slice (win6_7.rect ⟨0, ht⟩)).set
    rw [View.set_slice_whole, Rect.mem_set_unit]
    intro a
    rw [show win6_7.index ⟨0, ht⟩ a = 0 from idx6 7 _ a, Nat.zero_mul, Nat.zero_add]
    exact ⟨Nat.zero_le _, (i a).isLt⟩

end Cert.KernelIdeal.HandVal

end
-- ==== Proof.Layers.lean ====
import proofs.«181289_j42949672960516_1_alg».proof.Proof.Spec
import proofs.«181289_j42949672960516_1_alg».proof.Proof.Math
import proofs.«181289_j42949672960516_1_alg».proof.Proof.HostFn

noncomputable section

namespace Cert.Layers

open Idealize.ShloMosaic Idealize.SL.Sem
open Cert.KernelIdeal Cert.Spec Cert.HostFn

variable [Cert.KernelIdeal.Facts]

def layerArr (X : FVec Ideal S100000x64 .f32) (a1 : (⟨S2x1000000, .i32⟩ : BufTy).Contents (Elt Ideal))
    (a3 : FVec Ideal S3x64x64 .f32) (a4 a5 a6 : FVec Ideal S3x64 .f32) (a7 : FVec Ideal S3x64x64 .f32) (a8 : FVec Ideal S3x64 .f32)
    (l : Fin 3) : FVec Ideal S100000x64 .f32 :=
  ofMat (layerDev (toMat (agg X a1)) (toMat3 a3 l) (rowOf a4 l) (rowOf a5 l) (rowOf a6 l) (toMat3 a7 l) (rowOf a8 l))

section
variable (a0 : FVec Ideal S100000x64 .f32) (a1 : (⟨S2x1000000, .i32⟩ : BufTy).Contents (Elt Ideal))
  (a2 : (⟨S100000, .i32⟩ : BufTy).Contents (Elt Ideal))
  (a3 : FVec Ideal S3x64x64 .f32) (a4 a5 a6 : FVec Ideal S3x64 .f32) (a7 : FVec Ideal S3x64x64 .f32) (a8 : FVec Ideal S3x64 .f32)
def kX1 : FVec Ideal S100000x64 .f32 := layerArr a0 a1 a3 a4 a5 a6 a7 a8 0
def kX2 : FVec Ideal S100000x64 .f32 := layerArr (kX1 a0 a1 a3 a4 a5 a6 a7 a8) a1 a3 a4 a5 a6 a7 a8 1
def kX3 : FVec Ideal S100000x64 .f32 := layerArr (kX2 a0 a1 a3 a4 a5 a6 a7 a8) a1 a3 a4 a5 a6 a7 a8 2
def kPooled : FVec Ideal S256x64 .f32 := pool (kX3 a0 a1 a3 a4 a5 a6 a7 a8) a2
end

def kOut (P : FVec Ideal S256x64 .f32) (a9 : FVec Ideal S64x64 .f32) (a10 a11 a12 : FVec Ideal S64 .f32)
    (a13 : FVec Ideal S64x2 .f32) (a14 : FVec Ideal S2 .f32) : FVec Ideal S256x2 .f32 :=
  ofMat (headOut (toMat P) (toMat a9) (toRow a10) (toRow a11) (toRow a12) (toMat a13) (toRow a14))

section Real
variable (a1 : (⟨S2x1000000, .i32⟩ : BufTy).Contents (Elt Ideal))
  (a3 : FVec Ideal S3x64x64 .f32) (a4 a5 a6 : FVec Ideal S3x64 .f32) (a7 : FVec Ideal S3x64x64 .f32) (a8 : FVec Ideal S3x64 .f32)
  (h3 : ∀ i, IsReal (a3 i)) (h4 : ∀ i, IsReal (a4 i)) (h5 : ∀ i, IsReal (a5 i)) (h6 : ∀ i, IsReal (a6 i))
  (h7 : ∀ i, IsReal (a7 i)) (h8 : ∀ i, IsReal (a8 i))
include h3 h4 h5 h6 h7 h8

theorem layerArr_real (X : FVec Ideal S100000x64 .f32) (hX : ∀ i, IsReal (X i)) (l : Fin 3) :
    ∀ i, IsReal (layerArr X a1 a3 a4 a5 a6 a7 a8 l i) := by
  intro i
  exact layerDev_real _ _ _ _ _ _ _ (fun i k => agg_real X a1 hX _) (fun k j => h3 _) (fun j => h4 _) (fun j => h5 _)
    (fun j => h6 _) (fun k j => h7 _) (fun j => h8 _) (i 0) (i 1)

variable (a0 : FVec Ideal S100000x64 .f32) (h0 : ∀ i, IsReal (a0 i))
include h0

theorem kX1_real : ∀ i, IsReal (kX1 a0 a1 a3 a4 a5 a6 a7 a8 i) :=
  layerArr_real a1 a3 a4 a5 a6 a7 a8 h3 h4 h5 h6 h7 h8 a0 h0 0
theorem kX2_real : ∀ i, IsReal (kX2 a0 a1 a3 a4 a5 a6 a7 a8 i) :=
  layerArr_real a1 a3 a4 a5 a6 a7 a8 h3 h4 h5 h6 h7 h8 _ (kX1_real a1 a3 a4 a5 a6 a7 a8 h3 h4 h5 h6 h7 h8 a0 h0) 1
theorem kX3_real : ∀ i, IsReal (kX3 a0 a1 a3 a4 a5 a6 a7 a8 i) :=
  layerArr_real a1 a3 a4 a5 a6 a7 a8 h3 h4 h5 h6 h7 h8 _ (kX2_real a1 a3 a4 a5 a6 a7 a8 h3 h4 h5 h6 h7 h8 a0 h0) 2

end Real

theorem layer_step (H Xout : FVec Ideal S100000x64 .f32) (W1 : Mat 64 64) (b1 g bt : Row 64) (W2 : Mat 64 64) (b2 : Row 64)
    (S1 S2 mean var : Row 64)
    (hS1 : ∀ j, S1 j = ∑ i, lin (toMat H) W1 b1 i j)
    (hS2 : ∀ j, S2 j = ∑ i, lin (toMat H) W1 b1 i j * lin (toMat H) W1 b1 i j)
    (hmean : ∀ j, mean j = Ideal.div (S1 j) nNodes)
    (hvar : ∀ j, var j = Ideal.div (S2 j) nNodes - mean j * mean j)
    (hout : ∀ i j, Xout (ValueIdx.ix2 i j) = reluLin (bnRelu (lin (toMat H) W1 b1) mean var g bt) W2 b2 i j)
    (hH : ∀ i, IsReal (H i)) (hW1 : ∀ k j, IsReal (W1 k j)) (hb1 : ∀ j, IsReal (b1 j)) :
    Xout = ofMat (layerDev (toMat H) W1 b1 g bt W2 b2) := by
  have hm : mean = meanC nNodes (lin (toMat H) W1 b1) := by
    funext j; rw [hmean, hS1]; rfl
  have hv : var = varMom nNodes (lin (toMat H) W1 b1) := by
    funext j; rw [hvar, hS2, hm]; rfl
  rw [← layerMom_eq_layerDev (toMat H) W1 b1 g bt W2 b2 (fun i k => hH _) hW1 hb1, ← ofMat_toMat Xout]
  congr 1
  funext i j
  show Xout (ValueIdx.ix2 i j) = _
  rw [hout, hm, hv]
  rfl

end Cert.Layers

end
-- ==== Proof.LayerGlue.lean ====
import proofs.«181289_j42949672960516_1_alg».proof.Proof.Layers

noncomputable section

namespace Cert.Layers

open Idealize.ShloMosaic Idealize.SL.Sem
open Cert.KernelIdeal Cert.Spec Cert.HostFn
open Cert.KernelIdeal.Facts₀ Cert.KernelIdeal.Facts

variable [Cert.KernelIdeal.Facts]

theorem rowOf_reshape (b : FVec Ideal S64 .f32) : rowOf (shapeCast S1x64 b shapeCasts_S64_S1x64) 0 = toRow b :=
  funext fun j => reshape_row b j

theorem rowOf_reshape2 (b : FVec Ideal S2 .f32) : rowOf (shapeCast S1x2 b shapeCasts_S2_S1x2) 0 = toRow b := by
  funext j
  show shapeCast S1x2 b shapeCasts_S2_S1x2 (ValueIdx.ix2 0 j) = b (ValueIdx.ix1 j)
  refine shapeCast_apply _ shapeCasts_S2_S1x2 (ValueIdx.ix2 (0 : Fin 1) j) (ValueIdx.ix1 j) ?_
  rw [Shape.rowMajor_val_two, Shape.rowMajor_val_one]
  show j.val = 0 * 2 + j.val
  omega

theorem layer_glue (H : FVec Ideal S100000x64 .f32)
    (a3 : FVec Ideal S3x64x64 .f32) (a4 a5 a6 : FVec Ideal S3x64 .f32) (a7 : FVec Ideal S3x64x64 .f32) (a8 : FVec Ideal S3x64 .f32) (l : Fin 3)
    (hB : FVec Ideal S100000x64 .f32) (w1B : FVec Ideal S64x64 .f32) (b1B : FVec Ideal S1x64 .f32)
    (s1 s2 : FVec Ideal S1x64 .f32)
    (hD : FVec Ideal S100000x64 .f32) (w1D : FVec Ideal S64x64 .f32) (b1D meanD varD gD btD : FVec Ideal S1x64 .f32)
    (w2D : FVec Ideal S64x64 .f32) (b2D : FVec Ideal S1x64 .f32) (Xout : FVec Ideal S100000x64 .f32)
    (ehB : hB = H) (ew1B : w1B = sliceW a3 l) (eb1B : b1B = shapeCast S1x64 (sliceB a4 l) shapeCasts_S64_S1x64)
    (es1 : ∀ j, s1 (ValueIdx.ix2 0 j) = colSum (lin (toMat hB) (toMat w1B) (rowOf b1B 0)) j)
    (es2 : ∀ j, s2 (ValueIdx.ix2 0 j) = ∑ i : Fin 100000, lin (toMat hB) (toMat w1B) (rowOf b1B 0) i j * lin (toMat hB) (toMat w1B) (rowOf b1B 0) i j)
    (emean : ∀ j, meanD (ValueIdx.ix2 0 j) = Ideal.div (s1 (ValueIdx.ix2 0 j)) nNodes)
    (evar : ∀ j, varD (ValueIdx.ix2 0 j) = Ideal.div (s2 (ValueIdx.ix2 0 j)) nNodes
      - Ideal.div (s1 (ValueIdx.ix2 0 j)) nNodes * Ideal.div (s1 (ValueIdx.ix2 0 j)) nNodes)
    (ehD : hD = H) (ew1D : w1D = sliceW a3 l) (eb1D : b1D = shapeCast S1x64 (sliceB a4 l) shapeCasts_S64_S1x64)
    (egD : gD = shapeCast S1x64 (sliceB a5 l) shapeCasts_S64_S1x64) (ebtD : btD = shapeCast S1x64 (sliceB a6 l) shapeCasts_S64_S1x64)
    (ew2D : w2D = sliceW a7 l) (eb2D : b2D = shapeCast S1x64 (sliceB a8 l) shapeCasts_S64_S1x64)
    (eout : toMat Xout = reluLin (bnRelu (lin (toMat hD) (toMat w1D) (rowOf b1D 0)) (rowOf meanD 0) (rowOf varD 0)
      (rowOf gD 0) (rowOf btD 0)) (toMat w2D) (rowOf b2D 0))
    (hH : ∀ i, IsReal (H i)) (h3 : ∀ i, IsReal (a3 i)) (h4 : ∀ i, IsReal (a4 i)) :
    Xout = ofMat (layerDev (toMat H) (toMat3 a3 l) (rowOf a4 l) (rowOf a5 l) (rowOf a6 l) (toMat3 a7 l) (rowOf a8 l)) := by
  simp only [ehB, ew1B, eb1B, rowOf_reshape, sliceW_toMat, sliceB_toRow] at es1 es2
  simp only [ehD, ew1D, eb1D, egD, ebtD, ew2D, eb2D, rowOf_reshape, sliceW_toMat, sliceB_toRow] at eout
  have hvar : ∀ j, rowOf varD 0 j = Ideal.div (s2 (ValueIdx.ix2 0 j)) nNodes - rowOf meanD 0 j * rowOf meanD 0 j := by
    intro j
    show varD (ValueIdx.ix2 0 j) = _ - meanD (ValueIdx.ix2 0 j) * meanD (ValueIdx.ix2 0 j)
    rw [evar, emean]
  have hout : ∀ i j, Xout (ValueIdx.ix2 i j) = reluLin (bnRelu (lin (toMat H) (toMat3 a3 l) (rowOf a4 l)) (rowOf meanD 0) (rowOf varD 0)
      (rowOf a5 l) (rowOf a6 l)) (toMat3 a7 l) (rowOf a8 l) i j := fun i j => congrFun (congrFun eout i) j
  exact layer_step H Xout (toMat3 a3 l) (rowOf a4 l) (rowOf a5 l) (rowOf a6 l) (toMat3 a7 l) (rowOf a8 l)
    (fun j => s1 (ValueIdx.ix2 0 j)) (fun j => s2 (ValueIdx.ix2 0 j)) (rowOf meanD 0) (rowOf varD 0)
    es1 es2 emean hvar hout hH (fun k j => h3 _) (fun j => h4 _)

theorem head_glue (P : FVec Ideal S256x64 .f32) (a9 : FVec Ideal S64x64 .f32) (a10 a11 a12 : FVec Ideal S64 .f32)
    (a13 : FVec Ideal S64x2 .f32) (a14 : FVec Ideal S2 .f32)
    (pD : FVec Ideal S256x64 .f32) (w1D : FVec Ideal S64x64 .f32) (b1D gD btD : FVec Ideal S1x64 .f32)
    (w2D : FVec Ideal S64x2 .f32) (b2D : FVec Ideal S1x2 .f32) (Xout : FVec Ideal S256x2 .f32)
    (ep : pD = P) (ew1 : w1D = a9) (eb1 : b1D = shapeCast S1x64 a10 shapeCasts_S64_S1x64)
    (eg : gD = shapeCast S1x64 a11 shapeCasts_S64_S1x64) (ebt : btD = shapeCast S1x64 a12 shapeCasts_S64_S1x64)
    (ew2 : w2D = a13) (eb2 : b2D = shapeCast S1x2 a14 shapeCasts_S2_S1x2)
    (eout : toMat Xout = headOut (toMat pD) (toMat w1D) (rowOf b1D 0) (rowOf gD 0) (rowOf btD 0) (toMat w2D) (rowOf b2D 0)) :
    Xout = kOut P a9 a10 a11 a12 a13 a14 := by
  simp only [ep, ew1, eb1, eg, ebt, ew2, eb2, rowOf_reshape, rowOf_reshape2] at eout
  unfold kOut
  rw [← eout, ofMat_toMat]

end Cert.Layers

end
-- ==== Proof.KI.ValChain.lean ====
import proofs.«181289_j42949672960516_1_alg».proof.Proof.KI.RunFold
import proofs.«181289_j42949672960516_1_alg».proof.Proof.KI.ValHost
import proofs.«181289_j42949672960516_1_alg».proof.Proof.KI.ValStats
import proofs.«181289_j42949672960516_1_alg».proof.Proof.KI.ValApply
import proofs.«181289_j42949672960516_1_alg».proof.Proof.KI.ValFinal
import proofs.«181289_j42949672960516_1_alg».proof.Proof.LayerGlue

noncomputable section

namespace Cert.KernelIdeal.HandVal

open Idealize.ShloMosaic Idealize.ShloMosaic.TcCoe Idealize.SL.Sem
open Cert.KernelIdeal Cert.KernelIdeal.Gen Cert.KernelIdeal.Hand
open Cert.Spec Cert.HostFn Cert.Layers

variable (m : (ℓ : Loc nD τ sig) → Buf (Elt Ideal) ℓ) (c : Dev nD)

abbrev A0 : FVec Ideal S100000x64 .f32 := m ((c : Thread nD τ).loc main_arg0)
abbrev A1 : (⟨S2x1000000, .i32⟩ : BufTy).Contents (Elt Ideal) := m ((c : Thread nD τ).loc main_arg1)
abbrev A2 : (⟨S100000, .i32⟩ : BufTy).Contents (Elt Ideal) := m ((c : Thread nD τ).loc main_arg2)
abbrev A3 : FVec Ideal S3x64x64 .f32 := m ((c : Thread nD τ).loc main_arg3)
abbrev A4 : FVec Ideal S3x64 .f32 := m ((c : Thread nD τ).loc main_arg4)
abbrev A5 : FVec Ideal S3x64 .f32 := m ((c : Thread nD τ).loc main_arg5)
abbrev A6 : FVec Ideal S3x64 .f32 := m ((c : Thread nD τ).loc main_arg6)
abbrev A7 : FVec Ideal S3x64x64 .f32 := m ((c : Thread nD τ).loc main_arg7)
abbrev A8 : FVec Ideal S3x64 .f32 := m ((c : Thread nD τ).loc main_arg8)
abbrev A9 : FVec Ideal S64x64 .f32 := m ((c : Thread nD τ).loc main_arg9)
abbrev A10 : FVec Ideal S64 .f32 := m ((c : Thread nD τ).loc main_arg10)
abbrev A11 : FVec Ideal S64 .f32 := m ((c : Thread nD τ).loc main_arg11)
abbrev A12 : FVec Ideal S64 .f32 := m ((c : Thread nD τ).loc main_arg12)
abbrev A13 : FVec Ideal S64x2 .f32 := m ((c : Thread nD τ).loc main_arg13)
abbrev A14 : FVec Ideal S2 .f32 := m ((c : Thread nD τ).loc main_arg14)

abbrev X1 : FVec Ideal S100000x64 .f32 := kX1 (A0 m c) (A1 m c) (A3 m c) (A4 m c) (A5 m c) (A6 m c) (A7 m c) (A8 m c)
abbrev X2 : FVec Ideal S100000x64 .f32 := kX2 (A0 m c) (A1 m c) (A3 m c) (A4 m c) (A5 m c) (A6 m c) (A7 m c) (A8 m c)
abbrev X3 : FVec Ideal S100000x64 .f32 := kX3 (A0 m c) (A1 m c) (A3 m c) (A4 m c) (A5 m c) (A6 m c) (A7 m c) (A8 m c)
abbrev PL : FVec Ideal S256x64 .f32 := kPooled (A0 m c) (A1 m c) (A2 m c) (A3 m c) (A4 m c) (A5 m c) (A6 m c) (A7 m c) (A8 m c)

abbrev TH : Type := FVec Ideal S100000x64 .f32
abbrev TM : Type := FVec Ideal S64x64 .f32
abbrev TR : Type := FVec Ideal S1x64 .f32
abbrev TI : Type := (⟨S1000000, .i32⟩ : BufTy).Contents (Elt Ideal)
abbrev asRow (b : FVec Ideal S64 .f32) : FVec Ideal S1x64 .f32 := shapeCast S1x64 b shapeCasts_S64_S1x64

-- The two edge rows are computed by the first host stretch and written by nothing after it.
theorem W1_v1 : (W1 m c (Proc.devRef .tc main_v1) : TI) = srcRow (A1 m c) := host0_v1 (W0 m c)
theorem W1_v3 : (W1 m c (Proc.devRef .tc main_v3) : TI) = dstRow (A1 m c) := host0_v3 (W0 m c)
theorem W4_v1 : (W4 m c (Proc.devRef .tc main_v1) : TI) = srcRow (A1 m c) :=
  (W4_of m c main_v1 (by decide)).trans <| (W3_of m c main_v1 (by decide)).trans <| (W2_of m c main_v1 (by decide)).trans (W1_v1 m c)
theorem W4_v3 : (W4 m c (Proc.devRef .tc main_v3) : TI) = dstRow (A1 m c) :=
  (W4_of m c main_v3 (by decide)).trans <| (W3_of m c main_v3 (by decide)).trans <| (W2_of m c main_v3 (by decide)).trans (W1_v3 m c)
theorem W8_v1 : (W8 m c (Proc.devRef .tc main_v1) : TI) = srcRow (A1 m c) :=
  (W8_of m c main_v1 (by decide)).trans <| (W7_of m c main_v1 (by decide)).trans <| (W6_of m c main_v1 (by decide)).trans <|
    (W5_of m c main_v1 (by decide)).trans (W4_v1 m c)
theorem W8_v3 : (W8 m c (Proc.devRef .tc main_v3) : TI) = dstRow (A1 m c) :=
  (W8_of m c main_v3 (by decide)).trans <| (W7_of m c main_v3 (by decide)).trans <| (W6_of m c main_v3 (by decide)).trans <|
    (W5_of m c main_v3 (by decide)).trans (W4_v3 m c)

variable (h0 : ∀ i, IsReal (A0 m c i)) (h3 : ∀ i, IsReal (A3 m c i)) (h4 : ∀ i, IsReal (A4 m c i)) (h5 : ∀ i, IsReal (A5 m c i))
  (h6 : ∀ i, IsReal (A6 m c i)) (h7 : ∀ i, IsReal (A7 m c i)) (h8 : ∀ i, IsReal (A8 m c i))
include h0 h3 h4 h5 h6 h7 h8

theorem X1_eq : (Hand.V4 m c main_v43 : TH) = X1 m c := by
  have eH : (Hand.V1 m c main_v14 : TH) = agg (A0 m c) (A1 m c) := host0_v14 (W0 m c)
  have e1 : (Hand.V2 m c main_v20_0 : TR) = (dat0 (Hand.V1 m) c).arrAt 3 cfg0.N := W2_arr m c 3
  have e2 : (Hand.V2 m c main_v20_1 : TR) = (dat0 (Hand.V1 m) c).arrAt 4 cfg0.N := W2_arr m c 4
  exact (W4_arr m c 9).trans <| layer_glue (agg (A0 m c) (A1 m c)) (A3 m c) (A4 m c) (A5 m c) (A6 m c) (A7 m c) (A8 m c) 0
    _ _ _ _ _ _ _ _ _ _ _ _ _ _ _
    eH (host0_v16 (W0 m c)) (host0_v19 (W0 m c))
    (fun j => (congrFun e1 _).trans (stats0_sum (Hand.V1 m) c j))
    (fun j => (congrFun e2 _).trans (stats0_sumsq (Hand.V1 m) c j))
    (host1_v22_apply (W2 m c)) (host1_v26_apply (W2 m c))
    ((W3_of m c main_v14 (by decide)).trans ((W2_of m c main_v14 (by decide)).trans eH))
    ((host1_v28 (W2 m c)).trans (congrArg sliceW0 (W2_arg m c main_arg3 (by decide))))
    ((host1_v39 (W2 m c)).trans (congrArg (fun x => asRow (sliceB0 x)) (W2_arg m c main_arg4 (by decide))))
    ((host1_v40 (W2 m c)).trans (congrArg (fun x => asRow (sliceB0 x)) (W2_arg m c main_arg5 (by decide))))
    ((host1_v41 (W2 m c)).trans (congrArg (fun x => asRow (sliceB0 x)) (W2_arg m c main_arg6 (by decide))))
    ((host1_v36 (W2 m c)).trans (congrArg sliceW0 (W2_arg m c main_arg7 (by decide))))
    ((host1_v42 (W2 m c)).trans (congrArg (fun x => asRow (sliceB0 x)) (W2_arg m c main_arg8 (by decide)))) (apply1_arr (Hand.V3 m) c)
    (agg_real _ _ h0) h3 h4

theorem X1_real : ∀ i, IsReal (X1 m c i) :=
  kX1_real (A1 m c) (A3 m c) (A4 m c) (A5 m c) (A6 m c) (A7 m c) (A8 m c) h3 h4 h5 h6 h7 h8 (A0 m c) h0

theorem X2_eq : (Hand.V8 m c main_v83 : TH) = X2 m c := by
  have eH : (Hand.V5 m c main_v54 : TH) = agg (X1 m c) (A1 m c) := by
    refine (host2_v54 (W4 m c)).trans ?_
    rw [agg_eq_aggRows]
    exact congr (congr (congrArg aggRows (X1_eq m c h0 h3 h4 h5 h6 h7 h8)) (W4_v1 m c)) (W4_v3 m c)
  have e1 : (Hand.V6 m c main_v60_0 : TR) = (dat2 (Hand.V5 m) c).arrAt 3 cfg2.N := W6_arr m c 3
  have e2 : (Hand.V6 m c main_v60_1 : TR) = (dat2 (Hand.V5 m) c).arrAt 4 cfg2.N := W6_arr m c 4
  exact (W8_arr m c 9).trans <| layer_glue (agg (X1 m c) (A1 m c)) (A3 m c) (A4 m c) (A5 m c) (A6 m c) (A7 m c) (A8 m c) 1
    _ _ _ _ _ _ _ _ _ _ _ _ _ _ _
    eH ((host2_v56 (W4 m c)).trans (congrArg sliceW1 (W4_arg m c main_arg3 (by decide)))) ((host2_v59 (W4 m c)).trans (congrArg (fun x => asRow (sliceB1 x)) (W4_arg m c main_arg4 (by decide))))
    (fun j => (congrFun e1 _).trans (stats2_sum (Hand.V5 m) c j))
    (fun j => (congrFun e2 _).trans (stats2_sumsq (Hand.V5 m) c j))
    (host3_v62_apply (W6 m c)) (host3_v66_apply (W6 m c))
    ((W7_of m c main_v54 (by decide)).trans ((W6_of m c main_v54 (by decide)).trans eH))
    ((host3_v68 (W6 m c)).trans (congrArg sliceW1 (W6_arg m c main_arg3 (by decide))))
    ((host3_v79 (W6 m c)).trans (congrArg (fun x => asRow (sliceB1 x)) (W6_arg m c main_arg4 (by decide))))
    ((host3_v80 (W6 m c)).trans (congrArg (fun x => asRow (sliceB1 x)) (W6_arg m c main_arg5 (by decide))))
    ((host3_v81 (W6 m c)).trans (congrArg (fun x => asRow (sliceB1 x)) (W6_arg m c main_arg6 (by decide))))
    ((host3_v76 (W6 m c)).trans (congrArg sliceW1 (W6_arg m c main_arg7 (by decide))))
    ((host3_v82 (W6 m c)).trans (congrArg (fun x => asRow (sliceB1 x)) (W6_arg m c main_arg8 (by decide)))) (apply3_arr (Hand.V7 m) c)
    (agg_real _ _ (X1_real m c h0 h3 h4 h5 h6 h7 h8)) h3 h4

theorem X2_real : ∀ i, IsReal (X2 m c i) :=
  kX2_real (A1 m c) (A3 m c) (A4 m c) (A5 m c) (A6 m c) (A7 m c) (A8 m c) h3 h4 h5 h6 h7 h8 (A0 m c) h0

theorem X3_eq : (Hand.V12 m c main_v123 : TH) = X3 m c := by
  have eH : (Hand.V9 m c main_v94 : TH) = agg (X2 m c) (A1 m c) := by
    refine (host4_v94 (W8 m c)).trans ?_
    rw [agg_eq_aggRows]
    exact congr (congr (congrArg aggRows (X2_eq m c h0 h3 h4 h5 h6 h7 h8)) (W8_v1 m c)) (W8_v3 m c)
  have e1 : (Hand.V10 m c main_v100_0 : TR) = (dat4 (Hand.V9 m) c).arrAt 3 cfg4.N := W10_arr m c 3
  have e2 : (Hand.V10 m c main_v100_1 : TR) = (dat4 (Hand.V9 m) c).arrAt 4 cfg4.N := W10_arr m c 4
  exact (W12_arr m c 9).trans <| layer_glue (agg (X2 m c) (A1 m c)) (A3 m c) (A4 m c) (A5 m c) (A6 m c) (A7 m c) (A8 m c) 2
    _ _ _ _ _ _ _ _ _ _ _ _ _ _ _
    eH ((host4_v96 (W8 m c)).trans (congrArg sliceW2 (W8_arg m c main_arg3 (by decide)))) ((host4_v99 (W8 m c)).trans (congrArg (fun x => asRow (sliceB2 x)) (W8_arg m c main_arg4 (by decide))))
    (fun j => (congrFun e1 _).trans (stats4_sum (Hand.V9 m) c j))
    (fun j => (congrFun e2 _).trans (stats4_sumsq (Hand.V9 m) c j))
    (host5_v102_apply (W10 m c)) (host5_v106_apply (W10 m c))
    ((W11_of m c main_v94 (by decide)).trans ((W10_of m c main_v94 (by decide)).trans eH))
    ((host5_v108 (W10 m c)).trans (congrArg sliceW2 (W10_arg m c main_arg3 (by decide))))
    ((host5_v119 (W10 m c)).trans (congrArg (fun x => asRow (sliceB2 x)) (W10_arg m c main_arg4 (by decide))))
    ((host5_v120 (W10 m c)).trans (congrArg (fun x => asRow (sliceB2 x)) (W10_arg m c main_arg5 (by decide))))
    ((host5_v121 (W10 m c)).trans (congrArg (fun x => asRow (sliceB2 x)) (W10_arg m c main_arg6 (by decide))))
    ((host5_v116 (W10 m c)).trans (congrArg sliceW2 (W10_arg m c main_arg7 (by decide))))
    ((host5_v122 (W10 m c)).trans (congrArg (fun x => asRow (sliceB2 x)) (W10_arg m c main_arg8 (by decide)))) (apply5_arr (Hand.V11 m) c)
    (agg_real _ _ (X2_real m c h0 h3 h4 h5 h6 h7 h8)) h3 h4

theorem X3_real : ∀ i, IsReal (X3 m c i) :=
  kX3_real (A1 m c) (A3 m c) (A4 m c) (A5 m c) (A6 m c) (A7 m c) (A8 m c) h3 h4 h5 h6 h7 h8 (A0 m c) h0

theorem pooled13 : (Hand.V13 m c main_v126 : FVec Ideal S256x64 .f32) = PL m c :=
  (host6_v126 (W12 m c)).trans (congr (congrArg pool (X3_eq m c h0 h3 h4 h5 h6 h7 h8)) (W12_arg m c main_arg2 (by decide)))

theorem kernel_pooled : (W14 m c (Proc.devRef .tc main_v126) : FVec Ideal S256x64 .f32) = PL m c :=
  (W14_of m c main_v126 (by decide)).trans (pooled13 m c h0 h3 h4 h5 h6 h7 h8)

theorem kernel_out : (W14 m c (Proc.devRef .tc main_v131) : FVec Ideal S256x2 .f32)
    = kOut (PL m c) (A9 m c) (A10 m c) (A11 m c) (A12 m c) (A13 m c) (A14 m c) :=
  (W14_arr m c 7).trans <| head_glue (PL m c) (A9 m c) (A10 m c) (A11 m c) (A12 m c) (A13 m c) (A14 m c)
    _ _ _ _ _ _ _ _
    (pooled13 m c h0 h3 h4 h5 h6 h7 h8)
    (W13_arg m c main_arg9 (by decide))
    ((host6_v127 (W12 m c)).trans (congrArg asRow (W12_arg m c main_arg10 (by decide))))
    ((host6_v128 (W12 m c)).trans (congrArg asRow (W12_arg m c main_arg11 (by decide))))
    ((host6_v129 (W12 m c)).trans (congrArg asRow (W12_arg m c main_arg12 (by decide))))
    (W13_arg m c main_arg13 (by decide))
    ((host6_v130 (W12 m c)).trans (congrArg (fun x => shapeCast S1x2 x shapeCasts_S2_S1x2) (W12_arg m c main_arg14 (by decide))))
    (final6_arr (Hand.V13 m) c)

end Cert.KernelIdeal.HandVal

end
-- ==== Proof.Ref.Ops.lean ====
import proofs.«181289_j42949672960516_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops_part0 : List (HloOp τ sig (Elt F)) :=
  [ StableHlo.unary main_arg1 main_v0 ((extractStridedSlice S1x1000000 ![0, 0] · slices_S2x1000000_S1x1000000_0_0)),
    StableHlo.reshape main_v0 main_v1 rfl shapeCasts_S1x1000000_S1000000,
    StableHlo.unary main_arg1 main_v2 ((extractStridedSlice S1x1000000 ![1, 0] · slices_S2x1000000_S1x1000000_1_0)),
    StableHlo.reshape main_v2 main_v3 rfl shapeCasts_S1x1000000_S1000000,
    StableHlo.nullary main_c (constantI S_ 32 0#32),
    StableHlo.unary main_c main_v4 (broadcastInDim S1000000 ![] bcast_S_S1000000),
    StableHlo.binary main_v1 main_v4 main_v5 (cmpi .slt),
    StableHlo.nullary main_c_0 (constantI S_ 32 100000#32),
    StableHlo.unary main_c_0 main_v6 (broadcastInDim S1000000 ![] bcast_S_S1000000),
    StableHlo.binary main_v1 main_v6 main_v7 (addi),
    StableHlo.ternary main_v5 main_v7 main_v1 main_v8 (select),
    StableHlo.unary main_v8 main_v9 (broadcastInDim S1000000x1 ![0] bcast_S1000000_S1000000x1_0),
    StableHlo.binary main_arg0 main_v9 main_v10 ((fun x i => Host.gather gather_S100000x64_S1000000x1_S1000000x64_1_0_n_n_0_1_164 x i)),
    StableHlo.nullary main_cst (constant S_ .f32 0x00000000#32),
    StableHlo.unary main_cst main_v11 (broadcastInDim S100000x64 ![] bcast_S_S100000x64),
    StableHlo.unary main_v3 main_v12 (broadcastInDim S1000000x1 ![0] bcast_S1000000_S1000000x1_0),
    StableHlo.ternary main_v11 main_v12 main_v10 main_v13 ((fun x i u => Host.scatterAdd scatter_S100000x64_S1000000x1_S1000000x64_1_0_0_1 x i u)),
    StableHlo.binary main_arg0 main_v13 main_v14 (addf),
    StableHlo.unary main_arg3 main_v15 ((extractStridedSlice S1x64x64 ![0, 0, 0] · slices_S3x64x64_S1x64x64_0_0_0)),
    StableHlo.reshape main_v15 main_v16 rfl shapeCasts_S1x64x64_S64x64,
    StableHlo.binary main_v14 main_v16 main_v17 ((fun l r => Host.dotGeneral dot_S100000x64_S64x64_S100000x64_1_0_0_1_n_n none l r)),
    StableHlo.unary main_arg4 main_v18 ((extractStridedSlice S1x64 ![0, 0] · slices_S3x64_S1x64_0_0)),
    StableHlo.reshape main_v18 main_v19 rfl shapeCasts_S1x64_S64,
    StableHlo.unary main_v19 main_v20 (broadcastInDim S1x64 ![1] bcast_S64_S1x64_1),
    StableHlo.unary main_v20 main_v21 (broadcastInDim S100000x64 ![0, 1] bcast_S1x64_S100000x64_0_1),
    StableHlo.binary main_v17 main_v21 main_v22 (addf),
    StableHlo.unary main_arg5 main_v23 ((extractStridedSlice S1x64 ![0, 0] · slices_S3x64_S1x64_0_0)),
    StableHlo.reshape main_v23 main_v24 rfl shapeCasts_S1x64_S64,
    StableHlo.unary main_arg6 main_v25 ((extractStridedSlice S1x64 ![0, 0] · slices_S3x64_S1x64_0_0)),
    StableHlo.reshape main_v25 main_v26 rfl shapeCasts_S1x64_S64,
    StableHlo.nullary main_cst_1 (constant S_ .f32 0x00000000#32),
    StableHlo.binary main_v22 main_cst_1 main_v27 ((fun x v => Host.reduceAdd x v reducesTo_S100000x64_S64_d0 h_S_)),
    StableHlo.nullary main_cst_2 (constant S_ .f32 0x47C35000#32),
    StableHlo.unary main_cst_2 main_v28 (broadcastInDim S64 ![] bcast_S_S64),
    StableHlo.binary main_v27 main_v28 main_v29 (Host.divf),
    StableHlo.nullary main_c_3 (constantI S_ 32 0#32),
    StableHlo.TRef.nullary main_call0.cst (constant S_ .f32 0x00000000#32),
    StableHlo.TRef.binary (StableHlo.TRef.of (T := ⟨S100000x64, .f32⟩) main_v22) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (StableHlo.TRef.of (T := ⟨S100000x64, .f32⟩) main_v22) main_call0.v4 main_call0.v5 subf,
    StableHlo.TRef.binary main_call0.v5 main_call0.v5 main_call0.v6 mulf,
    StableHlo.TRef.unary (StableHlo.TRef.of (T := ⟨S_, .i32⟩) main_c_3) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v29 main_v31 (broadcastInDim S1x64 ![1] bcast_S64_S1x64_1),
    StableHlo.unary main_v31 main_v32 (broadcastInDim S100000x64 ![0, 1] bcast_S1x64_S100000x64_0_1),
    StableHlo.binary main_v22 main_v32 main_v33 (subf),
    StableHlo.nullary main_cst_4 (constant S_ .f32 0x3727C5AC#32),
    StableHlo.unary main_cst_4 main_v34 (broadcastInDim S64 ![] bcast_S_S64),
    StableHlo.binary main_v30 main_v34 main_v35 (addf),
    StableHlo.unary main_v35 main_v36 (Host.rsqrt),
    StableHlo.unary main_v36 main_v37 (broadcastInDim S1x64 ![1] bcast_S64_S1x64_1),
    StableHlo.unary main_v37 main_v38 (broadcastInDim S100000x64 ![0, 1] bcast_S1x64_S100000x64_0_1),
    StableHlo.binary main_v33 main_v38 main_v39 (mulf),
    StableHlo.unary main_v24 main_v40 (broadcastInDim S1x64 ![1] bcast_S64_S1x64_1),
    StableHlo.unary main_v40 main_v41 (broadcastInDim S100000x64 ![0, 1] bcast_S1x64_S100000x64_0_1),
    StableHlo.binary main_v39 main_v41 main_v42 (mulf),
    StableHlo.unary main_v26 main_v43 (broadcastInDim S1x64 ![1] bcast_S64_S1x64_1),
    StableHlo.unary main_v43 main_v44 (broadcastInDim S100000x64 ![0, 1] bcast_S1x64_S100000x64_0_1),
    StableHlo.binary main_v42 main_v44 main_v45 (addf),
    StableHlo.TRef.nullary main_call1.cst (constant S_ .f32 0x00000000#32),
    StableHlo.TRef.unary main_call1.cst main_call1.v0 (broadcastInDim S100000x64 ![] bcast_S_S100000x64),
    StableHlo.TRef.binary (StableHlo.TRef.of (T := ⟨S100000x64, .f32⟩) main_v45) main_call1.v0 main_call1.v1 maximumf,
    StableHlo.unary main_arg7 main_v47 ((extractStridedSlice S1x64x64 ![0, 0, 0] · slices_S3x64x64_S1x64x64_0_0_0)),
    StableHlo.reshape main_v47 main_v48 rfl shapeCasts_S1x64x64_S64x64,
    StableHlo.binary main_v46 main_v48 main_v49 ((fun l r => Host.dotGeneral dot_S100000x64_S64x64_S100000x64_1_0_0_1_n_n none l r)),
    StableHlo.unary main_arg8 main_v50 ((extractStridedSlice S1x64 ![0, 0] · slices_S3x64_S1x64_0_0)),
    StableHlo.reshape main_v50 main_v51 rfl shapeCasts_S1x64_S64,
    StableHlo.unary main_v51 main_v52 (broadcastInDim S1x64 ![1] bcast_S64_S1x64_1) ]

abbrev ops_part1 : List (HloOp τ sig (Elt F)) :=
  [ StableHlo.unary main_v52 main_v53 (broadcastInDim S100000x64 ![0, 1] bcast_S1x64_S100000x64_0_1),
    StableHlo.binary main_v49 main_v53 main_v54 (addf),
    StableHlo.TRef.nullary main_call2.cst (constant S_ .f32 0x00000000#32),
    StableHlo.TRef.unary main_call2.cst main_call2.v0 (broadcastInDim S100000x64 ![] bcast_S_S100000x64),
    StableHlo.TRef.binary (StableHlo.TRef.of (T := ⟨S100000x64, .f32⟩) main_v54) main_call2.v0 main_call2.v1 maximumf,
    StableHlo.nullary main_c_5 (constantI S_ 32 0#32),
    StableHlo.unary main_c_5 main_v56 (broadcastInDim S1000000 ![] bcast_S_S1000000),
    StableHlo.binary main_v1 main_v56 main_v57 (cmpi .slt),
    StableHlo.nullary main_c_6 (constantI S_ 32 100000#32),
    StableHlo.unary main_c_6 main_v58 (broadcastInDim S1000000 ![] bcast_S_S1000000),
    StableHlo.binary main_v1 main_v58 main_v59 (addi),
    StableHlo.ternary main_v57 main_v59 main_v1 main_v60 (select),
    StableHlo.unary main_v60 main_v61 (broadcastInDim S1000000x1 ![0] bcast_S1000000_S1000000x1_0),
    StableHlo.binary main_v55 main_v61 main_v62 ((fun x i => Host.gather gather_S100000x64_S1000000x1_S1000000x64_1_0_n_n_0_1_164 x i)),
    StableHlo.nullary main_cst_7 (constant S_ .f32 0x00000000#32),
    StableHlo.unary main_cst_7 main_v63 (broadcastInDim S100000x64 ![] bcast_S_S100000x64),
    StableHlo.unary main_v3 main_v64 (broadcastInDim S1000000x1 ![0] bcast_S1000000_S1000000x1_0),
    StableHlo.ternary main_v63 main_v64 main_v62 main_v65 ((fun x i u => Host.scatterAdd scatter_S100000x64_S1000000x1_S1000000x64_1_0_0_1 x i u)),
    StableHlo.binary main_v55 main_v65 main_v66 (addf),
    StableHlo.unary main_arg3 main_v67 ((extractStridedSlice S1x64x64 ![1, 0, 0] · slices_S3x64x64_S1x64x64_1_0_0)),
    StableHlo.reshape main_v67 main_v68 rfl shapeCasts_S1x64x64_S64x64,
    StableHlo.binary main_v66 main_v68 main_v69 ((fun l r => Host.dotGeneral dot_S100000x64_S64x64_S100000x64_1_0_0_1_n_n none l r)),
    StableHlo.unary main_arg4 main_v70 ((extractStridedSlice S1x64 ![1, 0] · slices_S3x64_S1x64_1_0)),
    StableHlo.reshape main_v70 main_v71 rfl shapeCasts_S1x64_S64,
    StableHlo.unary main_v71 main_v72 (broadcastInDim S1x64 ![1] bcast_S64_S1x64_1),
    StableHlo.unary main_v72 main_v73 (broadcastInDim S100000x64 ![0, 1] bcast_S1x64_S100000x64_0_1),
    StableHlo.binary main_v69 main_v73 main_v74 (addf),
    StableHlo.unary main_arg5 main_v75 ((extractStridedSlice S1x64 ![1, 0] · slices_S3x64_S1x64_1_0)),
    StableHlo.reshape main_v75 main_v76 rfl shapeCasts_S1x64_S64,
    StableHlo.unary main_arg6 main_v77 ((extractStridedSlice S1x64 ![1, 0] · slices_S3x64_S1x64_1_0)),
    StableHlo.reshape main_v77 main_v78 rfl shapeCasts_S1x64_S64,
    StableHlo.nullary main_cst_8 (constant S_ .f32 0x00000000#32),
    StableHlo.binary main_v74 main_cst_8 main_v79 ((fun x v => Host.reduceAdd x v reducesTo_S100000x64_S64_d0 h_S_)),
    StableHlo.nullary main_cst_9 (constant S_ .f32 0x47C35000#32),
    StableHlo.unary main_cst_9 main_v80 (broadcastInDim S64 ![] bcast_S_S64),
    StableHlo.binary main_v79 main_v80 main_v81 (Host.divf),
    StableHlo.nullary main_c_10 (constantI S_ 32 0#32),
    StableHlo.TRef.nullary main_call3.cst (constant S_ .f32 0x00000000#32),
    StableHlo.TRef.binary (StableHlo.TRef.of (T := ⟨S100000x64, .f32⟩) main_v74) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (StableHlo.TRef.of (T := ⟨S100000x64, .f32⟩) main_v74) main_call3.v4 main_call3.v5 subf,
    StableHlo.TRef.binary main_call3.v5 main_call3.v5 main_call3.v6 mulf,
    StableHlo.TRef.unary (StableHlo.TRef.of (T := ⟨S_, .i32⟩) main_c_10) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v81 main_v83 (broadcastInDim S1x64 ![1] bcast_S64_S1x64_1),
    StableHlo.unary main_v83 main_v84 (broadcastInDim S100000x64 ![0, 1] bcast_S1x64_S100000x64_0_1),
    StableHlo.binary main_v74 main_v84 main_v85 (subf),
    StableHlo.nullary main_cst_11 (constant S_ .f32 0x3727C5AC#32),
    StableHlo.unary main_cst_11 main_v86 (broadcastInDim S64 ![] bcast_S_S64),
    StableHlo.binary main_v82 main_v86 main_v87 (addf),
    StableHlo.unary main_v87 main_v88 (Host.rsqrt),
    StableHlo.unary main_v88 main_v89 (broadcastInDim S1x64 ![1] bcast_S64_S1x64_1),
    StableHlo.unary main_v89 main_v90 (broadcastInDim S100000x64 ![0, 1] bcast_S1x64_S100000x64_0_1),
    StableHlo.binary main_v85 main_v90 main_v91 (mulf),
    StableHlo.unary main_v76 main_v92 (broadcastInDim S1x64 ![1] bcast_S64_S1x64_1),
    StableHlo.unary main_v92 main_v93 (broadcastInDim S100000x64 ![0, 1] bcast_S1x64_S100000x64_0_1),
    StableHlo.binary main_v91 main_v93 main_v94 (mulf),
    StableHlo.unary main_v78 main_v95 (broadcastInDim S1x64 ![1] bcast_S64_S1x64_1),
    StableHlo.unary main_v95 main_v96 (broadcastInDim S100000x64 ![0, 1] bcast_S1x64_S100000x64_0_1),
    StableHlo.binary main_v94 main_v96 main_v97 (addf),
    StableHlo.TRef.nullary main_call4.cst (constant S_ .f32 0x00000000#32),
    StableHlo.TRef.unary main_call4.cst main_call4.v0 (broadcastInDim S100000x64 ![] bcast_S_S100000x64),
    StableHlo.TRef.binary (StableHlo.TRef.of (T := ⟨S100000x64, .f32⟩) main_v97) main_call4.v0 main_call4.v1 maximumf,
    StableHlo.unary main_arg7 main_v99 ((extractStridedSlice S1x64x64 ![1, 0, 0] · slices_S3x64x64_S1x64x64_1_0_0)),
    StableHlo.reshape main_v99 main_v100 rfl shapeCasts_S1x64x64_S64x64,
    StableHlo.binary main_v98 main_v100 main_v101 ((fun l r => Host.dotGeneral dot_S100000x64_S64x64_S100000x64_1_0_0_1_n_n none l r)),
    StableHlo.unary main_arg8 main_v102 ((extractStridedSlice S1x64 ![1, 0] · slices_S3x64_S1x64_1_0)),
    StableHlo.reshape main_v102 main_v103 rfl shapeCasts_S1x64_S64,
    StableHlo.unary main_v103 main_v104 (broadcastInDim S1x64 ![1] bcast_S64_S1x64_1),
    StableHlo.unary main_v104 main_v105 (broadcastInDim S100000x64 ![0, 1] bcast_S1x64_S100000x64_0_1) ]

abbrev ops_part2 : List (HloOp τ sig (Elt F)) :=
  [ StableHlo.binary main_v101 main_v105 main_v106 (addf),
    StableHlo.TRef.nullary main_call5.cst (constant S_ .f32 0x00000000#32),
    StableHlo.TRef.unary main_call5.cst main_call5.v0 (broadcastInDim S100000x64 ![] bcast_S_S100000x64),
    StableHlo.TRef.binary (StableHlo.TRef.of (T := ⟨S100000x64, .f32⟩) main_v106) main_call5.v0 main_call5.v1 maximumf,
    StableHlo.nullary main_c_12 (constantI S_ 32 0#32),
    StableHlo.unary main_c_12 main_v108 (broadcastInDim S1000000 ![] bcast_S_S1000000),
    StableHlo.binary main_v1 main_v108 main_v109 (cmpi .slt),
    StableHlo.nullary main_c_13 (constantI S_ 32 100000#32),
    StableHlo.unary main_c_13 main_v110 (broadcastInDim S1000000 ![] bcast_S_S1000000),
    StableHlo.binary main_v1 main_v110 main_v111 (addi),
    StableHlo.ternary main_v109 main_v111 main_v1 main_v112 (select),
    StableHlo.unary main_v112 main_v113 (broadcastInDim S1000000x1 ![0] bcast_S1000000_S1000000x1_0),
    StableHlo.binary main_v107 main_v113 main_v114 ((fun x i => Host.gather gather_S100000x64_S1000000x1_S1000000x64_1_0_n_n_0_1_164 x i)),
    StableHlo.nullary main_cst_14 (constant S_ .f32 0x00000000#32),
    StableHlo.unary main_cst_14 main_v115 (broadcastInDim S100000x64 ![] bcast_S_S100000x64),
    StableHlo.unary main_v3 main_v116 (broadcastInDim S1000000x1 ![0] bcast_S1000000_S1000000x1_0),
    StableHlo.ternary main_v115 main_v116 main_v114 main_v117 ((fun x i u => Host.scatterAdd scatter_S100000x64_S1000000x1_S1000000x64_1_0_0_1 x i u)),
    StableHlo.binary main_v107 main_v117 main_v118 (addf),
    StableHlo.unary main_arg3 main_v119 ((extractStridedSlice S1x64x64 ![2, 0, 0] · slices_S3x64x64_S1x64x64_2_0_0)),
    StableHlo.reshape main_v119 main_v120 rfl shapeCasts_S1x64x64_S64x64,
    StableHlo.binary main_v118 main_v120 main_v121 ((fun l r => Host.dotGeneral dot_S100000x64_S64x64_S100000x64_1_0_0_1_n_n none l r)),
    StableHlo.unary main_arg4 main_v122 ((extractStridedSlice S1x64 ![2, 0] · slices_S3x64_S1x64_2_0)),
    StableHlo.reshape main_v122 main_v123 rfl shapeCasts_S1x64_S64,
    StableHlo.unary main_v123 main_v124 (broadcastInDim S1x64 ![1] bcast_S64_S1x64_1),
    StableHlo.unary main_v124 main_v125 (broadcastInDim S100000x64 ![0, 1] bcast_S1x64_S100000x64_0_1),
    StableHlo.binary main_v121 main_v125 main_v126 (addf),
    StableHlo.unary main_arg5 main_v127 ((extractStridedSlice S1x64 ![2, 0] · slices_S3x64_S1x64_2_0)),
    StableHlo.reshape main_v127 main_v128 rfl shapeCasts_S1x64_S64,
    StableHlo.unary main_arg6 main_v129 ((extractStridedSlice S1x64 ![2, 0] · slices_S3x64_S1x64_2_0)),
    StableHlo.reshape main_v129 main_v130 rfl shapeCasts_S1x64_S64,
    StableHlo.nullary main_cst_15 (constant S_ .f32 0x00000000#32),
    StableHlo.binary main_v126 main_cst_15 main_v131 ((fun x v => Host.reduceAdd x v reducesTo_S100000x64_S64_d0 h_S_)),
    StableHlo.nullary main_cst_16 (constant S_ .f32 0x47C35000#32),
    StableHlo.unary main_cst_16 main_v132 (broadcastInDim S64 ![] bcast_S_S64),
    StableHlo.binary main_v131 main_v132 main_v133 (Host.divf),
    StableHlo.nullary main_c_17 (constantI S_ 32 0#32),
    StableHlo.TRef.nullary main_call6.cst (constant S_ .f32 0x00000000#32),
    StableHlo.TRef.binary (StableHlo.TRef.of (T := ⟨S100000x64, .f32⟩) main_v126) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary (StableHlo.TRef.of (T := ⟨S100000x64, .f32⟩) main_v126) main_call6.v4 main_call6.v5 subf,
    StableHlo.TRef.binary main_call6.v5 main_call6.v5 main_call6.v6 mulf,
    StableHlo.TRef.unary (StableHlo.TRef.of (T := ⟨S_, .i32⟩) main_c_17) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v133 main_v135 (broadcastInDim S1x64 ![1] bcast_S64_S1x64_1),
    StableHlo.unary main_v135 main_v136 (broadcastInDim S100000x64 ![0, 1] bcast_S1x64_S100000x64_0_1),
    StableHlo.binary main_v126 main_v136 main_v137 (subf),
    StableHlo.nullary main_cst_18 (constant S_ .f32 0x3727C5AC#32),
    StableHlo.unary main_cst_18 main_v138 (broadcastInDim S64 ![] bcast_S_S64),
    StableHlo.binary main_v134 main_v138 main_v139 (addf),
    StableHlo.unary main_v139 main_v140 (Host.rsqrt),
    StableHlo.unary main_v140 main_v141 (broadcastInDim S1x64 ![1] bcast_S64_S1x64_1),
    StableHlo.unary main_v141 main_v142 (broadcastInDim S100000x64 ![0, 1] bcast_S1x64_S100000x64_0_1),
    StableHlo.binary main_v137 main_v142 main_v143 (mulf),
    StableHlo.unary main_v128 main_v144 (broadcastInDim S1x64 ![1] bcast_S64_S1x64_1),
    StableHlo.unary main_v144 main_v145 (broadcastInDim S100000x64 ![0, 1] bcast_S1x64_S100000x64_0_1),
    StableHlo.binary main_v143 main_v145 main_v146 (mulf),
    StableHlo.unary main_v130 main_v147 (broadcastInDim S1x64 ![1] bcast_S64_S1x64_1),
    StableHlo.unary main_v147 main_v148 (broadcastInDim S100000x64 ![0, 1] bcast_S1x64_S100000x64_0_1),
    StableHlo.binary main_v146 main_v148 main_v149 (addf),
    StableHlo.TRef.nullary main_call7.cst (constant S_ .f32 0x00000000#32),
    StableHlo.TRef.unary main_call7.cst main_call7.v0 (broadcastInDim S100000x64 ![] bcast_S_S100000x64),
    StableHlo.TRef.binary (StableHlo.TRef.of (T := ⟨S100000x64, .f32⟩) main_v149) main_call7.v0 main_call7.v1 maximumf,
    StableHlo.unary main_arg7 main_v151 ((extractStridedSlice S1x64x64 ![2, 0, 0] · slices_S3x64x64_S1x64x64_2_0_0)),
    StableHlo.reshape main_v151 main_v152 rfl shapeCasts_S1x64x64_S64x64,
    StableHlo.binary main_v150 main_v152 main_v153 ((fun l r => Host.dotGeneral dot_S100000x64_S64x64_S100000x64_1_0_0_1_n_n none l r)),
    StableHlo.unary main_arg8 main_v154 ((extractStridedSlice S1x64 ![2, 0] · slices_S3x64_S1x64_2_0)),
    StableHlo.reshape main_v154 main_v155 rfl shapeCasts_S1x64_S64,
    StableHlo.unary main_v155 main_v156 (broadcastInDim S1x64 ![1] bcast_S64_S1x64_1),
    StableHlo.unary main_v156 main_v157 (broadcastInDim S100000x64 ![0, 1] bcast_S1x64_S100000x64_0_1),
    StableHlo.binary main_v153 main_v157 main_v158 (addf) ]

abbrev ops_part3 : List (HloOp τ sig (Elt F)) :=
  [ StableHlo.TRef.nullary main_call8.cst (constant S_ .f32 0x00000000#32),
    StableHlo.TRef.unary main_call8.cst main_call8.v0 (broadcastInDim S100000x64 ![] bcast_S_S100000x64),
    StableHlo.TRef.binary (StableHlo.TRef.of (T := ⟨S100000x64, .f32⟩) main_v158) main_call8.v0 main_call8.v1 maximumf,
    StableHlo.nullary main_cst_19 (constant S_ .f32 0x00000000#32),
    StableHlo.unary main_cst_19 main_v160 (broadcastInDim S256x64 ![] bcast_S_S256x64),
    StableHlo.unary main_arg2 main_v161 (broadcastInDim S100000x1 ![0] bcast_S100000_S100000x1_0),
    StableHlo.ternary main_v160 main_v161 main_v159 main_v162 ((fun x i u => Host.scatterAdd scatter_S256x64_S100000x1_S100000x64_1_0_0_1 x i u)),
    StableHlo.binary main_v162 main_arg9 main_v163 ((fun l r => Host.dotGeneral dot_S256x64_S64x64_S256x64_1_0_0_1_n_n none l r)),
    StableHlo.unary main_arg10 main_v164 (broadcastInDim S1x64 ![1] bcast_S64_S1x64_1),
    StableHlo.unary main_v164 main_v165 (broadcastInDim S256x64 ![0, 1] bcast_S1x64_S256x64_0_1),
    StableHlo.binary main_v163 main_v165 main_v166 (addf),
    StableHlo.nullary main_cst_20 (constant S_ .f32 0x00000000#32),
    StableHlo.binary main_v166 main_cst_20 main_v167 ((fun x v => Host.reduceAdd x v reducesTo_S256x64_S64_d0 h_S_)),
    StableHlo.nullary main_cst_21 (constant S_ .f32 0x43800000#32),
    StableHlo.unary main_cst_21 main_v168 (broadcastInDim S64 ![] bcast_S_S64),
    StableHlo.binary main_v167 main_v168 main_v169 (Host.divf),
    StableHlo.nullary main_c_22 (constantI S_ 32 0#32),
    StableHlo.TRef.nullary main_call9.cst (constant S_ .f32 0x00000000#32),
    StableHlo.TRef.binary (StableHlo.TRef.of (T := ⟨S256x64, .f32⟩) main_v166) main_call9.cst main_call9.v0 (fun x v => Host.reduceAdd x v reducesTo_S256x64_S64_d0 h_S_),
    StableHlo.TRef.unary main_call9.v0 main_call9.v1 (broadcastInDim S1x64 ![1] bcast_S64_S1x64_1),
    StableHlo.TRef.nullary main_call9.cst_0 (constant S_ .f32 0x43800000#32),
    StableHlo.TRef.unary main_call9.cst_0 main_call9.v2 (broadcastInDim S1x64 ![] bcast_S_S1x64),
    StableHlo.TRef.binary main_call9.v1 main_call9.v2 main_call9.v3 Host.divf,
    StableHlo.TRef.unary main_call9.v3 main_call9.v4 (broadcastInDim S256x64 ![0, 1] bcast_S1x64_S256x64_0_1),
    StableHlo.TRef.binary (StableHlo.TRef.of (T := ⟨S256x64, .f32⟩) main_v166) main_call9.v4 main_call9.v5 subf,
    StableHlo.TRef.binary main_call9.v5 main_call9.v5 main_call9.v6 mulf,
    StableHlo.TRef.unary (StableHlo.TRef.of (T := ⟨S_, .i32⟩) main_c_22) main_call9.v7 (sitofp .f32),
    StableHlo.TRef.nullary main_call9.cst_1 (constant S_ .f32 0x43800000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S256x64_S64_d0 h_S_),
    StableHlo.TRef.unary main_call9.v8 main_call9.v10 (broadcastInDim S64 ![] bcast_S_S64),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S64 ![] bcast_S_S64),
    StableHlo.TRef.ternary main_call9.v12 main_call9.v11 main_call9.call0.v1 main_call9.call0.v2 (fun p a b => select (broadcastInDim S64 ![] bcast_S_S64 p) a b),
    StableHlo.unary main_v169 main_v171 (broadcastInDim S1x64 ![1] bcast_S64_S1x64_1),
    StableHlo.unary main_v171 main_v172 (broadcastInDim S256x64 ![0, 1] bcast_S1x64_S256x64_0_1),
    StableHlo.binary main_v166 main_v172 main_v173 (subf),
    StableHlo.nullary main_cst_23 (constant S_ .f32 0x3727C5AC#32),
    StableHlo.unary main_cst_23 main_v174 (broadcastInDim S64 ![] bcast_S_S64),
    StableHlo.binary main_v170 main_v174 main_v175 (addf),
    StableHlo.unary main_v175 main_v176 (Host.rsqrt),
    StableHlo.unary main_v176 main_v177 (broadcastInDim S1x64 ![1] bcast_S64_S1x64_1),
    StableHlo.unary main_v177 main_v178 (broadcastInDim S256x64 ![0, 1] bcast_S1x64_S256x64_0_1),
    StableHlo.binary main_v173 main_v178 main_v179 (mulf),
    StableHlo.unary main_arg11 main_v180 (broadcastInDim S1x64 ![1] bcast_S64_S1x64_1),
    StableHlo.unary main_v180 main_v181 (broadcastInDim S256x64 ![0, 1] bcast_S1x64_S256x64_0_1),
    StableHlo.binary main_v179 main_v181 main_v182 (mulf),
    StableHlo.unary main_arg12 main_v183 (broadcastInDim S1x64 ![1] bcast_S64_S1x64_1),
    StableHlo.unary main_v183 main_v184 (broadcastInDim S256x64 ![0, 1] bcast_S1x64_S256x64_0_1),
    StableHlo.binary main_v182 main_v184 main_v185 (addf),
    StableHlo.TRef.nullary main_call10.cst (constant S_ .f32 0x00000000#32),
    StableHlo.TRef.unary main_call10.cst main_call10.v0 (broadcastInDim S256x64 ![] bcast_S_S256x64),
    StableHlo.TRef.binary (StableHlo.TRef.of (T := ⟨S256x64, .f32⟩) main_v185) main_call10.v0 main_call10.v1 maximumf,
    StableHlo.binary main_v186 main_arg13 main_v187 ((fun l r => Host.dotGeneral dot_S256x64_S64x2_S256x2_1_0_0_1_n_n none l r)),
    StableHlo.unary main_arg14 main_v188 (broadcastInDim S1x2 ![1] bcast_S2_S1x2_1),
    StableHlo.unary main_v188 main_v189 (broadcastInDim S256x2 ![0, 1] bcast_S1x2_S256x2_0_1),
    StableHlo.binary main_v187 main_v189 main_v190 (addf) ]

set_option maxRecDepth 8192 in
theorem ops_part0_sub : (ops_part0 : List (HloOp τ sig (Elt F))).Forall fun op => op.bufs ⊆ tcRefs τ sig := by
  repeat' apply And.intro
  all_goals try dsimp only [List.Forall]
  all_goals with_reducible first | exact unary_bufs_sub .. | exact reshape_bufs_sub .. | exact nullary_bufs_sub .. | exact binary_bufs_sub .. | exact ternary_bufs_sub ..
set_option maxRecDepth 8192 in
theorem ops_part1_sub : (ops_part1 : List (HloOp τ sig (Elt F))).Forall fun op => op.bufs ⊆ tcRefs τ sig := by
  repeat' apply And.intro
  all_goals try dsimp only [List.Forall]
  all_goals with_reducible first | exact unary_bufs_sub .. | exact reshape_bufs_sub .. | exact nullary_bufs_sub .. | exact binary_bufs_sub .. | exact ternary_bufs_sub ..
set_option maxRecDepth 8192 in
theorem ops_part2_sub : (ops_part2 : List (HloOp τ sig (Elt F))).Forall fun op => op.bufs ⊆ tcRefs τ sig := by
  repeat' apply And.intro
  all_goals try dsimp only [List.Forall]
  all_goals with_reducible first | exact unary_bufs_sub .. | exact reshape_bufs_sub .. | exact nullary_bufs_sub .. | exact binary_bufs_sub .. | exact ternary_bufs_sub ..
set_option maxRecDepth 8192 in
theorem ops_part3_sub : (ops_part3 : List (HloOp τ sig (Elt F))).Forall fun op => op.bufs ⊆ tcRefs τ sig := by
  repeat' apply And.intro
  all_goals try dsimp only [List.Forall]
  all_goals with_reducible first | exact unary_bufs_sub .. | exact reshape_bufs_sub .. | exact nullary_bufs_sub .. | exact binary_bufs_sub .. | exact ternary_bufs_sub ..
theorem ops_part0_fresh : (ops_part0 : List (HloOp τ sig (Elt F))).Forall fun op => op.fresh = ∅ := by
  repeat' apply And.intro
  all_goals rfl
theorem ops_part1_fresh : (ops_part1 : List (HloOp τ sig (Elt F))).Forall fun op => op.fresh = ∅ := by
  repeat' apply And.intro
  all_goals rfl
theorem ops_part2_fresh : (ops_part2 : List (HloOp τ sig (Elt F))).Forall fun op => op.fresh = ∅ := by
  repeat' apply And.intro
  all_goals rfl
theorem ops_part3_fresh : (ops_part3 : List (HloOp τ sig (Elt F))).Forall fun op => op.fresh = ∅ := by
  repeat' apply And.intro
  all_goals rfl
abbrev ops_part0_W : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_cst_1, main_v27, main_cst_2, main_v28, main_v29, main_c_3, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v31, main_v32, main_v33, main_cst_4, main_v34, main_v35, main_v36, main_v37, main_v38, main_v39, main_v40, main_v41, main_v42, main_v43, main_v44, main_v45, main_call1.cst.ref, main_call1.v0.ref, main_call1.v1.ref, main_v47, main_v48, main_v49, main_v50, main_v51, main_v52]
abbrev ops_part1_W : List (Ref sig .tc) :=
  [main_v53, main_v54, main_call2.cst.ref, main_call2.v0.ref, main_call2.v1.ref, main_c_5, main_v56, main_v57, main_c_6, main_v58, main_v59, main_v60, main_v61, main_v62, main_cst_7, main_v63, main_v64, main_v65, main_v66, main_v67, main_v68, main_v69, main_v70, main_v71, main_v72, main_v73, main_v74, main_v75, main_v76, main_v77, main_v78, main_cst_8, main_v79, main_cst_9, main_v80, main_v81, main_c_10, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v83, main_v84, main_v85, main_cst_11, main_v86, main_v87, main_v88, main_v89, main_v90, main_v91, main_v92, main_v93, main_v94, main_v95, main_v96, main_v97, main_call4.cst.ref, main_call4.v0.ref, main_call4.v1.ref, main_v99, main_v100, main_v101, main_v102, main_v103, main_v104, main_v105]
abbrev ops_part2_W : List (Ref sig .tc) :=
  [main_v106, main_call5.cst.ref, main_call5.v0.ref, main_call5.v1.ref, main_c_12, main_v108, main_v109, main_c_13, main_v110, main_v111, main_v112, main_v113, main_v114, main_cst_14, main_v115, main_v116, main_v117, main_v118, main_v119, main_v120, main_v121, main_v122, main_v123, main_v124, main_v125, main_v126, main_v127, main_v128, main_v129, main_v130, main_cst_15, main_v131, main_cst_16, main_v132, main_v133, main_c_17, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v135, main_v136, main_v137, main_cst_18, main_v138, main_v139, main_v140, main_v141, main_v142, main_v143, main_v144, main_v145, main_v146, main_v147, main_v148, main_v149, main_call7.cst.ref, main_call7.v0.ref, main_call7.v1.ref, main_v151, main_v152, main_v153, main_v154, main_v155, main_v156, main_v157, main_v158]
abbrev ops_part3_W : List (Ref sig .tc) :=
  [main_call8.cst.ref, main_call8.v0.ref, main_call8.v1.ref, main_cst_19, main_v160, main_v161, main_v162, main_v163, main_v164, main_v165, main_v166, main_cst_20, main_v167, main_cst_21, main_v168, main_v169, main_c_22, main_call9.cst.ref, main_call9.v0.ref, main_call9.v1.ref, main_call9.cst_0.ref, main_call9.v2.ref, main_call9.v3.ref, main_call9.v4.ref, main_call9.v5.ref, main_call9.v6.ref, main_call9.v7.ref, main_call9.cst_1.ref, main_call9.v8.ref, main_call9.cst_2.ref, main_call9.v9.ref, main_call9.v10.ref, main_call9.v11.ref, main_call9.cst_3.ref, main_call9.v12.ref, main_call9.cst_4.ref, main_call9.call0.v0.ref, main_call9.call0.v1.ref, main_call9.call0.v2.ref, main_v171, main_v172, main_v173, main_cst_23, main_v174, main_v175, main_v176, main_v177, main_v178, main_v179, main_v180, main_v181, main_v182, main_v183, main_v184, main_v185, main_call10.cst.ref, main_call10.v0.ref, main_call10.v1.ref, main_v187, main_v188, main_v189, main_v190]
set_option maxRecDepth 8192 in
theorem ops_part0_writes : (ops_part0 : List (HloOp τ sig (Elt F))).Forall fun op => op.writes ⊆ (ops_part0_W.map (Proc.devRef (τ := τ) .tc)).toFinset := by
  repeat' apply And.intro
  all_goals exact Finset.singleton_subset_iff.mpr (List.mem_toFinset.mpr (List.mem_map_of_mem (by decide)))
set_option maxRecDepth 8192 in
theorem ops_part1_writes : (ops_part1 : List (HloOp τ sig (Elt F))).Forall fun op => op.writes ⊆ (ops_part1_W.map (Proc.devRef (τ := τ) .tc)).toFinset := by
  repeat' apply And.intro
  all_goals exact Finset.singleton_subset_iff.mpr (List.mem_toFinset.mpr (List.mem_map_of_mem (by decide)))
set_option maxRecDepth 8192 in
theorem ops_part2_writes : (ops_part2 : List (HloOp τ sig (Elt F))).Forall fun op => op.writes ⊆ (ops_part2_W.map (Proc.devRef (τ := τ) .tc)).toFinset := by
  repeat' apply And.intro
  all_goals exact Finset.singleton_subset_iff.mpr (List.mem_toFinset.mpr (List.mem_map_of_mem (by decide)))
set_option maxRecDepth 8192 in
theorem ops_part3_writes : (ops_part3 : List (HloOp τ sig (Elt F))).Forall fun op => op.writes ⊆ (ops_part3_W.map (Proc.devRef (τ := τ) .tc)).toFinset := by
  repeat' apply And.intro
  all_goals exact Finset.singleton_subset_iff.mpr (List.mem_toFinset.mpr (List.mem_map_of_mem (by decide)))

end Cert.ReferenceIdeal.Hand

end
-- ==== Proof.Ref.Run.lean ====
import proofs.«181289_j42949672960516_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops_part0 ++ (ops_part1 ++ (ops_part2 ++ ops_part3))

section
set_option maxRecDepth 8192
set_option maxHeartbeats 4000000
theorem main_part0_eq (c : Dev nD) : main_part0 (F := F) c = seq ops_part0 := rfl
theorem main_part1_eq (c : Dev nD) : main_part1 (F := F) c = seq ops_part1 := rfl
theorem main_part2_eq (c : Dev nD) : main_part2 (F := F) c = seq ops_part2 := rfl
theorem main_part3_eq (c : Dev nD) : main_part3 (F := F) c = seq ops_part3 := rfl
end

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops_part0_sub op h, List.forall_iff_forall_mem.mp ops_part1_sub op h,
      List.forall_iff_forall_mem.mp ops_part2_sub op h, List.forall_iff_forall_mem.mp ops_part3_sub op h]

theorem ops_fresh : ∀ op ∈ (ops : List (HloOp τ sig (Elt F))), op.fresh = ∅ := fun op h => by
  simp only [ops, List.mem_append] at h
  rcases h with h | h | h | h
  exacts [List.forall_iff_forall_mem.mp ops_part0_fresh op h, List.forall_iff_forall_mem.mp ops_part1_fresh op h,
    List.forall_iff_forall_mem.mp ops_part2_fresh op h, List.forall_iff_forall_mem.mp ops_part3_fresh op h]

theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (V : Valuation τ sig (Elt F)) :
    after ops V = after ops_part3 (after ops_part2 (after ops_part1 (after ops_part0 V))) :=
  (after_app ops_part0 _ V).trans <| (after_app ops_part1 _ _).trans (after_app ops_part2 ops_part3 _)

abbrev ops_W : List (Ref sig .tc) := ops_part0_W ++ (ops_part1_W ++ (ops_part2_W ++ ops_part3_W))

theorem after_of_not_mem (V : Valuation τ sig (Elt F)) (r : Ref sig .tc) (h : r ∉ ops_W) :
    after ops V (Proc.devRef .tc r) = V (Proc.devRef .tc r) := by
  simp only [ops_W, List.mem_append, not_or] at h
  obtain ⟨h0, h1, h2, h3⟩ := h
  exact (congrFun (after_ops V) _).trans <| (after_of_writes_sub ops_part3 _ ops_part3_writes h3).trans <|
    (after_of_writes_sub ops_part2 _ ops_part2_writes h2).trans <|
    (after_of_writes_sub ops_part1 _ ops_part1_writes h1).trans (after_of_writes_sub ops_part0 _ ops_part0_writes h0)

section
set_option maxRecDepth 8192
abbrev mainArgs : List (Ref sig .tc) := [main_arg0, main_arg1, main_arg2, main_arg3, main_arg4, main_arg5, main_arg6, main_arg7, main_arg8, main_arg9, main_arg10, main_arg11, main_arg12, main_arg13, main_arg14]
-- No operation of the program writes an argument buffer.
theorem after_arg (V : Valuation τ sig (Elt F)) (r : Ref sig .tc) (hr : r ∈ mainArgs) :
    after ops V (Proc.devRef .tc r) = V (Proc.devRef .tc r) :=
  after_of_not_mem V r ((by decide : ∀ r ∈ mainArgs, r ∉ ops_W) r hr)
end

end Cert.ReferenceIdeal.Hand

end
-- ==== Proof.Ref.Stages.lean ====
import proofs.«181289_j42949672960516_1_alg».proof.Proof.Gen.ReferenceIdeal
import proofs.«181289_j42949672960516_1_alg».proof.Proof.Spec
import proofs.«181289_j42949672960516_1_alg».proof.Proof.Math
import proofs.«181289_j42949672960516_1_alg».proof.Proof.Gen.KernelIdeal
import proofs.«181289_j42949672960516_1_alg».proof.Proof.HostFn
import proofs.«181289_j42949672960516_1_alg».proof.Proof.Layers
import Idealize.ShloMosaic.Lib.StackMember
import Idealize.ShloMosaic.Lib.IdealHost
import Idealize.ShloMosaic.PureOps.Ideal.Laws

noncomputable section

namespace Cert.ReferenceIdeal.HandVal

open Idealize.ShloMosaic Idealize.ShloMosaic.ValueIdx
open Cert.ReferenceIdeal Cert.ReferenceIdeal.Facts₀
open Cert.Spec (toMat toRow Mat Row)

section Generic
variable {m p q : ℕ} (d : DotDims ⟨2, ![m, p]⟩ ⟨2, ![p, q]⟩ ⟨2, ![m, q]⟩) (hR : (⟨2, ![m, q]⟩ : Shape).ReducesTo [0] ⟨1, ![q]⟩) (hR' : (⟨2, ![m, q]⟩ : Shape).Reduces [0] ⟨1, ![q]⟩)
  (hS : 0 < S_.numel) (hb : S_.BroadcastsInDim ⟨1, ![q]⟩ ![]) (h1 : (⟨1, ![q]⟩ : Shape).BroadcastsInDim ⟨2, ![1, q]⟩ ![1])
  (hb1 : S_.BroadcastsInDim ⟨2, ![1, q]⟩ ![]) (h2 : (⟨2, ![1, q]⟩ : Shape).BroadcastsInDim ⟨2, ![m, q]⟩ ![0, 1]) (hz : S_.BroadcastsInDim ⟨2, ![m, q]⟩ ![])

def rows (r : FVec Ideal ⟨1, ![q]⟩ .f32) : FVec Ideal ⟨2, ![m, q]⟩ .f32 :=
  broadcastInDim ⟨2, ![m, q]⟩ ![0, 1] h2 (broadcastInDim ⟨2, ![1, q]⟩ ![1] h1 r)

theorem oneRow_apply {α : Type} (r : (⟨1, ![q]⟩ : Shape).Idx → α) (j : Fin q) :
    broadcastInDim ⟨2, ![1, q]⟩ ![1] h1 r (ix2 (0 : Fin 1) j) = r (ix1 j) := by
  refine broadcastInDim_apply ![1] h1 r (ix2 (0 : Fin 1) j) (ix1 j) fun a => ?_
  match a with
  | ⟨0, _⟩ =>
    show j.val = if q = 1 then 0 else j.val
    split_ifs with hq
    · have := j.isLt; omega
    · rfl

theorem rows_apply (r : FVec Ideal ⟨1, ![q]⟩ .f32) (i : Fin m) (j : Fin q) :
    rows h1 h2 r (ix2 i j) = r (ix1 j) := by
  unfold rows
  rw [broadcastInDim_oneRow_apply h2 _ i j, oneRow_apply h1 r j]

def affine (x : FVec Ideal ⟨2, ![m, p]⟩ .f32) (W : FVec Ideal ⟨2, ![p, q]⟩ .f32) (b : FVec Ideal ⟨1, ![q]⟩ .f32) :
    FVec Ideal ⟨2, ![m, q]⟩ .f32 :=
  addf (Host.dotGeneral d none x W) (rows h1 h2 b)

theorem affine_apply (x : FVec Ideal ⟨2, ![m, p]⟩ .f32) (W : FVec Ideal ⟨2, ![p, q]⟩ .f32) (b : FVec Ideal ⟨1, ![q]⟩ .f32)
    (i : Fin m) (j : Fin q) :
    affine (DotDims.plain m p q) h1 h2 x W b (ix2 i j) = Cert.Spec.lin (toMat x) (toMat W) (toRow b) i j := by
  unfold affine
  rw [addf_apply, StackMember.dotGeneral_plain_apply, rows_apply]
  rfl

def colMean (nb : BitVec 32)
    (u : FVec Ideal ⟨2, ![m, q]⟩ .f32) : FVec Ideal ⟨1, ![q]⟩ .f32 :=
  Host.divf (Host.reduceAdd u (constant (F := Ideal) S_ .f32 0x00000000#32) hR hS)
    (broadcastInDim ⟨1, ![q]⟩ ![] hb (constant (F := Ideal) S_ .f32 nb))

include hR' in
theorem colSum_apply (u : FVec Ideal ⟨2, ![m, q]⟩ .f32) (j : Fin q) :
    Host.reduceAdd u (constant (F := Ideal) S_ .f32 0x00000000#32) hR hS (ix1 j) = ∑ i : Fin m, u (ix2 i j) := by
  rw [hostReduceAdd_apply, Ideal.hostReduceAdd_single hR hR']
  show Ideal.ofBits .f32 0x00000000#32 + _ = _
  rw [Ideal.ofBits_zero_f32, zero_add]
  refine Finset.sum_congr rfl fun k _ => congrArg u (funext fun a => Fin.ext ?_)
  match a with
  | ⟨0, _⟩ => rfl
  | ⟨1, _⟩ => rfl

include hR' in
theorem colMean_apply (nb : BitVec 32)
    (u : FVec Ideal ⟨2, ![m, q]⟩ .f32) (j : Fin q) :
    colMean hR hS hb nb u (ix1 j) = Cert.Spec.meanC (Ideal.ofBits .f32 nb) (toMat u) j := by
  unfold colMean
  rw [hostDivf_apply, colSum_apply hR hR' hS, broadcastInDim_scalar_apply]
  rfl

def colVar (nb : BitVec 32)
    (u : FVec Ideal ⟨2, ![m, q]⟩ .f32) : FVec Ideal ⟨1, ![q]⟩ .f32 :=
  select
    (broadcastInDim ⟨1, ![q]⟩ ![] hb
      (cmpf .ogt (subf (constant (F := Ideal) S_ .f32 nb) (sitofp .f32 (constantI S_ 32 0#32)))
        (constant (F := Ideal) S_ .f32 0x00000000#32)))
    (Host.divf
      (Host.reduceAdd
        (mulf
          (subf u (broadcastInDim ⟨2, ![m, q]⟩ ![0, 1] h2
            (Host.divf
              (broadcastInDim ⟨2, ![1, q]⟩ ![1] h1 (Host.reduceAdd u (constant (F := Ideal) S_ .f32 0x00000000#32) hR hS))
              (broadcastInDim ⟨2, ![1, q]⟩ ![] hb1 (constant (F := Ideal) S_ .f32 nb)))))
          (subf u (broadcastInDim ⟨2, ![m, q]⟩ ![0, 1] h2
            (Host.divf
              (broadcastInDim ⟨2, ![1, q]⟩ ![1] h1 (Host.reduceAdd u (constant (F := Ideal) S_ .f32 0x00000000#32) hR hS))
              (broadcastInDim ⟨2, ![1, q]⟩ ![] hb1 (constant (F := Ideal) S_ .f32 nb))))))
        (constant (F := Ideal) S_ .f32 0x00000000#32) hR hS)
      (broadcastInDim ⟨1, ![q]⟩ ![] hb
        (subf (constant (F := Ideal) S_ .f32 nb) (sitofp .f32 (constantI S_ 32 0#32)))))
    (broadcastInDim ⟨1, ![q]⟩ ![] hb (id (constant (F := Ideal) S_ .f32 0x7FC00000#32)))

theorem count_sub_zero (nb : BitVec 32) :
    subf (constant (F := Ideal) S_ .f32 nb) (sitofp .f32 (constantI S_ 32 0#32)) ix0 = Ideal.ofBits .f32 nb := by
  show Ideal.ofBits .f32 nb - (((0#32 : BitVec 32).toInt : ℝ) : EReal) = _
  simp

include hR' in
theorem innerMean_apply (nb : BitVec 32)
    (u : FVec Ideal ⟨2, ![m, q]⟩ .f32) (i : Fin m) (j : Fin q) :
    broadcastInDim ⟨2, ![m, q]⟩ ![0, 1] h2
        (Host.divf
          (broadcastInDim ⟨2, ![1, q]⟩ ![1] h1 (Host.reduceAdd u (constant (F := Ideal) S_ .f32 0x00000000#32) hR hS))
          (broadcastInDim ⟨2, ![1, q]⟩ ![] hb1 (constant (F := Ideal) S_ .f32 nb))) (ix2 i j)
      = Cert.Spec.meanC (Ideal.ofBits .f32 nb) (toMat u) j := by
  rw [broadcastInDim_oneRow_apply h2 _ i j, hostDivf_apply, oneRow_apply h1 _ j, colSum_apply hR hR' hS,
    broadcastInDim_scalar_apply]
  rfl

include hR' in
theorem colVar_apply (nb : BitVec 32)
    (hpos : 0 < Ideal.ofBits .f32 nb)
    (u : FVec Ideal ⟨2, ![m, q]⟩ .f32) (j : Fin q) :
    colVar hR hS hb h1 hb1 h2 nb u (ix1 j) = Cert.Spec.varDev (Ideal.ofBits .f32 nb) (toMat u) j := by
  unfold colVar
  rw [select_apply, broadcastInDim_scalar_apply, cmpf_apply, count_sub_zero]
  have hc : FloatOps.cmpf (F := Ideal) (φ := .f32) .ogt (Ideal.ofBits .f32 nb) (constant (F := Ideal) S_ .f32 0x00000000#32 ix0) = 1#1 := by
    show Ideal.cmp .ogt (Ideal.ofBits .f32 nb) (Ideal.ofBits .f32 0x00000000#32) = 1#1
    rw [Ideal.ofBits_zero_f32]
    simp [Ideal.cmp, hpos]
  rw [hc, select_one, hostDivf_apply, colSum_apply hR hR' hS, broadcastInDim_scalar_apply, count_sub_zero]
  unfold Cert.Spec.varDev
  refine congrArg (Ideal.div · _) (Finset.sum_congr rfl fun i _ => ?_)
  rw [mulf_apply, subf_apply, innerMean_apply hR hR' hS h1 hb1 h2 nb u i j]
  rfl

def normalize (h1 : (⟨1, ![q]⟩ : Shape).BroadcastsInDim ⟨2, ![1, q]⟩ ![1])
    (h2 : (⟨2, ![1, q]⟩ : Shape).BroadcastsInDim ⟨2, ![m, q]⟩ ![0, 1])
    (hb : S_.BroadcastsInDim ⟨1, ![q]⟩ ![])
    (u : FVec Ideal ⟨2, ![m, q]⟩ .f32) (mu var g bt : FVec Ideal ⟨1, ![q]⟩ .f32) : FVec Ideal ⟨2, ![m, q]⟩ .f32 :=
  addf
    (mulf
      (mulf (subf u (rows h1 h2 mu))
        (rows h1 h2 (Host.rsqrt (addf var (broadcastInDim ⟨1, ![q]⟩ ![] hb (constant (F := Ideal) S_ .f32 0x3727C5AC#32))))))
      (rows h1 h2 g))
    (rows h1 h2 bt)

def clamp (x : FVec Ideal ⟨2, ![m, q]⟩ .f32) : FVec Ideal ⟨2, ![m, q]⟩ .f32 :=
  maximumf x (broadcastInDim ⟨2, ![m, q]⟩ ![] hz (constant (F := Ideal) S_ .f32 0x00000000#32))

theorem clamp_apply (x : FVec Ideal ⟨2, ![m, q]⟩ .f32) (idx : (⟨2, ![m, q]⟩ : Shape).Idx) :
    clamp hz x idx = max (x idx) Cert.Spec.zeroF := by
  unfold clamp
  rw [maximumf_apply, broadcastInDim_scalar_apply]
  rfl

theorem clamp_normalize_apply (u : FVec Ideal ⟨2, ![m, q]⟩ .f32) (mu var g bt : FVec Ideal ⟨1, ![q]⟩ .f32) (i : Fin m) (j : Fin q) :
    clamp hz (normalize h1 h2 hb u mu var g bt) (ix2 i j)
      = Cert.Spec.bnRelu (toMat u) (toRow mu) (toRow var) (toRow g) (toRow bt) i j := by
  rw [clamp_apply]
  unfold normalize
  rw [addf_apply, mulf_apply, mulf_apply, subf_apply, rows_apply, rows_apply, rows_apply, rows_apply]
  show max ((u (ix2 i j) - mu (ix1 j)) * Ideal.rsqrt (var (ix1 j) + _) * g (ix1 j) + bt (ix1 j)) _ = _
  rw [broadcastInDim_scalar_apply]
  rfl

theorem affine_toMat (x : FVec Ideal ⟨2, ![m, p]⟩ .f32) (W : FVec Ideal ⟨2, ![p, q]⟩ .f32) (b : FVec Ideal ⟨1, ![q]⟩ .f32) :
    toMat (affine (DotDims.plain m p q) h1 h2 x W b) = Cert.Spec.lin (toMat x) (toMat W) (toRow b) :=
  funext fun i => funext fun j => affine_apply h1 h2 x W b i j

include hR' in
theorem colMean_toRow (nb : BitVec 32) (u : FVec Ideal ⟨2, ![m, q]⟩ .f32) :
    toRow (colMean hR hS hb nb u) = Cert.Spec.meanC (Ideal.ofBits .f32 nb) (toMat u) :=
  funext fun j => colMean_apply hR hR' hS hb nb u j

include hR' in
theorem colVar_toRow (nb : BitVec 32)
    (hpos : 0 < Ideal.ofBits .f32 nb) (u : FVec Ideal ⟨2, ![m, q]⟩ .f32) :
    toRow (colVar hR hS hb h1 hb1 h2 nb u) = Cert.Spec.varDev (Ideal.ofBits .f32 nb) (toMat u) :=
  funext fun j => colVar_apply hR hR' hS hb h1 hb1 h2 nb hpos u j

theorem clamp_normalize_toMat (u : FVec Ideal ⟨2, ![m, q]⟩ .f32) (mu var g bt : FVec Ideal ⟨1, ![q]⟩ .f32) :
    toMat (clamp hz (normalize h1 h2 hb u mu var g bt))
      = Cert.Spec.bnRelu (toMat u) (toRow mu) (toRow var) (toRow g) (toRow bt) :=
  funext fun i => funext fun j => clamp_normalize_apply hb h1 h2 hz u mu var g bt i j

end Generic

theorem nNodes_pos : 0 < Ideal.ofBits .f32 0x47C35000#32 := by
  show 0 < Cert.Spec.nNodes
  rw [Cert.Spec.nNodes_eq]
  exact EReal.coe_pos.mpr (by norm_num)

theorem nGraphs_pos : 0 < Ideal.ofBits .f32 0x43800000#32 := by
  show 0 < Cert.Spec.nGraphs
  rw [Cert.Spec.nGraphs_eq]
  exact EReal.coe_pos.mpr (by norm_num)

section Layer
variable (h : FVec Ideal S100000x64 .f32) (W1 : FVec Ideal S64x64 .f32) (b1 g bt : FVec Ideal S64 .f32) (W2 : FVec Ideal S64x64 .f32) (b2 : FVec Ideal S64 .f32)

def layerU :
    FVec Ideal S100000x64 .f32 :=
  affine dot_S100000x64_S64x64_S100000x64_1_0_0_1_n_n bcast_S64_S1x64_1 bcast_S1x64_S100000x64_0_1 h W1 b1

def refLayer : FVec Ideal S100000x64 .f32 :=
  clamp bcast_S_S100000x64
    (affine dot_S100000x64_S64x64_S100000x64_1_0_0_1_n_n bcast_S64_S1x64_1 bcast_S1x64_S100000x64_0_1
      (clamp bcast_S_S100000x64
        (normalize bcast_S64_S1x64_1 bcast_S1x64_S100000x64_0_1 bcast_S_S64 (layerU h W1 b1)
          (colMean reducesTo_S100000x64_S64_d0 h_S_ bcast_S_S64 0x47C35000#32 (layerU h W1 b1))
          (colVar reducesTo_S100000x64_S64_d0 h_S_ bcast_S_S64 bcast_S64_S1x64_1 bcast_S_S1x64
            bcast_S1x64_S100000x64_0_1 0x47C35000#32 (layerU h W1 b1))
          g bt))
      W2 b2)

theorem dot_layer_eq : dot_S100000x64_S64x64_S100000x64_1_0_0_1_n_n = DotDims.plain 100000 64 64 := rfl

theorem refLayer_toMat :
    toMat (refLayer h W1 b1 g bt W2 b2)
      = Cert.Spec.layerDev (toMat h) (toMat W1) (toRow b1) (toRow g) (toRow bt) (toMat W2) (toRow b2) := by
  have hR' : S100000x64.Reduces [0] S64 := by decide
  funext i j
  show refLayer h W1 b1 g bt W2 b2 (ix2 i j) = _
  unfold refLayer layerU Cert.Spec.layerDev Cert.Spec.reluLin
  rw [dot_layer_eq, clamp_apply, affine_apply, clamp_normalize_toMat,
    colMean_toRow _ hR', colVar_toRow _ hR' _ _ _ _ _ _ nNodes_pos, affine_toMat]

end Layer

section Head
variable (P : FVec Ideal S256x64 .f32) (W1 : FVec Ideal S64x64 .f32) (b1 g bt : FVec Ideal S64 .f32) (W2 : FVec Ideal S64x2 .f32) (b2 : FVec Ideal S2 .f32)

def headU :
    FVec Ideal S256x64 .f32 :=
  affine dot_S256x64_S64x64_S256x64_1_0_0_1_n_n bcast_S64_S1x64_1 bcast_S1x64_S256x64_0_1 P W1 b1

def refHead : FVec Ideal S256x2 .f32 :=
  affine dot_S256x64_S64x2_S256x2_1_0_0_1_n_n bcast_S2_S1x2_1 bcast_S1x2_S256x2_0_1
    (clamp bcast_S_S256x64
      (normalize bcast_S64_S1x64_1 bcast_S1x64_S256x64_0_1 bcast_S_S64 (headU P W1 b1)
        (colMean reducesTo_S256x64_S64_d0 h_S_ bcast_S_S64 0x43800000#32 (headU P W1 b1))
        (colVar reducesTo_S256x64_S64_d0 h_S_ bcast_S_S64 bcast_S64_S1x64_1 bcast_S_S1x64
          bcast_S1x64_S256x64_0_1 0x43800000#32 (headU P W1 b1))
        g bt))
    W2 b2

theorem dot_head1_eq : dot_S256x64_S64x64_S256x64_1_0_0_1_n_n = DotDims.plain 256 64 64 := rfl
theorem dot_head2_eq : dot_S256x64_S64x2_S256x2_1_0_0_1_n_n = DotDims.plain 256 64 2 := rfl

theorem refHead_toMat :
    toMat (refHead P W1 b1 g bt W2 b2)
      = Cert.Spec.headOut (toMat P) (toMat W1) (toRow b1) (toRow g) (toRow bt) (toMat W2) (toRow b2) := by
  have hR' : S256x64.Reduces [0] S64 := by decide
  unfold refHead headU Cert.Spec.headOut
  rw [dot_head1_eq, dot_head2_eq, affine_toMat, clamp_normalize_toMat,
    colMean_toRow _ hR', colVar_toRow _ hR' _ _ _ _ _ _ nGraphs_pos, affine_toMat]

end Head

variable (a0 : FVec Ideal S100000x64 .f32) (a1 : (⟨S2x1000000, .i32⟩ : BufTy).Contents (Elt Ideal)) (a2 : (⟨S100000, .i32⟩ : BufTy).Contents (Elt Ideal))
  (a3 : FVec Ideal S3x64x64 .f32) (a4 a5 a6 : FVec Ideal S3x64 .f32) (a7 : FVec Ideal S3x64x64 .f32) (a8 : FVec Ideal S3x64 .f32) (a9 : FVec Ideal S64x64 .f32)
  (a10 a11 a12 : FVec Ideal S64 .f32) (a13 : FVec Ideal S64x2 .f32) (a14 : FVec Ideal S2 .f32)

def refStep (l : Fin 3) (x : FVec Ideal S100000x64 .f32) : FVec Ideal S100000x64 .f32 :=
  refLayer (Cert.HostFn.agg x a1) (Cert.HostFn.sliceW a3 l) (Cert.HostFn.sliceB a4 l) (Cert.HostFn.sliceB a5 l)
    (Cert.HostFn.sliceB a6 l) (Cert.HostFn.sliceW a7 l) (Cert.HostFn.sliceB a8 l)

def refNodes : FVec Ideal S100000x64 .f32 :=
  refStep a1 a3 a4 a5 a6 a7 a8 2 (refStep a1 a3 a4 a5 a6 a7 a8 1 (refStep a1 a3 a4 a5 a6 a7 a8 0 a0))

def refPooled : FVec Ideal S256x64 .f32 :=
  Cert.HostFn.pool (refNodes a0 a1 a3 a4 a5 a6 a7 a8) a2

def refOut : FVec Ideal S256x2 .f32 :=
  refHead (refPooled a0 a1 a2 a3 a4 a5 a6 a7 a8) a9 a10 a11 a12 a13 a14

theorem refStep_eq_layerArr (l : Fin 3) (x : FVec Ideal S100000x64 .f32) :
    refStep a1 a3 a4 a5 a6 a7 a8 l x = Cert.Layers.layerArr x a1 a3 a4 a5 a6 a7 a8 l :=
  by
  unfold refStep
  refine (Cert.Spec.ofMat_toMat _).symm.trans ?_
  rw [refLayer_toMat, Cert.HostFn.sliceW_toMat, Cert.HostFn.sliceW_toMat, Cert.HostFn.sliceB_toRow,
    Cert.HostFn.sliceB_toRow, Cert.HostFn.sliceB_toRow, Cert.HostFn.sliceB_toRow]
  rfl

theorem refHead_eq_kOut (P : FVec Ideal S256x64 .f32)
      :
    refHead P a9 a10 a11 a12 a13 a14 = Cert.Layers.kOut P a9 a10 a11 a12 a13 a14 := by
  refine (Cert.Spec.ofMat_toMat _).symm.trans ?_
  rw [refHead_toMat]
  rfl

theorem refNodes_eq_kX3 :
    refNodes a0 a1 a3 a4 a5 a6 a7 a8 = Cert.Layers.kX3 a0 a1 a3 a4 a5 a6 a7 a8 := by
  unfold refNodes Cert.Layers.kX3 Cert.Layers.kX2 Cert.Layers.kX1
  rw [refStep_eq_layerArr, refStep_eq_layerArr, refStep_eq_layerArr]

theorem refPooled_eq_kPooled :
    refPooled a0 a1 a2 a3 a4 a5 a6 a7 a8 = Cert.Layers.kPooled a0 a1 a2 a3 a4 a5 a6 a7 a8 := by
  unfold refPooled Cert.Layers.kPooled
  rw [refNodes_eq_kX3]

theorem refOut_eq_kOut :
    refOut a0 a1 a2 a3 a4 a5 a6 a7 a8 a9 a10 a11 a12 a13 a14
      = Cert.Layers.kOut (Cert.Layers.kPooled a0 a1 a2 a3 a4 a5 a6 a7 a8) a9 a10 a11 a12 a13 a14 := by
  unfold refOut
  rw [refHead_eq_kOut, refPooled_eq_kPooled]

end Cert.ReferenceIdeal.HandVal

end
-- ==== Proof.Ref.After.lean ====
import proofs.«181289_j42949672960516_1_alg».proof.Proof.Ref.Run
import proofs.«181289_j42949672960516_1_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.HandVal

def layerZ (h : FVec Ideal S100000x64 .f32) (W1 : FVec Ideal S64x64 .f32) (b1 g bt : FVec Ideal S64 .f32) :
    FVec Ideal S100000x64 .f32 :=
  clamp bcast_S_S100000x64
    (normalize bcast_S64_S1x64_1 bcast_S1x64_S100000x64_0_1 bcast_S_S64 (layerU h W1 b1)
      (colMean reducesTo_S100000x64_S64_d0 h_S_ bcast_S_S64 0x47C35000#32 (layerU h W1 b1))
      (colVar reducesTo_S100000x64_S64_d0 h_S_ bcast_S_S64 bcast_S64_S1x64_1 bcast_S_S1x64
        bcast_S1x64_S100000x64_0_1 0x47C35000#32 (layerU h W1 b1))
      g bt)

theorem refLayer_eq (h : FVec Ideal S100000x64 .f32) (W1 : FVec Ideal S64x64 .f32) (b1 g bt : FVec Ideal S64 .f32)
    (W2 : FVec Ideal S64x64 .f32) (b2 : FVec Ideal S64 .f32) :
    refLayer h W1 b1 g bt W2 b2
      = clamp bcast_S_S100000x64
          (addf (Host.dotGeneral dot_S100000x64_S64x64_S100000x64_1_0_0_1_n_n none (layerZ h W1 b1 g bt) W2)
            (broadcastInDim S100000x64 ![0, 1] bcast_S1x64_S100000x64_0_1 (broadcastInDim S1x64 ![1] bcast_S64_S1x64_1 b2))) := rfl

section
set_option maxRecDepth 8192
section
set_option maxHeartbeats 4000000
theorem w0_v1 (W : Valuation τ sig (Elt Ideal)) :
    after ops_part0 W (Proc.devRef .tc main_v1) = Cert.HostFn.srcRow (W (Proc.devRef .tc main_arg1)) := by
  after_results_simp <;> rfl

theorem w0_v3 (W : Valuation τ sig (Elt Ideal)) :
    after ops_part0 W (Proc.devRef .tc main_v3) = Cert.HostFn.dstRow (W (Proc.devRef .tc main_arg1)) := by
  after_results_simp <;> rfl

theorem w0_v52 (W : Valuation τ sig (Elt Ideal)) :
    after ops_part0 W (Proc.devRef .tc main_v52) = broadcastInDim S1x64 ![1] bcast_S64_S1x64_1 (Cert.HostFn.sliceB (W (Proc.devRef .tc main_arg8)) 0) := by
  after_results_simp <;> rfl

theorem w1_v105 (W : Valuation τ sig (Elt Ideal)) :
    after ops_part1 W (Proc.devRef .tc main_v105)
      = broadcastInDim S100000x64 ![0, 1] bcast_S1x64_S100000x64_0_1 (broadcastInDim S1x64 ![1] bcast_S64_S1x64_1 (Cert.HostFn.sliceB (W (Proc.devRef .tc main_arg8)) 1)) := by
  after_results_simp <;> rfl

theorem w3_v162 (W : Valuation τ sig (Elt Ideal)) :
    after ops_part3 W (Proc.devRef .tc main_v162)
      = Cert.HostFn.pool (clamp bcast_S_S100000x64 (W (Proc.devRef .tc main_v158))) (W (Proc.devRef .tc main_arg2)) := by
  after_results_simp <;> rfl
end
section
set_option maxHeartbeats 40000000
theorem w0_v49 (W : Valuation τ sig (Elt Ideal)) :
    after ops_part0 W (Proc.devRef .tc main_v49)
      = Host.dotGeneral dot_S100000x64_S64x64_S100000x64_1_0_0_1_n_n none
          (layerZ (Cert.HostFn.agg (W (Proc.devRef .tc main_arg0)) (W (Proc.devRef .tc main_arg1)))
            (Cert.HostFn.sliceW (W (Proc.devRef .tc main_arg3)) 0) (Cert.HostFn.sliceB (W (Proc.devRef .tc main_arg4)) 0) (Cert.HostFn.sliceB (W (Proc.devRef .tc main_arg5)) 0) (Cert.HostFn.sliceB (W (Proc.devRef .tc main_arg6)) 0))
          (Cert.HostFn.sliceW (W (Proc.devRef .tc main_arg7)) 0) := by
  after_results_simp <;> rfl

theorem w1_v101 (W : Valuation τ sig (Elt Ideal)) :
    after ops_part1 W (Proc.devRef .tc main_v101)
      = Host.dotGeneral dot_S100000x64_S64x64_S100000x64_1_0_0_1_n_n none
          (layerZ (Cert.HostFn.aggRows (clamp bcast_S_S100000x64 (addf (W (Proc.devRef .tc main_v49)) (broadcastInDim S100000x64 ![0, 1] bcast_S1x64_S100000x64_0_1 (W (Proc.devRef .tc main_v52))))) (W (Proc.devRef .tc main_v1)) (W (Proc.devRef .tc main_v3)))
            (Cert.HostFn.sliceW (W (Proc.devRef .tc main_arg3)) 1) (Cert.HostFn.sliceB (W (Proc.devRef .tc main_arg4)) 1) (Cert.HostFn.sliceB (W (Proc.devRef .tc main_arg5)) 1) (Cert.HostFn.sliceB (W (Proc.devRef .tc main_arg6)) 1))
          (Cert.HostFn.sliceW (W (Proc.devRef .tc main_arg7)) 1) := by
  after_results_simp <;> rfl

theorem w2_v158 (W : Valuation τ sig (Elt Ideal)) :
    after ops_part2 W (Proc.devRef .tc main_v158)
      = addf (Host.dotGeneral dot_S100000x64_S64x64_S100000x64_1_0_0_1_n_n none
            (layerZ (Cert.HostFn.aggRows (clamp bcast_S_S100000x64 (addf (W (Proc.devRef .tc main_v101)) (W (Proc.devRef .tc main_v105)))) (W (Proc.devRef .tc main_v1)) (W (Proc.devRef .tc main_v3)))
              (Cert.HostFn.sliceW (W (Proc.devRef .tc main_arg3)) 2) (Cert.HostFn.sliceB (W (Proc.devRef .tc main_arg4)) 2) (Cert.HostFn.sliceB (W (Proc.devRef .tc main_arg5)) 2) (Cert.HostFn.sliceB (W (Proc.devRef .tc main_arg6)) 2))
            (Cert.HostFn.sliceW (W (Proc.devRef .tc main_arg7)) 2))
          (broadcastInDim S100000x64 ![0, 1] bcast_S1x64_S100000x64_0_1 (broadcastInDim S1x64 ![1] bcast_S64_S1x64_1 (Cert.HostFn.sliceB (W (Proc.devRef .tc main_arg8)) 2))) := by
  after_results_simp <;> rfl

theorem w3_v190 (W : Valuation τ sig (Elt Ideal)) :
    after ops_part3 W (Proc.devRef .tc main_v190)
      = refHead (Cert.HostFn.pool (clamp bcast_S_S100000x64 (W (Proc.devRef .tc main_v158))) (W (Proc.devRef .tc main_arg2)))
          (W (Proc.devRef .tc main_arg9)) (W (Proc.devRef .tc main_arg10)) (W (Proc.devRef .tc main_arg11)) (W (Proc.devRef .tc main_arg12)) (W (Proc.devRef .tc main_arg13)) (W (Proc.devRef .tc main_arg14)) := by
  after_results_simp <;> rfl
end
end

def win0 (W : Valuation τ sig (Elt Ideal)) : Valuation τ sig (Elt Ideal) := after ops_part0 W
def win1 (W : Valuation τ sig (Elt Ideal)) : Valuation τ sig (Elt Ideal) := after ops_part1 W
def win2 (W : Valuation τ sig (Elt Ideal)) : Valuation τ sig (Elt Ideal) := after ops_part2 W
def win3 (W : Valuation τ sig (Elt Ideal)) : Valuation τ sig (Elt Ideal) := after ops_part3 W

theorem after_wins (V : Valuation τ sig (Elt Ideal)) : after ops V = win3 (win2 (win1 (win0 V))) := after_ops V

theorem win0_keep (W : Valuation τ sig (Elt Ideal)) (r : Ref sig .tc) (h : r ∉ ops_part0_W) : win0 W (Proc.devRef .tc r) = W (Proc.devRef .tc r) :=
  after_of_writes_sub ops_part0 W ops_part0_writes h
theorem win1_keep (W : Valuation τ sig (Elt Ideal)) (r : Ref sig .tc) (h : r ∉ ops_part1_W) : win1 W (Proc.devRef .tc r) = W (Proc.devRef .tc r) :=
  after_of_writes_sub ops_part1 W ops_part1_writes h
theorem win2_keep (W : Valuation τ sig (Elt Ideal)) (r : Ref sig .tc) (h : r ∉ ops_part2_W) : win2 W (Proc.devRef .tc r) = W (Proc.devRef .tc r) :=
  after_of_writes_sub ops_part2 W ops_part2_writes h

section
set_option maxRecDepth 8192
-- No operation of the first three parts writes an argument buffer.
theorem wins_arg (V : Valuation τ sig (Elt Ideal)) (r : Ref sig .tc) (hr : r ∈ mainArgs) :
    win2 (win1 (win0 V)) (Proc.devRef .tc r) = V (Proc.devRef .tc r) :=
  (win2_keep _ r ((by decide : ∀ r ∈ mainArgs, r ∉ ops_part2_W) r hr)).trans <|
    (win1_keep _ r ((by decide : ∀ r ∈ mainArgs, r ∉ ops_part1_W) r hr)).trans (win0_keep _ r ((by decide : ∀ r ∈ mainArgs, r ∉ ops_part0_W) r hr))

theorem pre_nodes (V : Valuation τ sig (Elt Ideal)) :
    clamp bcast_S_S100000x64 (win2 (win1 (win0 V)) (Proc.devRef .tc main_v158))
      = refNodes (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [show win2 (win1 (win0 V)) (Proc.devRef .tc main_v158) = _ from w2_v158 _]
  rw [show win1 (win0 V) (Proc.devRef .tc main_v101) = _ from w1_v101 _, show win1 (win0 V) (Proc.devRef .tc main_v105) = _ from w1_v105 _,
    win1_keep _ main_v1 (by decide), win1_keep _ main_v3 (by decide)]
  rw [show win0 V (Proc.devRef .tc main_v49) = _ from w0_v49 _, show win0 V (Proc.devRef .tc main_v52) = _ from w0_v52 _,
    show win0 V (Proc.devRef .tc main_v1) = _ from w0_v1 _, show win0 V (Proc.devRef .tc main_v3) = _ from w0_v3 _]
  simp (disch := decide) only [win0_keep, win1_keep]
  rfl

theorem after_pooled (V : Valuation τ sig (Elt Ideal)) :
    after ops V (Proc.devRef .tc main_v162) = refPooled (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_wins, show win3 (win2 (win1 (win0 V))) (Proc.devRef .tc main_v162) = _ from w3_v162 _, pre_nodes,
    wins_arg _ main_arg2 (by decide)]
  rfl

theorem after_out (V : Valuation τ sig (Elt Ideal)) :
    after ops V (Proc.devRef .tc main_v190) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [after_wins, show win3 (win2 (win1 (win0 V))) (Proc.devRef .tc main_v190) = _ from w3_v190 _, pre_nodes,
    wins_arg _ main_arg2 (by decide), wins_arg _ main_arg9 (by decide), wins_arg _ main_arg10 (by decide), wins_arg _ main_arg11 (by decide), wins_arg _ main_arg12 (by decide), wins_arg _ main_arg13 (by decide), wins_arg _ main_arg14 (by decide)]
  rfl

end

theorem after_pooled_k (V : Valuation τ sig (Elt Ideal)) :
    after ops V (Proc.devRef .tc main_v162) = Cert.Layers.kPooled (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (after_pooled V).trans (refPooled_eq_kPooled _ _ _ _ _ _ _ _ _)

theorem after_out_k (V : Valuation τ sig (Elt Ideal)) :
    after ops V (Proc.devRef .tc main_v190)
      = Cert.Layers.kOut (Cert.Layers.kPooled (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)))
          (V (Proc.devRef .tc main_arg9)) (V (Proc.devRef .tc main_arg10)) (V (Proc.devRef .tc main_arg11)) (V (Proc.devRef .tc main_arg12)) (V (Proc.devRef .tc main_arg13)) (V (Proc.devRef .tc main_arg14)) :=
  (after_out V).trans (refOut_eq_kOut _ _ _ _ _ _ _ _ _ _ _ _ _ _ _)

end Cert.ReferenceIdeal.Hand

end
-- ==== Proof.PreReal.lean ====
import proofs.«181289_j42949672960516_1_alg».proof.Defs
import proofs.«181289_j42949672960516_1_alg».proof.Proof.Gen.Pre_finite_inputs
import proofs.«181289_j42949672960516_1_alg».proof.Proof.Spec
import Idealize.ShloMosaic.Lib.ReduceAll
import Idealize.ShloMosaic.Lib.ValueIdx

noncomputable section

namespace Cert.PreReal

open Idealize.ShloMosaic Idealize.SL.Sem
open Cert.Pre_finite_inputs
open Cert.Spec (IsReal)
open Cert.KernelIdeal (nD τ sig main_arg0 main_arg3 main_arg4 main_arg5 main_arg6 main_arg7 main_arg8 main_arg9 main_arg10 main_arg11 main_arg12
  main_arg13 main_arg14)

instance : Subsingleton S_.Idx := ⟨fun a b => funext fun d => d.elim0⟩

theorem inf_eq_top : Ideal.ofBits .f32 0x7F800000#32 = (⊤ : EReal) := by
  simp [Ideal.ofBits, Ideal.ieee]

theorem isReal_of_abs_lt_inf (x : EReal)
    (h : Ideal.cmp .olt (max x (-x)) (Ideal.ofBits .f32 0x7F800000#32) = 1#1) : IsReal x := by
  rw [inf_eq_top] at h
  have h' : max x (-x) < ⊤ := by
    by_contra hn
    simp [Ideal.cmp, hn] at h
  induction x using EReal.rec with
  | bot => simp at h'
  | coe r => exact ⟨r, rfl⟩
  | top => simp at h'

theorem real_of_all {s : Shape} {axes : List (Fin s.rank)} (v : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf (F := Ideal) v) (broadcastInDim s ![] hb (constant (F := Ideal) S_ .f32 0x7F800000#32)))
          init hr hu ValueIdx.ix0 = 1#1) :
    ∀ i, IsReal (v i) := fun i =>
  isReal_of_abs_lt_inf (v i) (Host.reduce_andi_all _ init hr hu ValueIdx.ix0 e i)

theorem real_of_pre [hP : Cert.Pre_finite_inputs.Facts]
    (a0 : FVec Ideal S100000x64 .f32) (a1 : IVec S2x1000000 32) (a2 : IVec S100000 32)
    (a3 : FVec Ideal S3x64x64 .f32) (a4 a5 a6 : FVec Ideal S3x64 .f32) (a7 : FVec Ideal S3x64x64 .f32)
    (a8 : FVec Ideal S3x64 .f32) (a9 : FVec Ideal S64x64 .f32) (a10 a11 a12 : FVec Ideal S64 .f32)
    (a13 : FVec Ideal S64x2 .f32) (a14 : FVec Ideal S2 .f32)
    (h : Cert.Pre_finite_inputs.fn (F := Ideal) a0 a1 a2 a3 a4 a5 a6 a7 a8 a9 a10 a11 a12 a13 a14 = fun _ => 1#1) :
    (∀ i, IsReal (a0 i)) ∧
    (∀ i, IsReal (a3 i)) ∧
    (∀ i, IsReal (a4 i)) ∧
    (∀ i, IsReal (a5 i)) ∧
    (∀ i, IsReal (a6 i)) ∧
    (∀ i, IsReal (a7 i)) ∧
    (∀ i, IsReal (a8 i)) ∧
    (∀ i, IsReal (a9 i)) ∧
    (∀ i, IsReal (a10 i)) ∧
    (∀ i, IsReal (a11 i)) ∧
    (∀ i, IsReal (a12 i)) ∧
    (∀ i, IsReal (a13 i)) ∧
    (∀ i, IsReal (a14 i)) := by
  have h0 := congrFun h ValueIdx.ix0
  dsimp only [fn, fn_part1, fn_part2, fn_part3, andi] at h0
  simp only [IntOp.andi_eq_one] at h0
  obtain ⟨⟨⟨⟨⟨⟨⟨⟨⟨⟨⟨⟨e0, e3⟩, e4⟩, e5⟩, e6⟩, e7⟩, e8⟩, e9⟩, e10⟩, e11⟩, e12⟩, e13⟩, e14⟩ := h0
  exact ⟨real_of_all a0 _ _ _ _ e0,
    real_of_all a3 _ _ _ _ e3,
    real_of_all a4 _ _ _ _ e4,
    real_of_all a5 _ _ _ _ e5,
    real_of_all a6 _ _ _ _ e6,
    real_of_all a7 _ _ _ _ e7,
    real_of_all a8 _ _ _ _ e8,
    real_of_all a9 _ _ _ _ e9,
    real_of_all a10 _ _ _ _ e10,
    real_of_all a11 _ _ _ _ e11,
    real_of_all a12 _ _ _ _ e12,
    real_of_all a13 _ _ _ _ e13,
    real_of_all a14 _ _ _ _ e14⟩

theorem real_of_Pre_KernelIdeal [hP : Cert.Pre_finite_inputs.Facts]
    (m : (ℓ : Loc nD Cert.KernelIdeal.τ sig) → Buf (Elt Ideal) ℓ)
    (h : Cert.Pre_KernelIdeal m) (c : Dev nD) :
    (∀ i, IsReal ((m ((c.tc : Thread nD Cert.KernelIdeal.τ).loc main_arg0) : FVec Ideal S100000x64 .f32) i)) ∧
    (∀ i, IsReal ((m ((c.tc : Thread nD Cert.KernelIdeal.τ).loc main_arg3) : FVec Ideal S3x64x64 .f32) i)) ∧
    (∀ i, IsReal ((m ((c.tc : Thread nD Cert.KernelIdeal.τ).loc main_arg4) : FVec Ideal S3x64 .f32) i)) ∧
    (∀ i, IsReal ((m ((c.tc : Thread nD Cert.KernelIdeal.τ).loc main_arg5) : FVec Ideal S3x64 .f32) i)) ∧
    (∀ i, IsReal ((m ((c.tc : Thread nD Cert.KernelIdeal.τ).loc main_arg6) : FVec Ideal S3x64 .f32) i)) ∧
    (∀ i, IsReal ((m ((c.tc : Thread nD Cert.KernelIdeal.τ).loc main_arg7) : FVec Ideal S3x64x64 .f32) i)) ∧
    (∀ i, IsReal ((m ((c.tc : Thread nD Cert.KernelIdeal.τ).loc main_arg8) : FVec Ideal S3x64 .f32) i)) ∧
    (∀ i, IsReal ((m ((c.tc : Thread nD Cert.KernelIdeal.τ).loc main_arg9) : FVec Ideal S64x64 .f32) i)) ∧
    (∀ i, IsReal ((m ((c.tc : Thread nD Cert.KernelIdeal.τ).loc main_arg10) : FVec Ideal S64 .f32) i)) ∧
    (∀ i, IsReal ((m ((c.tc : Thread nD Cert.KernelIdeal.τ).loc main_arg11) : FVec Ideal S64 .f32) i)) ∧
    (∀ i, IsReal ((m ((c.tc : Thread nD Cert.KernelIdeal.τ).loc main_arg12) : FVec Ideal S64 .f32) i)) ∧
    (∀ i, IsReal ((m ((c.tc : Thread nD Cert.KernelIdeal.τ).loc main_arg13) : FVec Ideal S64x2 .f32) i)) ∧
    (∀ i, IsReal ((m ((c.tc : Thread nD Cert.KernelIdeal.τ).loc main_arg14) : FVec Ideal S2 .f32) i)) :=
  real_of_pre _ _ _ _ _ _ _ _ _ _ _ _ _ _ _ (h c)

end Cert.PreReal

end
-- ==== Proof.lean ====
import proofs.«181289_j42949672960516_1_alg».proof.Defs
import proofs.«181289_j42949672960516_1_alg».proof.Proof.Gen.Kernel
import proofs.«181289_j42949672960516_1_alg».proof.Proof.Gen.KernelIdeal
import proofs.«181289_j42949672960516_1_alg».proof.Proof.Gen.ReferenceIdeal
import proofs.«181289_j42949672960516_1_alg».proof.Proof.Gen.Pre_finite_inputs
import proofs.«181289_j42949672960516_1_alg».proof.Proof.K.Run
import proofs.«181289_j42949672960516_1_alg».proof.Proof.KI.Run
import proofs.«181289_j42949672960516_1_alg».proof.Proof.KI.ValChain
import proofs.«181289_j42949672960516_1_alg».proof.Proof.Ref.Run
import proofs.«181289_j42949672960516_1_alg».proof.Proof.Ref.After
import proofs.«181289_j42949672960516_1_alg».proof.Proof.PreReal
import proofs.«181289_j42949672960516_1_alg».proof.Proof.Layers

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run (Cert.ReferenceIdeal.defs (F := Ideal)) _ _).mono
    (fun r h c => by
      refine ⟨?_, ?_, ?_, ?_, ?_, ?_, ?_, ?_, ?_, ?_, ?_, ?_, ?_, ?_, ?_⟩ <;>
        exact (h c _).trans (Cert.ReferenceIdeal.Hand.after_arg _ _ (by decide)))
    (Cert.ReferenceIdeal.Hand.run (F := Ideal) m ρ)

theorem preserves : Cert.preserves_Kernel_KernelIdeal := trivial

theorem pooled_congr {a0 b0 : _} {a1 b1 : _} {a2 b2 : _} {a3 b3 : _} {a4 b4 : _} {a5 b5 : _} {a6 b6 : _} {a7 b7 : _} {a8 b8 : _} (e0 : a0 = b0) (e1 : a1 = b1) (e2 : a2 = b2) (e3 : a3 = b3) (e4 : a4 = b4) (e5 : a5 = b5) (e6 : a6 = b6) (e7 : a7 = b7) (e8 : a8 = b8) :
    Cert.Layers.kPooled a0 a1 a2 a3 a4 a5 a6 a7 a8 = Cert.Layers.kPooled b0 b1 b2 b3 b4 b5 b6 b7 b8 := by
  subst_vars; rfl

theorem out_congr {p q : _} {a9 b9 : _} {a10 b10 : _} {a11 b11 : _} {a12 b12 : _} {a13 b13 : _} {a14 b14 : _} (e : p = q) (e9 : a9 = b9) (e10 : a10 = b10) (e11 : a11 = b11) (e12 : a12 = b12) (e13 : a13 = b13) (e14 : a14 = b14) :
    Cert.Layers.kOut p a9 a10 a11 a12 a13 a14 = Cert.Layers.kOut q b9 b10 b11 b12 b13 b14 := by
  subst_vars; rfl

theorem algebraic : Cert.algebraic_KernelIdeal_ReferenceIdeal := by
  intro m ρ m' ρ' hpre hagree
  refine ⟨fun c => Cert.Layers.kOut (Cert.KernelIdeal.HandVal.PL m c) (Cert.KernelIdeal.HandVal.A9 m c) (Cert.KernelIdeal.HandVal.A10 m c) (Cert.KernelIdeal.HandVal.A11 m c) (Cert.KernelIdeal.HandVal.A12 m c) (Cert.KernelIdeal.HandVal.A13 m c) (Cert.KernelIdeal.HandVal.A14 m c),
    fun c => Cert.KernelIdeal.HandVal.PL m c, ?_, ?_⟩
  · refine (θ_run (Cert.KernelIdeal.defs (F := Ideal)) _ _).mono (fun r h c => ?_) (Cert.KernelIdeal.Hand.run_refs (F := Ideal) m ρ)
    obtain ⟨h0, h3, h4, h5, h6, h7, h8, -⟩ := Cert.PreReal.real_of_Pre_KernelIdeal m hpre c
    refine ⟨(h c Cert.KernelIdeal.main_v131 (by decide)).trans (Cert.KernelIdeal.HandVal.kernel_out m c h0 h3 h4 h5 h6 h7 h8),
      (h c Cert.KernelIdeal.main_v126 (by decide)).trans (Cert.KernelIdeal.HandVal.kernel_pooled m c h0 h3 h4 h5 h6 h7 h8),
      ?_, ?_, ?_, ?_, ?_, ?_, ?_, ?_, ?_, ?_, ?_, ?_, ?_, ?_, ?_⟩ <;>
      exact (h c _ (by decide)).trans (Cert.KernelIdeal.Hand.W14_arg m c _ (by decide))
  · refine (θ_run (Cert.ReferenceIdeal.defs (F := Ideal)) _ _).mono (fun r h c => ?_) (Cert.ReferenceIdeal.Hand.run (F := Ideal) m' ρ')
    obtain ⟨e0, e1, e2, e3, e4, e5, e6, e7, e8, e9, e10, e11, e12, e13, e14⟩ := hagree c
    refine ⟨(h c Cert.ReferenceIdeal.main_v190).trans ((Cert.ReferenceIdeal.Hand.after_out_k _).trans ?_),
      (h c Cert.ReferenceIdeal.main_v162).trans ((Cert.ReferenceIdeal.Hand.after_pooled_k _).trans ?_),
      ?_, ?_, ?_, ?_, ?_, ?_, ?_, ?_, ?_, ?_, ?_, ?_, ?_, ?_, ?_⟩
    · exact out_congr (pooled_congr e0 e1 e2 e3 e4 e5 e6 e7 e8) e9 e10 e11 e12 e13 e14
    · exact pooled_congr e0 e1 e2 e3 e4 e5 e6 e7 e8
    all_goals exact (h c _).trans (Cert.ReferenceIdeal.Hand.after_arg _ _ (by decide))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
